-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v92)) (v2 : (c : Dev Cert.KernelIdeal.nD) → Buf (Elt Ideal) ((c.tc : Thread Cert.KernelIdeal.nD Cert.KernelIdeal.τ).loc Cert.KernelIdeal.main_v91)) (v3 : (c : Dev Cert.KernelIdeal.nD) → Buf (Elt Ideal) ((c.tc : Thread Cert.KernelIdeal.nD Cert.KernelIdeal.τ).loc Cert.KernelIdeal.main_v88)) (v4 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_v91) = v2 c
          ∧ r.2.mem ((c.tc : Thread Cert.KernelIdeal.nD Cert.KernelIdeal.τ).loc Cert.KernelIdeal.main_v88) = v3 c
          ∧ r.2.mem ((c.tc : Thread Cert.KernelIdeal.nD Cert.KernelIdeal.τ).loc Cert.KernelIdeal.main_v96) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_v273) = v1 c
          ∧ r.2.mem ((c.tc : Thread Cert.ReferenceIdeal.nD Cert.ReferenceIdeal.τ).loc Cert.ReferenceIdeal.main_v272) = v2 c
          ∧ r.2.mem ((c.tc : Thread Cert.ReferenceIdeal.nD Cert.ReferenceIdeal.τ).loc Cert.ReferenceIdeal.main_v251) = v3 c
          ∧ r.2.mem ((c.tc : Thread Cert.ReferenceIdeal.nD Cert.ReferenceIdeal.τ).loc Cert.ReferenceIdeal.main_v277) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S600000x6 : Shape := ⟨2, ![600000, 6]⟩
abbrev S2x600000 : Shape := ⟨2, ![2, 600000]⟩
abbrev S5x128 : Shape := ⟨2, ![5, 128]⟩
abbrev S128 : Shape := ⟨1, ![128]⟩
abbrev S128x128 : Shape := ⟨2, ![128, 128]⟩
abbrev S6x128 : Shape := ⟨2, ![6, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S64x1 : Shape := ⟨2, ![64, 1]⟩
abbrev S1 : Shape := ⟨1, ![1]⟩
abbrev S_ : Shape := ⟨0, ![]⟩
abbrev S1x600000 : Shape := ⟨2, ![1, 600000]⟩
abbrev S600000 : Shape := ⟨1, ![600000]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S600000x6 : S_.BroadcastsInDim S600000x6 (![] : Fin 0 → Fin S600000x6.rank)
  reducesTo_S600000x6_S_d0_1 : S600000x6.ReducesTo [0, 1] S_
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S6x128 : S_.BroadcastsInDim S6x128 (![] : Fin 0 → Fin S6x128.rank)
  reducesTo_S6x128_S_d0_1 : S6x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  reducesTo_S_S_d : S_.ReducesTo [] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part8 {F : FTy → Type} [FloatOps F] (main_arg2 : IVec S2x600000 32) (main_arg29 : FVec F S_ .f32) (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  let main_v139 : FVec F S_ .f32 := Host.absf main_arg29
  let main_cst_54 : FVec F S_ .f32 := constant S_ .f32 0x7F800000#32
  let main_v140 : IVec S_ 1 := cmpf .olt main_v139 main_cst_54
  let main_c_55 : IVec S_ 1 := constantI S_ 1 1#1
  let main_v141 : IVec S_ 1 := (fun x v => Host.reduce IntOp.andi x v reducesTo_S_S_d h_S_) main_v140 main_c_55
  let main_v142 : IVec S_ 1 := andi main_v138 main_v141
  let main_v143 : IVec S1x600000 32 := (extractStridedSlice S1x600000 ![0, 0] · slices_S2x600000_S1x600000_0_0) main_arg2
  let main_v144 : IVec S600000 32 := shapeCast S600000 main_v143 shapeCasts_S1x600000_S600000
  let main_c_56 : IVec S_ 32 := constantI S_ 32 0#32
  let main_v145 : IVec S600000 32 := broadcastInDim S600000 ![] bcast_S_S600000 main_c_56
  let main_v146 : IVec S600000 1 := cmpi .sge main_v144 main_v145
  let main_v147 : IVec S1x600000 32 := (extractStridedSlice S1x600000 ![0, 0] · slices_S2x600000_S1x600000_0_0) main_arg2
  let main_v148 : IVec S600000 32 := shapeCast S600000 main_v147 shapeCasts_S1x600000_S600000
  let main_c_57 : IVec S_ 32 := constantI S_ 32 50000#32
  let main_v149 : IVec S600000 32 := broadcastInDim S600000 ![] bcast_S_S600000 main_c_57
  let main_v150 : IVec S600000 1 := cmpi .slt main_v148 main_v149
  let main_v151 : IVec S600000 1 := andi main_v146 main_v150
  let main_c_58 : IVec S_ 1 := constantI S_ 1 1#1
  let main_v152 : IVec S_ 1 := (fun x v => Host.reduce IntOp.andi x v reducesTo_S600000_S_d0 h_S_) main_v151 main_c_58
  let main_v153 : IVec S_ 1 := andi main_v142 main_v152
  main_v153

def fn_part7 {F : FTy → Type} [FloatOps F] (main_arg2 : IVec S2x600000 32) (main_arg26 : FVec F S64 .f32) (main_arg27 : FVec F S64x1 .f32) (main_arg28 : FVec F S1 .f32) (main_arg29 : FVec F S_ .f32) (main_v118 : IVec S_ 1) (main_v119 : FVec F S128x64 .f32) : IVec S_ 1 :=
  let main_cst_46 : FVec F S_ .f32 := constant S_ .f32 0x7F800000#32
  let main_v120 : FVec F S128x64 .f32 := broadcastInDim S128x64 ![] bcast_S_S128x64 main_cst_46
  let main_v121 : IVec S128x64 1 := cmpf .olt main_v119 main_v120
  let main_c_47 : IVec S_ 1 := constantI S_ 1 1#1
  let main_v122 : IVec S_ 1 := (fun x v => Host.reduce IntOp.andi x v reducesTo_S128x64_S_d0_1 h_S_) main_v121 main_c_47
  let main_v123 : IVec S_ 1 := andi main_v118 main_v122
  let main_v124 : FVec F S64 .f32 := Host.absf main_arg26
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x1 .f32 := Host.absf main_arg27
  let main_cst_50 : FVec F S_ .f32 := constant S_ .f32 0x7F800000#32
  let main_v130 : FVec F S64x1 .f32 := broadcastInDim S64x1 ![] bcast_S_S64x1 main_cst_50
  let main_v131 : IVec S64x1 1 := cmpf .olt main_v129 main_v130
  let main_c_51 : IVec S_ 1 := constantI S_ 1 1#1
  let main_v132 : IVec S_ 1 := (fun x v => Host.reduce IntOp.andi x v reducesTo_S64x1_S_d0_1 h_S_) main_v131 main_c_51
  let main_v133 : IVec S_ 1 := andi main_v128 main_v132
  let main_v134 : FVec F S1 .f32 := Host.absf main_arg28
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_arg2 main_arg29 main_v133 main_v136

def fn_part6 {F : FTy → Type} [FloatOps F] (main_arg2 : IVec S2x600000 32) (main_arg22 : FVec F S64 .f32) (main_arg23 : FVec F S64x3 .f32) (main_arg24 : FVec F S3 .f32) (main_arg25 : FVec F S128x64 .f32) (main_arg26 : FVec F S64 .f32) (main_arg27 : FVec F S64x1 .f32) (main_arg28 : FVec F S1 .f32) (main_arg29 : FVec F S_ .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x3 .f32 := Host.absf main_arg23
  let main_cst_42 : FVec F S_ .f32 := constant S_ .f32 0x7F800000#32
  let main_v110 : FVec F S64x3 .f32 := broadcastInDim S64x3 ![] bcast_S_S64x3 main_cst_42
  let main_v111 : IVec S64x3 1 := cmpf .olt main_v109 main_v110
  let main_c_43 : IVec S_ 1 := constantI S_ 1 1#1
  let main_v112 : IVec S_ 1 := (fun x v => Host.reduce IntOp.andi x v reducesTo_S64x3_S_d0_1 h_S_) main_v111 main_c_43
  let main_v113 : IVec S_ 1 := andi main_v108 main_v112
  let main_v114 : FVec F S3 .f32 := Host.absf main_arg24
  let main_cst_44 : FVec F S_ .f32 := constant S_ .f32 0x7F800000#32
  let main_v115 : FVec F S3 .f32 := broadcastInDim S3 ![] bcast_S_S3 main_cst_44
  let main_v116 : IVec S3 1 := cmpf .olt main_v114 main_v115
  let main_c_45 : IVec S_ 1 := constantI S_ 1 1#1
  let main_v117 : IVec S_ 1 := (fun x v => Host.reduce IntOp.andi x v reducesTo_S3_S_d0 h_S_) main_v116 main_c_45
  let main_v118 : IVec S_ 1 := andi main_v113 main_v117
  let main_v119 : FVec F S128x64 .f32 := Host.absf main_arg25
  fn_part7 (F := F) main_arg2 main_arg26 main_arg27 main_arg28 main_arg29 main_v118 main_v119

def fn_part5 {F : FTy → Type} [FloatOps F] (main_arg2 : IVec S2x600000 32) (main_arg19 : FVec F S3x128 .f32) (main_arg20 : FVec F S3x128 .f32) (main_arg21 : FVec F S128x64 .f32) (main_arg22 : FVec F S64 .f32) (main_arg23 : FVec F S64x3 .f32) (main_arg24 : FVec F S3 .f32) (main_arg25 : FVec F S128x64 .f32) (main_arg26 : FVec F S64 .f32) (main_arg27 : FVec F S64x1 .f32) (main_arg28 : FVec F S1 .f32) (main_arg29 : FVec F S_ .f32) (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  let main_v89 : FVec F S3x128 .f32 := Host.absf main_arg19
  let main_cst_34 : FVec F S_ .f32 := constant S_ .f32 0x7F800000#32
  let main_v90 : FVec F S3x128 .f32 := broadcastInDim S3x128 ![] bcast_S_S3x128 main_cst_34
  let main_v91 : IVec S3x128 1 := cmpf .olt main_v89 main_v90
  let main_c_35 : IVec S_ 1 := constantI S_ 1 1#1
  let main_v92 : IVec S_ 1 := (fun x v => Host.reduce IntOp.andi x v reducesTo_S3x128_S_d0_1 h_S_) main_v91 main_c_35
  let main_v93 : IVec S_ 1 := andi main_v88 main_v92
  let main_v94 : FVec F S3x128 .f32 := Host.absf main_arg20
  let main_cst_36 : FVec F S_ .f32 := constant S_ .f32 0x7F800000#32
  let main_v95 : FVec F S3x128 .f32 := broadcastInDim S3x128 ![] bcast_S_S3x128 main_cst_36
  let main_v96 : IVec S3x128 1 := cmpf .olt main_v94 main_v95
  let main_c_37 : IVec S_ 1 := constantI S_ 1 1#1
  let main_v97 : IVec S_ 1 := (fun x v => Host.reduce IntOp.andi x v reducesTo_S3x128_S_d0_1 h_S_) main_v96 main_c_37
  let main_v98 : IVec S_ 1 := andi main_v93 main_v97
  let main_v99 : FVec F S128x64 .f32 := Host.absf main_arg21
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg2 main_arg22 main_arg23 main_arg24 main_arg25 main_arg26 main_arg27 main_arg28 main_arg29 main_v98 main_v101 main_c_39

def fn_part4 {F : FTy → Type} [FloatOps F] (main_arg2 : IVec S2x600000 32) (main_arg15 : FVec F S3x128x128 .f32) (main_arg16 : FVec F S3x128 .f32) (main_arg17 : FVec F S3x128x128 .f32) (main_arg18 : FVec F S3x128 .f32) (main_arg19 : FVec F S3x128 .f32) (main_arg20 : FVec F S3x128 .f32) (main_arg21 : FVec F S128x64 .f32) (main_arg22 : FVec F S64 .f32) (main_arg23 : FVec F S64x3 .f32) (main_arg24 : FVec F S3 .f32) (main_arg25 : FVec F S128x64 .f32) (main_arg26 : FVec F S64 .f32) (main_arg27 : FVec F S64x1 .f32) (main_arg28 : FVec F S1 .f32) (main_arg29 : FVec F S_ .f32) (main_v63 : IVec S_ 1) (main_v67 : IVec S_ 1) : IVec S_ 1 :=
  let main_v68 : IVec S_ 1 := andi main_v63 main_v67
  let main_v69 : FVec F S3x128x128 .f32 := Host.absf main_arg15
  let main_cst_26 : FVec F S_ .f32 := constant S_ .f32 0x7F800000#32
  let main_v70 : FVec F S3x128x128 .f32 := broadcastInDim S3x128x128 ![] bcast_S_S3x128x128 main_cst_26
  let main_v71 : IVec S3x128x128 1 := cmpf .olt main_v69 main_v70
  let main_c_27 : IVec S_ 1 := constantI S_ 1 1#1
  let main_v72 : IVec S_ 1 := (fun x v => Host.reduce IntOp.andi x v reducesTo_S3x128x128_S_d0_1_2 h_S_) main_v71 main_c_27
  let main_v73 : IVec S_ 1 := andi main_v68 main_v72
  let main_v74 : FVec F S3x128 .f32 := Host.absf main_arg16
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S3x128x128 .f32 := Host.absf main_arg17
  let main_cst_30 : FVec F S_ .f32 := constant S_ .f32 0x7F800000#32
  let main_v80 : FVec F S3x128x128 .f32 := broadcastInDim S3x128x128 ![] bcast_S_S3x128x128 main_cst_30
  let main_v81 : IVec S3x128x128 1 := cmpf .olt main_v79 main_v80
  let main_c_31 : IVec S_ 1 := constantI S_ 1 1#1
  let main_v82 : IVec S_ 1 := (fun x v => Host.reduce IntOp.andi x v reducesTo_S3x128x128_S_d0_1_2 h_S_) main_v81 main_c_31
  let main_v83 : IVec S_ 1 := andi main_v78 main_v82
  let main_v84 : FVec F S3x128 .f32 := Host.absf main_arg18
  let main_cst_32 : FVec F S_ .f32 := constant S_ .f32 0x7F800000#32
  fn_part5 (F := F) main_arg2 main_arg19 main_arg20 main_arg21 main_arg22 main_arg23 main_arg24 main_arg25 main_arg26 main_arg27 main_arg28 main_arg29 main_v83 main_v84 main_cst_32

def fn_part3 {F : FTy → Type} [FloatOps F] (main_arg2 : IVec S2x600000 32) (main_arg12 : FVec F S128 .f32) (main_arg13 : FVec F S128 .f32) (main_arg14 : FVec F S128 .f32) (main_arg15 : FVec F S3x128x128 .f32) (main_arg16 : FVec F S3x128 .f32) (main_arg17 : FVec F S3x128x128 .f32) (main_arg18 : FVec F S3x128 .f32) (main_arg19 : FVec F S3x128 .f32) (main_arg20 : FVec F S3x128 .f32) (main_arg21 : FVec F S128x64 .f32) (main_arg22 : FVec F S64 .f32) (main_arg23 : FVec F S64x3 .f32) (main_arg24 : FVec F S3 .f32) (main_arg25 : FVec F S128x64 .f32) (main_arg26 : FVec F S64 .f32) (main_arg27 : FVec F S64x1 .f32) (main_arg28 : FVec F S1 .f32) (main_arg29 : FVec F S_ .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg2 : IVec S2x600000 32) (main_arg8 : FVec F S128 .f32) (main_arg9 : FVec F S6x128 .f32) (main_arg10 : FVec F S128 .f32) (main_arg11 : FVec F S128x128 .f32) (main_arg12 : FVec F S128 .f32) (main_arg13 : FVec F S128 .f32) (main_arg14 : FVec F S128 .f32) (main_arg15 : FVec F S3x128x128 .f32) (main_arg16 : FVec F S3x128 .f32) (main_arg17 : FVec F S3x128x128 .f32) (main_arg18 : FVec F S3x128 .f32) (main_arg19 : FVec F S3x128 .f32) (main_arg20 : FVec F S3x128 .f32) (main_arg21 : FVec F S128x64 .f32) (main_arg22 : FVec F S64 .f32) (main_arg23 : FVec F S64x3 .f32) (main_arg24 : FVec F S3 .f32) (main_arg25 : FVec F S128x64 .f32) (main_arg26 : FVec F S64 .f32) (main_arg27 : FVec F S64x1 .f32) (main_arg28 : FVec F S1 .f32) (main_arg29 : FVec F S_ .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S6x128 .f32 := Host.absf main_arg9
  let main_cst_14 : FVec F S_ .f32 := constant S_ .f32 0x7F800000#32
  let main_v40 : FVec F S6x128 .f32 := broadcastInDim S6x128 ![] bcast_S_S6x128 main_cst_14
  let main_v41 : IVec S6x128 1 := cmpf .olt main_v39 main_v40
  let main_c_15 : IVec S_ 1 := constantI S_ 1 1#1
  let main_v42 : IVec S_ 1 := (fun x v => Host.reduce IntOp.andi x v reducesTo_S6x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg2 : IVec S2x600000 32) (main_arg5 : FVec F S128x128 .f32) (main_arg6 : FVec F S128 .f32) (main_arg7 : FVec F S128 .f32) (main_arg8 : FVec F S128 .f32) (main_arg9 : FVec F S6x128 .f32) (main_arg10 : FVec F S128 .f32) (main_arg11 : FVec F S128x128 .f32) (main_arg12 : FVec F S128 .f32) (main_arg13 : FVec F S128 .f32) (main_arg14 : FVec F S128 .f32) (main_arg15 : FVec F S3x128x128 .f32) (main_arg16 : FVec F S3x128 .f32) (main_arg17 : FVec F S3x128x128 .f32) (main_arg18 : FVec F S3x128 .f32) (main_arg19 : FVec F S3x128 .f32) (main_arg20 : FVec F S3x128 .f32) (main_arg21 : FVec F S128x64 .f32) (main_arg22 : FVec F S64 .f32) (main_arg23 : FVec F S64x3 .f32) (main_arg24 : FVec F S3 .f32) (main_arg25 : FVec F S128x64 .f32) (main_arg26 : FVec F S64 .f32) (main_arg27 : FVec F S64x1 .f32) (main_arg28 : FVec F S1 .f32) (main_arg29 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x5 .f32) (main_arg1 : FVec F S600000x6 .f32) (main_arg2 : IVec S2x600000 32) (main_arg3 : FVec F S5x128 .f32) (main_arg4 : FVec F S128 .f32) (main_arg5 : FVec F S128x128 .f32) (main_arg6 : FVec F S128 .f32) (main_arg7 : FVec F S128 .f32) (main_arg8 : FVec F S128 .f32) (main_arg9 : FVec F S6x128 .f32) (main_arg10 : FVec F S128 .f32) (main_arg11 : FVec F S128x128 .f32) (main_arg12 : FVec F S128 .f32) (main_arg13 : FVec F S128 .f32) (main_arg14 : FVec F S128 .f32) (main_arg15 : FVec F S3x128x128 .f32) (main_arg16 : FVec F S3x128 .f32) (main_arg17 : FVec F S3x128x128 .f32) (main_arg18 : FVec F S3x128 .f32) (main_arg19 : FVec F S3x128 .f32) (main_arg20 : FVec F S3x128 .f32) (main_arg21 : FVec F S128x64 .f32) (main_arg22 : FVec F S64 .f32) (main_arg23 : FVec F S64x3 .f32) (main_arg24 : FVec F S3 .f32) (main_arg25 : FVec F S128x64 .f32) (main_arg26 : FVec F S64 .f32) (main_arg27 : FVec F S64x1 .f32) (main_arg28 : FVec F S1 .f32) (main_arg29 : FVec F S_ .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S600000x6 .f32 := Host.absf main_arg1
  let main_cst_0 : FVec F S_ .f32 := constant S_ .f32 0x7F800000#32
  let main_v5 : FVec F S600000x6 .f32 := broadcastInDim S600000x6 ![] bcast_S_S600000x6 main_cst_0
  let main_v6 : IVec S600000x6 1 := cmpf .olt main_v4 main_v5
  let main_c_1 : IVec S_ 1 := constantI S_ 1 1#1
  let main_v7 : IVec S_ 1 := (fun x v => Host.reduce IntOp.andi x v reducesTo_S600000x6_S_d0_1 h_S_) main_v6 main_c_1
  let main_v8 : IVec S_ 1 := andi main_v3 main_v7
  let main_v9 : FVec F S5x128 .f32 := Host.absf main_arg3
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x5 : Shape := ⟨2, ![50000, 5]⟩
abbrev S600000x6 : Shape := ⟨2, ![600000, 6]⟩
abbrev S2x600000 : Shape := ⟨2, ![2, 600000]⟩
abbrev S5x128 : Shape := ⟨2, ![5, 128]⟩
abbrev S128 : Shape := ⟨1, ![128]⟩
abbrev S128x128 : Shape := ⟨2, ![128, 128]⟩
abbrev S6x128 : Shape := ⟨2, ![6, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S64x1 : Shape := ⟨2, ![64, 1]⟩
abbrev S1 : Shape := ⟨1, ![1]⟩
abbrev S_ : Shape := ⟨0, ![]⟩
abbrev S1x600000 : Shape := ⟨2, ![1, 600000]⟩
abbrev S600000 : Shape := ⟨1, ![600000]⟩
abbrev S1x128 : Shape := ⟨2, ![1, 128]⟩
abbrev S50000x128 : Shape := ⟨2, ![50000, 128]⟩
abbrev S5000x5 : Shape := ⟨2, ![5000, 5]⟩
abbrev S5000x128 : Shape := ⟨2, ![5000, 128]⟩
abbrev S5000 : Shape := ⟨1, ![5000]⟩
abbrev S5000x1 : Shape := ⟨2, ![5000, 1]⟩
abbrev S600000x128 : Shape := ⟨2, ![600000, 128]⟩
abbrev S10000x6 : Shape := ⟨2, ![10000, 6]⟩
abbrev S10000x128 : Shape := ⟨2, ![10000, 128]⟩
abbrev S10000 : Shape := ⟨1, ![10000]⟩
abbrev S10000x1 : Shape := ⟨2, ![10000, 1]⟩
abbrev S600000x1 : Shape := ⟨2, ![600000, 1]⟩
abbrev S1x1 : Shape := ⟨2, ![1, 1]⟩
abbrev S1x128x128 : Shape := ⟨3, ![1, 128, 128]⟩
abbrev S1x64 : Shape := ⟨2, ![1, 64]⟩
abbrev S1x3 : Shape := ⟨2, ![1, 3]⟩
abbrev S50000x3 : Shape := ⟨2, ![50000, 3]⟩
abbrev S50000x1 : Shape := ⟨2, ![50000, 1]⟩
abbrev S5000x3 : Shape := ⟨2, ![5000, 3]⟩
abbrev S5000x64 : Shape := ⟨2, ![5000, 64]⟩

abbrev nBuf : Space → Nat
  | .hbm => 223
  | .vmem => 66
  | .smem => 0
  | _ => 0

abbrev hbmTy0_0 (i : Nat) : BufTy := match i % 128 with
  | 0 => ⟨S50000x5, .f32⟩
  | 1 => ⟨S600000x6, .f32⟩
  | 2 => ⟨S2x600000, .i32⟩
  | 3 => ⟨S5x128, .f32⟩
  | 4 => ⟨S128, .f32⟩
  | 5 => ⟨S128x128, .f32⟩
  | 6 => ⟨S128, .f32⟩
  | 7 => ⟨S128, .f32⟩
  | 8 => ⟨S128, .f32⟩
  | 9 => ⟨S6x128, .f32⟩
  | 10 => ⟨S128, .f32⟩
  | 11 => ⟨S128x128, .f32⟩
  | 12 => ⟨S128, .f32⟩
  | 13 => ⟨S128, .f32⟩
  | 14 => ⟨S128, .f32⟩
  | 15 => ⟨S3x128x128, .f32⟩
  | 16 => ⟨S3x128, .f32⟩
  | 17 => ⟨S3x128x128, .f32⟩
  | 18 => ⟨S3x128, .f32⟩
  | 19 => ⟨S3x128, .f32⟩
  | 20 => ⟨S3x128, .f32⟩
  | 21 => ⟨S128x64, .f32⟩
  | 22 => ⟨S64, .f32⟩
  | 23 => ⟨S64x3, .f32⟩
  | 24 => ⟨S3, .f32⟩
  | 25 => ⟨S128x64, .f32⟩
  | 26 => ⟨S64, .f32⟩
  | 27 => ⟨S64x1, .f32⟩
  | 28 => ⟨S1, .f32⟩
  | 29 => ⟨S_, .f32⟩
  | 30 => ⟨S1x600000, .i32⟩
  | 31 => ⟨S600000, .i32⟩
  | 32 => ⟨S1x600000, .i32⟩
  | 33 => ⟨S600000, .i32⟩
  | 34 => ⟨S1x128, .f32⟩
  | 35 => ⟨S1x128, .f32⟩
  | 36 => ⟨S1x128, .f32⟩
  | 37 => ⟨S1x128, .f32⟩
  | 38 => ⟨S50000x128, .f32⟩
  | 39 => ⟨S1x128, .f32⟩
  | 40 => ⟨S1x128, .f32⟩
  | 41 => ⟨S1x128, .f32⟩
  | 42 => ⟨S1x128, .f32⟩
  | 43 => ⟨S600000x128, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S1, .i32⟩
  | 53 => ⟨S_, .i32⟩
  | 54 => ⟨S600000x1, .i32⟩
  | 55 => ⟨S600000x1, .i1⟩
  | 56 => ⟨S1x1, .i32⟩
  | 57 => ⟨S600000x1, .i32⟩
  | 58 => ⟨S600000x1, .i1⟩
  | 59 => ⟨S600000x1, .i1⟩
  | 60 => ⟨S_, .i1⟩
  | 61 => ⟨S600000, .i1⟩
  | 62 => ⟨S600000x128, .f32⟩
  | 63 => ⟨S600000x128, .i1⟩
  | 64 => ⟨S_, .f32⟩
  | 65 => ⟨S600000x128, .f32⟩
  | 66 => ⟨S600000x128, .f32⟩
  | 67 => ⟨S600000x128, .f32⟩
  | 68 => ⟨S_, .f32⟩
  | 69 => ⟨S600000x128, .f32⟩
  | 70 => ⟨S600000x128, .f32⟩
  | 71 => ⟨S_, .f32⟩
  | 72 => ⟨S50000x128, .f32⟩
  | 73 => ⟨S600000x1, .i32⟩
  | 74 => ⟨S50000x128, .f32⟩
  | 75 => ⟨S1x128x128, .f32⟩
  | 76 => ⟨S128x128, .f32⟩
  | 77 => ⟨S1x128, .f32⟩
  | 78 => ⟨S128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S1x128, .f32⟩
  | 89 => ⟨S1x128, .f32⟩
  | 90 => ⟨S1x128, .f32⟩
  | 91 => ⟨S50000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S1, .i32⟩
  | 101 => ⟨S_, .i32⟩
  | 102 => ⟨S600000x1, .i32⟩
  | 103 => ⟨S600000x1, .i1⟩
  | 104 => ⟨S1x1, .i32⟩
  | 105 => ⟨S600000x1, .i32⟩
  | 106 => ⟨S600000x1, .i1⟩
  | 107 => ⟨S600000x1, .i1⟩
  | 108 => ⟨S_, .i1⟩
  | 109 => ⟨S600000, .i1⟩
  | 110 => ⟨S600000x128, .f32⟩
  | 111 => ⟨S600000x128, .i1⟩
  | 112 => ⟨S_, .f32⟩
  | 113 => ⟨S600000x128, .f32⟩
  | 114 => ⟨S600000x128, .f32⟩
  | 115 => ⟨S600000x128, .f32⟩
  | 116 => ⟨S_, .f32⟩
  | 117 => ⟨S600000x128, .f32⟩
  | 118 => ⟨S600000x128, .f32⟩
  | 119 => ⟨S_, .f32⟩
  | 120 => ⟨S50000x128, .f32⟩
  | 121 => ⟨S600000x1, .i32⟩
  | 122 => ⟨S50000x128, .f32⟩
  | 123 => ⟨S1x128x128, .f32⟩
  | 124 => ⟨S128x128, .f32⟩
  | 125 => ⟨S1x128, .f32⟩
  | 126 => ⟨S128, .f32⟩
  | 127 => ⟨S1x128x128, .f32⟩
  | _ => ⟨S50000x5, .f32⟩

abbrev hbmTy0_1 (i : Nat) : BufTy := match i % 128 with
  | 0 => ⟨S128x128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S1x128, .f32⟩
  | 9 => ⟨S1x128, .f32⟩
  | 10 => ⟨S1x128, .f32⟩
  | 11 => ⟨S50000x128, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S1, .i32⟩
  | 21 => ⟨S_, .i32⟩
  | 22 => ⟨S600000x1, .i32⟩
  | 23 => ⟨S600000x1, .i1⟩
  | 24 => ⟨S1x1, .i32⟩
  | 25 => ⟨S600000x1, .i32⟩
  | 26 => ⟨S600000x1, .i1⟩
  | 27 => ⟨S600000x1, .i1⟩
  | 28 => ⟨S_, .i1⟩
  | 29 => ⟨S600000, .i1⟩
  | 30 => ⟨S600000x128, .f32⟩
  | 31 => ⟨S600000x128, .i1⟩
  | 32 => ⟨S_, .f32⟩
  | 33 => ⟨S600000x128, .f32⟩
  | 34 => ⟨S600000x128, .f32⟩
  | 35 => ⟨S600000x128, .f32⟩
  | 36 => ⟨S_, .f32⟩
  | 37 => ⟨S600000x128, .f32⟩
  | 38 => ⟨S600000x128, .f32⟩
  | 39 => ⟨S_, .f32⟩
  | 40 => ⟨S50000x128, .f32⟩
  | 41 => ⟨S600000x1, .i32⟩
  | 42 => ⟨S50000x128, .f32⟩
  | 43 => ⟨S1x128x128, .f32⟩
  | 44 => ⟨S128x128, .f32⟩
  | 45 => ⟨S1x128, .f32⟩
  | 46 => ⟨S128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S1x128, .f32⟩
  | 57 => ⟨S1x128, .f32⟩
  | 58 => ⟨S1x128, .f32⟩
  | 59 => ⟨S1x64, .f32⟩
  | 60 => ⟨S1x3, .f32⟩
  | 61 => ⟨S1x64, .f32⟩
  | 62 => ⟨S1x1, .f32⟩
  | 63 => ⟨S50000x3, .f32⟩
  | 64 => ⟨S50000x1, .f32⟩
  | 65 => ⟨S_, .f32⟩
  | 66 => ⟨S_, .f32⟩
  | 67 => ⟨S_, .f32⟩
  | 68 => ⟨S_, .i1⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S50000x3, .f32⟩
  | 79 => ⟨S50000x3, .f32⟩
  | 80 => ⟨S_, .f32⟩
  | 81 => ⟨S_, .f32⟩
  | 82 => ⟨S_, .f32⟩
  | 83 => ⟨S50000x1, .f32⟩
  | 84 => ⟨S50000x1, .f32⟩
  | 85 => ⟨S_, .f32⟩
  | 86 => ⟨S50000x1, .f32⟩
  | 87 => ⟨S50000x1, .f32⟩
  | 88 => ⟨S50000x1, .f32⟩
  | 89 => ⟨S_, .f32⟩
  | 90 => ⟨S50000x1, .f32⟩
  | 91 => ⟨S50000x1, .f32⟩
  | 92 => ⟨S_, .f32⟩
  | 93 => ⟨S50000x1, .f32⟩
  | 94 => ⟨S50000x1, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | .local _ .vmem, ⟨0, _⟩ => ⟨S5000x5, .f32⟩
  | .local _ .vmem, ⟨1, _⟩ => ⟨S5000x5, .f32⟩
  | .local _ .vmem, ⟨2, _⟩ => ⟨S5x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S10000x6, .f32⟩
  | .local _ .vmem, ⟨11, _⟩ => ⟨S10000x6, .f32⟩
  | .local _ .vmem, ⟨12, _⟩ => ⟨S6x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S128x64, .f32⟩
  | .local _ .vmem, ⟨55, _⟩ => ⟨S1x64, .f32⟩
  | .local _ .vmem, ⟨56, _⟩ => ⟨S64x3, .f32⟩
  | .local _ .vmem, ⟨57, _⟩ => ⟨S1x3, .f32⟩
  | .local _ .vmem, ⟨58, _⟩ => ⟨S128x64, .f32⟩
  | .local _ .vmem, ⟨59, _⟩ => ⟨S1x64, .f32⟩
  | .local _ .vmem, ⟨60, _⟩ => ⟨S64x1, .f32⟩
  | .local _ .vmem, ⟨61, _⟩ => ⟨S1x1, .f32⟩
  | .local _ .vmem, ⟨62, _⟩ => ⟨S5000x3, .f32⟩
  | .local _ .vmem, ⟨63, _⟩ => ⟨S5000x3, .f32⟩
  | .local _ .vmem, ⟨64, _⟩ => ⟨S5000x1, .f32⟩
  | .local _ .vmem, ⟨65, _⟩ => ⟨S5000x1, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v14 : Ref sig .tc := ⟨.hbm, 66, rfl⟩
abbrev main_v15 : Ref sig .tc := ⟨.hbm, 67, rfl⟩
abbrev main_call1_cst : Ref sig .tc := ⟨.hbm, 68, rfl⟩
abbrev main_call1_v0 : Ref sig .tc := ⟨.hbm, 69, rfl⟩
abbrev main_v16 : Ref sig .tc := ⟨.hbm, 70, rfl⟩
abbrev main_cst : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v37 : Ref sig .tc := ⟨.hbm, 114, rfl⟩
abbrev main_v38 : Ref sig .tc := ⟨.hbm, 115, rfl⟩
abbrev main_call3_cst : Ref sig .tc := ⟨.hbm, 116, rfl⟩
abbrev main_call3_v0 : Ref sig .tc := ⟨.hbm, 117, rfl⟩
abbrev main_v39 : Ref sig .tc := ⟨.hbm, 118, rfl⟩
abbrev main_cst_0 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_call4_c : Ref sig .tc := ⟨.hbm, 140, rfl⟩
abbrev main_call4_v0 : Ref sig .tc := ⟨.hbm, 141, rfl⟩
abbrev main_call4_v1 : Ref sig .tc := ⟨.hbm, 142, rfl⟩
abbrev main_call4_c_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_c_1 : Ref sig .tc := ⟨.hbm, 148, rfl⟩
abbrev main_call4_c_2 : Ref sig .tc := ⟨.hbm, 149, rfl⟩
abbrev main_call4_v6 : Ref sig .tc := ⟨.hbm, 150, rfl⟩
abbrev main_call4_v7 : Ref sig .tc := ⟨.hbm, 151, rfl⟩
abbrev main_call4_v8 : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_c_3 : Ref sig .tc := ⟨.hbm, 156, rfl⟩
abbrev main_call4_v12 : Ref sig .tc := ⟨.hbm, 157, rfl⟩
abbrev main_call4_v13 : Ref sig .tc := ⟨.hbm, 158, rfl⟩
abbrev main_call4_v14 : Ref sig .tc := ⟨.hbm, 159, rfl⟩
abbrev main_call4_cst : Ref sig .tc := ⟨.hbm, 160, rfl⟩
abbrev main_call4_v15 : Ref sig .tc := ⟨.hbm, 161, rfl⟩
abbrev main_v60 : Ref sig .tc := ⟨.hbm, 162, rfl⟩
abbrev main_v61 : Ref sig .tc := ⟨.hbm, 163, rfl⟩
abbrev main_call5_cst : Ref sig .tc := ⟨.hbm, 164, rfl⟩
abbrev main_call5_v0 : Ref sig .tc := ⟨.hbm, 165, rfl⟩
abbrev main_v62 : Ref sig .tc := ⟨.hbm, 166, rfl⟩
abbrev main_cst_1 : Ref sig .tc := ⟨.hbm, 167, rfl⟩
abbrev main_v63 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86_0 : Ref sig .tc := ⟨.hbm, 191, rfl⟩
abbrev main_v86_1 : Ref sig .tc := ⟨.hbm, 192, rfl⟩
abbrev main_call6_cst : Ref sig .tc := ⟨.hbm, 193, rfl⟩
abbrev main_call6_v0 : Ref sig .tc := ⟨.hbm, 194, rfl⟩
abbrev main_call6_v1 : Ref sig .tc := ⟨.hbm, 195, rfl⟩
abbrev main_call6_v2 : Ref sig .tc := ⟨.hbm, 196, rfl⟩
abbrev main_call6_v3 : Ref sig .tc := ⟨.hbm, 197, rfl⟩
abbrev main_call6_v4 : Ref sig .tc := ⟨.hbm, 198, rfl⟩
abbrev main_call6_v5 : Ref sig .tc := ⟨.hbm, 199, rfl⟩
abbrev main_call6_v6 : Ref sig .tc := ⟨.hbm, 200, rfl⟩
abbrev main_call6_v7 : Ref sig .tc := ⟨.hbm, 201, rfl⟩
abbrev main_call6_v8 : Ref sig .tc := ⟨.hbm, 202, rfl⟩
abbrev main_v87 : Ref sig .tc := ⟨.hbm, 203, rfl⟩
abbrev main_cst_2 : Ref sig .tc := ⟨.hbm, 204, rfl⟩
abbrev main_v88 : Ref sig .tc := ⟨.hbm, 205, rfl⟩
abbrev main_v89 : Ref sig .tc := ⟨.hbm, 206, rfl⟩
abbrev main_v90 : Ref sig .tc := ⟨.hbm, 207, rfl⟩
abbrev main_cst_3 : Ref sig .tc := ⟨.hbm, 208, rfl⟩
abbrev main_cst_4 : Ref sig .tc := ⟨.hbm, 209, rfl⟩
abbrev main_call7_v0 : Ref sig .tc := ⟨.hbm, 210, rfl⟩
abbrev main_call7_v1 : Ref sig .tc := ⟨.hbm, 211, rfl⟩
abbrev main_call7_v2 : Ref sig .tc := ⟨.hbm, 212, rfl⟩
abbrev main_call7_v3 : Ref sig .tc := ⟨.hbm, 213, rfl⟩
abbrev main_call7_v4 : Ref sig .tc := ⟨.hbm, 214, rfl⟩
abbrev main_v91 : Ref sig .tc := ⟨.hbm, 215, rfl⟩
abbrev main_v92 : Ref sig .tc := ⟨.hbm, 216, rfl⟩
abbrev main_cst_5 : Ref sig .tc := ⟨.hbm, 217, rfl⟩
abbrev main_v93 : Ref sig .tc := ⟨.hbm, 218, rfl⟩
abbrev main_v94 : Ref sig .tc := ⟨.hbm, 219, rfl⟩
abbrev main_cst_6 : Ref sig .tc := ⟨.hbm, 220, rfl⟩
abbrev main_v95 : Ref sig .tc := ⟨.hbm, 221, rfl⟩
abbrev main_v96 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg8_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg8_0 : Ref sig .tc := ⟨.vmem, 54, rfl⟩
abbrev cc4_stg9_0 : Ref sig .tc := ⟨.vmem, 55, rfl⟩
abbrev cc4_stg10_0 : Ref sig .tc := ⟨.vmem, 56, rfl⟩
abbrev cc4_stg11_0 : Ref sig .tc := ⟨.vmem, 57, rfl⟩
abbrev cc4_stg12_0 : Ref sig .tc := ⟨.vmem, 58, rfl⟩
abbrev cc4_stg13_0 : Ref sig .tc := ⟨.vmem, 59, rfl⟩
abbrev cc4_stg14_0 : Ref sig .tc := ⟨.vmem, 60, rfl⟩
abbrev cc4_stg15_0 : Ref sig .tc := ⟨.vmem, 61, rfl⟩
abbrev cc4_stg16_0 : Ref sig .tc := ⟨.vmem, 62, rfl⟩
abbrev cc4_stg16_1 : Ref sig .tc := ⟨.vmem, 63, rfl⟩
abbrev cc4_stg17_0 : Ref sig .tc := ⟨.vmem, 64, rfl⟩
abbrev cc4_stg17_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem8_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem8_0 : DmaSem sig := 54
abbrev cc4_sem9_0 : DmaSem sig := 55
abbrev cc4_sem10_0 : DmaSem sig := 56
abbrev cc4_sem11_0 : DmaSem sig := 57
abbrev cc4_sem12_0 : DmaSem sig := 58
abbrev cc4_sem13_0 : DmaSem sig := 59
abbrev cc4_sem14_0 : DmaSem sig := 60
abbrev cc4_sem15_0 : DmaSem sig := 61
abbrev cc4_sem16_0 : DmaSem sig := 62
abbrev cc4_sem16_1 : DmaSem sig := 63
abbrev cc4_sem17_0 : DmaSem sig := 64
abbrev cc4_sem17_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_17 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S64x3 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x3 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S128x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S64x1 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S1x1 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 2 → Memref sig .tc .vmem S5000x3 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true]

abbrev stage4_17 : Fin 2 → Memref sig .tc .vmem S5000x1 .f32 := fun | 0 => Memref.whole cc4_stg17_0 | 1 => Memref.whole cc4_stg17_1 | ⟨_ + 2, h⟩ => absurd h (Nat.not_lt.2 (Nat.le_add_left _ _))
abbrev sem4_17 : Fin 2 → DmaSem sig := fun | 0 => cc4_sem17_0 | 1 => cc4_sem17_1 | ⟨_ + 2, h⟩ => absurd h (Nat.not_lt.2 (Nat.le_add_left _ _))
abbrev reads4_17 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S5000x5_S5000x5_0_0 : ∀ a, (![0, 0] : Fin 2 → Nat) a + S5000x5.size a ≤ S5000x5.size a
  h_S5000x5 : 0 < S5000x5.numel
  inb_S5x128_S5x128_0_0 : ∀ a, (![0, 0] : Fin 2 → Nat) a + S5x128.size a ≤ S5x128.size a
  h_S5x128 : 0 < S5x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  inb_S10000x6_S10000x6_0_0 : ∀ a, (![0, 0] : Fin 2 → Nat) a + S10000x6.size a ≤ S10000x6.size a
  h_S10000x6 : 0 < S10000x6.numel
  inb_S6x128_S6x128_0_0 : ∀ a, (![0, 0] : Fin 2 → Nat) a + S6x128.size a ≤ S6x128.size a
  h_S6x128 : 0 < S6x128.numel
  broadcasts_S1x128_S10000x128 : S1x128.Broadcasts S10000x128
  reduces_S10000x128_S10000 : S10000x128.Reduces [1] S10000
  shapeCasts_S10000_S10000x1 : S10000.ShapeCasts S10000x1
  broadcasts_S10000x1_S10000x128 : S10000x1.Broadcasts S10000x128
  inb_S10000x128_S10000x128_0_0 : ∀ a, (![0, 0] : Fin 2 → Nat) a + S10000x128.size a ≤ S10000x128.size a
  h_S10000x128 : 0 < S10000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  shapeCasts_S3_S1x3 : S3.ShapeCasts S1x3
  shapeCasts_S1_S1x1 : S1.ShapeCasts S1x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S50000x3 : S_.BroadcastsInDim S50000x3 (![] : Fin 0 → Fin S50000x3.rank)
  bcast_S_S50000x1 : S_.BroadcastsInDim S50000x1 (![] : Fin 0 → Fin S50000x1.rank)
  dot_S5000x5_S5x128_S5000x128_1_0_0_1_n_n_wf : DotDims.WF S5000x5 S5x128 S5000x128 [1] [0] [0] [1] [] []
  dot_S5000x128_S128x128_S5000x128_1_0_0_1_n_n_wf : DotDims.WF S5000x128 S128x128 S5000x128 [1] [0] [0] [1] [] []
  dot_S10000x6_S6x128_S10000x128_1_0_0_1_n_n_wf : DotDims.WF S10000x6 S6x128 S10000x128 [1] [0] [0] [1] [] []
  dot_S10000x128_S128x128_S10000x128_1_0_0_1_n_n_wf : DotDims.WF S10000x128 S128x128 S10000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  dot_S5000x64_S64x3_S5000x3_1_0_0_1_n_n_wf : DotDims.WF S5000x64 S64x3 S5000x3 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x6.size a ≤ S600000x6.size a
  hwx1_0 : ∀ i : grid1.Coords, EltTy.bits .f32 = 32 ∨ (Rect.block (s := S600000x6) S10000x6.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6x128.size a ≤ S6x128.size a
  hwx1_1 : ∀ i : grid1.Coords, EltTy.bits .f32 = 32 ∨ (Rect.block (s := S6x128) S6x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S600000x128.size a
  hwx1_7 : ∀ i : grid1.Coords, EltTy.bits .f32 = 32 ∨ (Rect.block (s := S600000x128) S10000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x64.size a ≤ S128x64.size a
  hwx4_8 : ∀ i : grid4.Coords, EltTy.bits .f32 = 32 ∨ (Rect.block (s := S128x64) S128x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S64x3.size a ≤ S64x3.size a
  hwx4_10 : ∀ i : grid4.Coords, EltTy.bits .f32 = 32 ∨ (Rect.block (s := S64x3) S64x3.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x3.size a ≤ S1x3.size a
  hwx4_11 : ∀ i : grid4.Coords, EltTy.bits .f32 = 32 ∨ (Rect.block (s := S1x3) S1x3.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S128x64.size a ≤ S128x64.size a
  hwx4_12 : ∀ i : grid4.Coords, EltTy.bits .f32 = 32 ∨ (Rect.block (s := S128x64) S128x64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x64.size a ≤ S1x64.size a
  hwx4_13 : ∀ i : grid4.Coords, EltTy.bits .f32 = 32 ∨ (Rect.block (s := S1x64) S1x64.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S64x1.size a ≤ S64x1.size a
  hwx4_14 : ∀ i : grid4.Coords, EltTy.bits .f32 = 32 ∨ (Rect.block (s := S64x1) S64x1.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S1x1.size a ≤ S1x1.size a
  hwx4_15 : ∀ i : grid4.Coords, EltTy.bits .f32 = 32 ∨ (Rect.block (s := S1x1) S1x1.size (cc4_transform_15 i) (hinb4_15 i)).WholeWords (EltTy.packing .f32)
  hstage4_16 : ∀ j, (stage4_16 j).IsWhole
  nbuf4_16 : grid4.bufCount reads4_16 false = 2
  hreads4_16 : ∀ i i' : grid4.Coords, (∀ a, reads4_16 a = true → i a = i' a) → cc4_transform_16 i = cc4_transform_16 i'
  hinb4_16 : ∀ (i : grid4.Coords) a, (cc4_transform_16 i a + 1) * S5000x3.size a ≤ S50000x3.size a
  hwx4_16 : ∀ i : grid4.Coords, EltTy.bits .f32 = 32 ∨ (Rect.block (s := S50000x3) S5000x3.size (cc4_transform_16 i) (hinb4_16 i)).WholeWords (EltTy.packing .f32)
  hstage4_17 : ∀ j, (stage4_17 j).IsWhole
  nbuf4_17 : grid4.bufCount reads4_17 false = 2
  hreads4_17 : ∀ i i' : grid4.Coords, (∀ a, reads4_17 a = true → i a = i' a) → cc4_transform_17 i = cc4_transform_17 i'
  hinb4_17 : ∀ (i : grid4.Coords) a, (cc4_transform_17 i a + 1) * S5000x1.size a ≤ S50000x1.size a
  hwx4_17 : ∀ i : grid4.Coords, EltTy.bits .f32 = 32 ∨ (Rect.block (s := S50000x1) S5000x1.size (cc4_transform_17 i) (hinb4_17 i)).WholeWords (EltTy.packing .f32)

variable [Facts₀]

def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S10000x6_S6x128_S10000x128_1_0_0_1_n_n : DotDims S10000x6 S6x128 S10000x128 where
  lhsContracting := [1]
  rhsContracting := [0]
  lhsNonContracting := [0]
  rhsNonContracting := [1]
  lhsBatch := []
  rhsBatch := []
  wf := dot_S10000x6_S6x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S10000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S6x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v35) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v36) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v42) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v58) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v59) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v79) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v80) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v81) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg21) S128x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v82) S1x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg23) S64x3.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v83) S1x3.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_arg25) S128x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v84) S1x64.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_arg27) S64x1.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v85) S1x1.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v86_0) S5000x3.size cc4_transform_16 reads4_16 true false 2 stage4_16 sem4_16
    hrank4 hreads4_16 hinb4_16 nbuf4_16 (Memref.isWhole_whole _) hwx4_16 hstage4_16

abbrev win4_17 : Pipeline.Window sig grid4 :=
  Pipeline.Window.ofSpec (Memref.whole main_v86_1) S5000x1.size cc4_transform_17 reads4_17 true false 2 stage4_17 sem4_17
    hrank4 hreads4_17 hinb4_17 nbuf4_17 (Memref.isWhole_whole _) hwx4_17 hstage4_17

abbrev win4 : Fin 18 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | ⟨_ + 18, h⟩ => absurd h (Nat.not_lt.2 (Nat.le_add_left _ _))
abbrev spec4 : Fin 18 → Pipeline.WinSpec sig grid4.rank := fun w => (win4 w).toWinSpec

class Facts : Prop extends Facts₀ where

variable [Facts]
-- ==== ReferenceIdeal.lean ====
abbrev S50000x5 : Shape := ⟨2, ![50000, 5]⟩
abbrev S600000x6 : Shape := ⟨2, ![600000, 6]⟩
abbrev S2x600000 : Shape := ⟨2, ![2, 600000]⟩
abbrev S5x128 : Shape := ⟨2, ![5, 128]⟩
abbrev S128 : Shape := ⟨1, ![128]⟩
abbrev S128x128 : Shape := ⟨2, ![128, 128]⟩
abbrev S6x128 : Shape := ⟨2, ![6, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S64x1 : Shape := ⟨2, ![64, 1]⟩
abbrev S1 : Shape := ⟨1, ![1]⟩
abbrev S_ : Shape := ⟨0, ![]⟩
abbrev S1x600000 : Shape := ⟨2, ![1, 600000]⟩
abbrev S600000 : Shape := ⟨1, ![600000]⟩
abbrev S50000x128 : Shape := ⟨2, ![50000, 128]⟩
abbrev S1x128 : Shape := ⟨2, ![1, 128]⟩
abbrev S50000 : Shape := ⟨1, ![50000]⟩
abbrev S50000x1 : Shape := ⟨2, ![50000, 1]⟩
abbrev S600000x128 : Shape := ⟨2, ![600000, 128]⟩
abbrev S600000x1 : Shape := ⟨2, ![600000, 1]⟩
abbrev S1x128x128 : Shape := ⟨3, ![1, 128, 128]⟩
abbrev S50000x64 : Shape := ⟨2, ![50000, 64]⟩
abbrev S1x64 : Shape := ⟨2, ![1, 64]⟩
abbrev S50000x3 : Shape := ⟨2, ![50000, 3]⟩
abbrev S1x3 : Shape := ⟨2, ![1, 3]⟩
abbrev S1x1 : Shape := ⟨2, ![1, 1]⟩

abbrev nBuf : Space → Nat
  | .hbm => 388
  | .vmem => 0
  | .smem => 0
  | _ => 0

abbrev hbmTy0_0 (i : Nat) : BufTy := match i % 128 with
  | 0 => ⟨S50000x5, .f32⟩
  | 1 => ⟨S600000x6, .f32⟩
  | 2 => ⟨S2x600000, .i32⟩
  | 3 => ⟨S5x128, .f32⟩
  | 4 => ⟨S128, .f32⟩
  | 5 => ⟨S128x128, .f32⟩
  | 6 => ⟨S128, .f32⟩
  | 7 => ⟨S128, .f32⟩
  | 8 => ⟨S128, .f32⟩
  | 9 => ⟨S6x128, .f32⟩
  | 10 => ⟨S128, .f32⟩
  | 11 => ⟨S128x128, .f32⟩
  | 12 => ⟨S128, .f32⟩
  | 13 => ⟨S128, .f32⟩
  | 14 => ⟨S128, .f32⟩
  | 15 => ⟨S3x128x128, .f32⟩
  | 16 => ⟨S3x128, .f32⟩
  | 17 => ⟨S3x128x128, .f32⟩
  | 18 => ⟨S3x128, .f32⟩
  | 19 => ⟨S3x128, .f32⟩
  | 20 => ⟨S3x128, .f32⟩
  | 21 => ⟨S128x64, .f32⟩
  | 22 => ⟨S64, .f32⟩
  | 23 => ⟨S64x3, .f32⟩
  | 24 => ⟨S3, .f32⟩
  | 25 => ⟨S128x64, .f32⟩
  | 26 => ⟨S64, .f32⟩
  | 27 => ⟨S64x1, .f32⟩
  | 28 => ⟨S1, .f32⟩
  | 29 => ⟨S_, .f32⟩
  | 30 => ⟨S1x600000, .i32⟩
  | 31 => ⟨S600000, .i32⟩
  | 32 => ⟨S1x600000, .i32⟩
  | 33 => ⟨S600000, .i32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000, .f32⟩
  | 47 => ⟨S50000x1, .f32⟩
  | 48 => ⟨S_, .f32⟩
  | 49 => ⟨S50000x1, .f32⟩
  | 50 => ⟨S50000x1, .f32⟩
  | 51 => ⟨S50000x128, .f32⟩
  | 52 => ⟨S50000x128, .f32⟩
  | 53 => ⟨S50000x128, .f32⟩
  | 54 => ⟨S_, .f32⟩
  | 55 => ⟨S50000, .f32⟩
  | 56 => ⟨S50000x1, .f32⟩
  | 57 => ⟨S_, .f32⟩
  | 58 => ⟨S50000x1, .f32⟩
  | 59 => ⟨S50000x1, .f32⟩
  | 60 => ⟨S50000x128, .f32⟩
  | 61 => ⟨S50000x128, .f32⟩
  | 62 => ⟨S_, .f32⟩
  | 63 => ⟨S50000x1, .f32⟩
  | 64 => ⟨S50000x1, .f32⟩
  | 65 => ⟨S50000x1, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S600000x128, .f32⟩
  | 75 => ⟨S1x128, .f32⟩
  | 76 => ⟨S600000x128, .f32⟩
  | 77 => ⟨S600000x128, .f32⟩
  | 78 => ⟨S_, .f32⟩
  | 79 => ⟨S600000x128, .f32⟩
  | 80 => ⟨S600000x128, .f32⟩
  | 81 => ⟨S600000x128, .f32⟩
  | 82 => ⟨S1x128, .f32⟩
  | 83 => ⟨S600000x128, .f32⟩
  | 84 => ⟨S600000x128, .f32⟩
  | 85 => ⟨S_, .f32⟩
  | 86 => ⟨S600000, .f32⟩
  | 87 => ⟨S600000x1, .f32⟩
  | 88 => ⟨S_, .f32⟩
  | 89 => ⟨S600000x1, .f32⟩
  | 90 => ⟨S600000x1, .f32⟩
  | 91 => ⟨S600000x128, .f32⟩
  | 92 => ⟨S600000x128, .f32⟩
  | 93 => ⟨S600000x128, .f32⟩
  | 94 => ⟨S_, .f32⟩
  | 95 => ⟨S600000, .f32⟩
  | 96 => ⟨S600000x1, .f32⟩
  | 97 => ⟨S_, .f32⟩
  | 98 => ⟨S600000x1, .f32⟩
  | 99 => ⟨S600000x1, .f32⟩
  | 100 => ⟨S600000x128, .f32⟩
  | 101 => ⟨S600000x128, .f32⟩
  | 102 => ⟨S_, .f32⟩
  | 103 => ⟨S600000x1, .f32⟩
  | 104 => ⟨S600000x1, .f32⟩
  | 105 => ⟨S600000x1, .f32⟩
  | 106 => ⟨S600000x128, .f32⟩
  | 107 => ⟨S600000x128, .f32⟩
  | 108 => ⟨S1x128, .f32⟩
  | 109 => ⟨S600000x128, .f32⟩
  | 110 => ⟨S600000x128, .f32⟩
  | 111 => ⟨S1x128, .f32⟩
  | 112 => ⟨S600000x128, .f32⟩
  | 113 => ⟨S600000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S600000x128, .f32⟩
  | 124 => ⟨S_, .f32⟩
  | 125 => ⟨S600000x128, .f32⟩
  | 126 => ⟨S600000x128, .f32⟩
  | 127 => ⟨S_, .f32⟩
  | _ => ⟨S50000x5, .f32⟩

abbrev hbmTy0_1 (i : Nat) : BufTy := match i % 128 with
  | 0 => ⟨S50000x128, .f32⟩
  | 1 => ⟨S600000x1, .i32⟩
  | 2 => ⟨S50000x128, .f32⟩
  | 3 => ⟨S50000x128, .f32⟩
  | 4 => ⟨S1x128x128, .f32⟩
  | 5 => ⟨S128x128, .f32⟩
  | 6 => ⟨S1x128, .f32⟩
  | 7 => ⟨S128, .f32⟩
  | 8 => ⟨S1x128x128, .f32⟩
  | 9 => ⟨S128x128, .f32⟩
  | 10 => ⟨S1x128, .f32⟩
  | 11 => ⟨S128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S1x128, .f32⟩
  | 28 => ⟨S128, .f32⟩
  | 29 => ⟨S1x128, .f32⟩
  | 30 => ⟨S128, .f32⟩
  | 31 => ⟨S_, .f32⟩
  | 32 => ⟨S50000, .f32⟩
  | 33 => ⟨S50000x1, .f32⟩
  | 34 => ⟨S_, .f32⟩
  | 35 => ⟨S50000x1, .f32⟩
  | 36 => ⟨S50000x1, .f32⟩
  | 37 => ⟨S50000x128, .f32⟩
  | 38 => ⟨S50000x128, .f32⟩
  | 39 => ⟨S50000x128, .f32⟩
  | 40 => ⟨S_, .f32⟩
  | 41 => ⟨S50000, .f32⟩
  | 42 => ⟨S50000x1, .f32⟩
  | 43 => ⟨S_, .f32⟩
  | 44 => ⟨S50000x1, .f32⟩
  | 45 => ⟨S50000x1, .f32⟩
  | 46 => ⟨S50000x128, .f32⟩
  | 47 => ⟨S50000x128, .f32⟩
  | 48 => ⟨S_, .f32⟩
  | 49 => ⟨S50000x1, .f32⟩
  | 50 => ⟨S50000x1, .f32⟩
  | 51 => ⟨S50000x1, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S600000x128, .f32⟩
  | 70 => ⟨S_, .f32⟩
  | 71 => ⟨S600000x128, .f32⟩
  | 72 => ⟨S600000x128, .f32⟩
  | 73 => ⟨S_, .f32⟩
  | 74 => ⟨S50000x128, .f32⟩
  | 75 => ⟨S600000x1, .i32⟩
  | 76 => ⟨S50000x128, .f32⟩
  | 77 => ⟨S50000x128, .f32⟩
  | 78 => ⟨S1x128x128, .f32⟩
  | 79 => ⟨S128x128, .f32⟩
  | 80 => ⟨S1x128, .f32⟩
  | 81 => ⟨S128, .f32⟩
  | 82 => ⟨S1x128x128, .f32⟩
  | 83 => ⟨S128x128, .f32⟩
  | 84 => ⟨S1x128, .f32⟩
  | 85 => ⟨S128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S1x128, .f32⟩
  | 102 => ⟨S128, .f32⟩
  | 103 => ⟨S1x128, .f32⟩
  | 104 => ⟨S128, .f32⟩
  | 105 => ⟨S_, .f32⟩
  | 106 => ⟨S50000, .f32⟩
  | 107 => ⟨S50000x1, .f32⟩
  | 108 => ⟨S_, .f32⟩
  | 109 => ⟨S50000x1, .f32⟩
  | 110 => ⟨S50000x1, .f32⟩
  | 111 => ⟨S50000x128, .f32⟩
  | 112 => ⟨S50000x128, .f32⟩
  | 113 => ⟨S50000x128, .f32⟩
  | 114 => ⟨S_, .f32⟩
  | 115 => ⟨S50000, .f32⟩
  | 116 => ⟨S50000x1, .f32⟩
  | 117 => ⟨S_, .f32⟩
  | 118 => ⟨S50000x1, .f32⟩
  | 119 => ⟨S50000x1, .f32⟩
  | 120 => ⟨S50000x128, .f32⟩
  | 121 => ⟨S50000x128, .f32⟩
  | 122 => ⟨S_, .f32⟩
  | 123 => ⟨S50000x1, .f32⟩
  | 124 => ⟨S50000x1, .f32⟩
  | 125 => ⟨S50000x1, .f32⟩
  | 126 => ⟨S50000x128, .f32⟩
  | 127 => ⟨S50000x128, .f32⟩
  | _ => ⟨S50000x5, .f32⟩

abbrev hbmTy0_2 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S600000x128, .f32⟩
  | 16 => ⟨S_, .f32⟩
  | 17 => ⟨S600000x128, .f32⟩
  | 18 => ⟨S600000x128, .f32⟩
  | 19 => ⟨S_, .f32⟩
  | 20 => ⟨S50000x128, .f32⟩
  | 21 => ⟨S600000x1, .i32⟩
  | 22 => ⟨S50000x128, .f32⟩
  | 23 => ⟨S50000x128, .f32⟩
  | 24 => ⟨S1x128x128, .f32⟩
  | 25 => ⟨S128x128, .f32⟩
  | 26 => ⟨S1x128, .f32⟩
  | 27 => ⟨S128, .f32⟩
  | 28 => ⟨S1x128x128, .f32⟩
  | 29 => ⟨S128x128, .f32⟩
  | 30 => ⟨S1x128, .f32⟩
  | 31 => ⟨S128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S128, .f32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x128, .f32⟩
  | 58 => ⟨S50000x128, .f32⟩
  | 59 => ⟨S50000x128, .f32⟩
  | 60 => ⟨S_, .f32⟩
  | 61 => ⟨S50000, .f32⟩
  | 62 => ⟨S50000x1, .f32⟩
  | 63 => ⟨S_, .f32⟩
  | 64 => ⟨S50000x1, .f32⟩
  | 65 => ⟨S50000x1, .f32⟩
  | 66 => ⟨S50000x128, .f32⟩
  | 67 => ⟨S50000x128, .f32⟩
  | 68 => ⟨S_, .f32⟩
  | 69 => ⟨S50000x1, .f32⟩
  | 70 => ⟨S50000x1, .f32⟩
  | 71 => ⟨S50000x1, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S_, .f32⟩
  | 82 => ⟨S_, .f32⟩
  | 83 => ⟨S_, .i1⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S50000x3, .f32⟩
  | 101 => ⟨S1x3, .f32⟩
  | 102 => ⟨S50000x3, .f32⟩
  | 103 => ⟨S50000x3, .f32⟩
  | 104 => ⟨S50000x3, .f32⟩
  | 105 => ⟨S50000x3, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x1, .f32⟩
  | 114 => ⟨S1x1, .f32⟩
  | 115 => ⟨S50000x1, .f32⟩
  | 116 => ⟨S50000x1, .f32⟩
  | 117 => ⟨S_, .f32⟩
  | 118 => ⟨S_, .f32⟩
  | 119 => ⟨S_, .f32⟩
  | 120 => ⟨S50000x1, .f32⟩
  | 121 => ⟨S50000x1, .f32⟩
  | 122 => ⟨S_, .f32⟩
  | 123 => ⟨S50000x1, .f32⟩
  | 124 => ⟨S50000x1, .f32⟩
  | 125 => ⟨S50000x1, .f32⟩
  | 126 => ⟨S_, .f32⟩
  | 127 => ⟨S50000x1, .f32⟩
  | _ => ⟨S50000x5, .f32⟩

abbrev hbmTy0_3 (i : Nat) : BufTy := match i % 128 with
  | 0 => ⟨S50000x1, .f32⟩
  | 1 => ⟨S_, .f32⟩
  | 2 => ⟨S50000x1, .f32⟩
  | 3 => ⟨S50000x1, .f32⟩
  | _ => ⟨S50000x5, .f32⟩

abbrev hbmTy (i : Nat) : BufTy := match i / 128 with
  | 0 => hbmTy0_0 i
  | 1 => hbmTy0_1 i
  | 2 => hbmTy0_2 i
  | 3 => hbmTy0_3 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_call0_cst : Ref sig .tc := ⟨.hbm, 38, rfl⟩
abbrev main_call0_v0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst : Ref sig .tc := ⟨.hbm, 45, rfl⟩
abbrev main_v13 : Ref sig .tc := ⟨.hbm, 46, rfl⟩
abbrev main_v14 : Ref sig .tc := ⟨.hbm, 47, rfl⟩
abbrev main_cst_0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_1 : Ref sig .tc := ⟨.hbm, 54, rfl⟩
abbrev main_v20 : Ref sig .tc := ⟨.hbm, 55, rfl⟩
abbrev main_v21 : Ref sig .tc := ⟨.hbm, 56, rfl⟩
abbrev main_cst_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_3 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call1_cst : Ref sig .tc := ⟨.hbm, 78, rfl⟩
abbrev main_call1_v0 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_4 : Ref sig .tc := ⟨.hbm, 85, rfl⟩
abbrev main_v46 : Ref sig .tc := ⟨.hbm, 86, rfl⟩
abbrev main_v47 : Ref sig .tc := ⟨.hbm, 87, rfl⟩
abbrev main_cst_5 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_6 : Ref sig .tc := ⟨.hbm, 94, rfl⟩
abbrev main_v53 : Ref sig .tc := ⟨.hbm, 95, rfl⟩
abbrev main_v54 : Ref sig .tc := ⟨.hbm, 96, rfl⟩
abbrev main_cst_7 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_8 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c : Ref sig .tc := ⟨.hbm, 114, rfl⟩
abbrev main_v70 : Ref sig .tc := ⟨.hbm, 115, rfl⟩
abbrev main_v71 : Ref sig .tc := ⟨.hbm, 116, rfl⟩
abbrev main_c_9 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_call2_cst : Ref sig .tc := ⟨.hbm, 124, rfl⟩
abbrev main_call2_v0 : Ref sig .tc := ⟨.hbm, 125, rfl⟩
abbrev main_v78 : Ref sig .tc := ⟨.hbm, 126, rfl⟩
abbrev main_cst_10 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_call3_cst : Ref sig .tc := ⟨.hbm, 144, rfl⟩
abbrev main_call3_v0 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_call4_cst : Ref sig .tc := ⟨.hbm, 151, rfl⟩
abbrev main_call4_v0 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_11 : Ref sig .tc := ⟨.hbm, 159, rfl⟩
abbrev main_v106 : Ref sig .tc := ⟨.hbm, 160, rfl⟩
abbrev main_v107 : Ref sig .tc := ⟨.hbm, 161, rfl⟩
abbrev main_cst_12 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_13 : Ref sig .tc := ⟨.hbm, 168, rfl⟩
abbrev main_v113 : Ref sig .tc := ⟨.hbm, 169, rfl⟩
abbrev main_v114 : Ref sig .tc := ⟨.hbm, 170, rfl⟩
abbrev main_cst_14 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_15 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_c_16 : Ref sig .tc := ⟨.hbm, 188, rfl⟩
abbrev main_v130 : Ref sig .tc := ⟨.hbm, 189, rfl⟩
abbrev main_v131 : Ref sig .tc := ⟨.hbm, 190, rfl⟩
abbrev main_c_17 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_call5_cst : Ref sig .tc := ⟨.hbm, 198, rfl⟩
abbrev main_call5_v0 : Ref sig .tc := ⟨.hbm, 199, rfl⟩
abbrev main_v138 : Ref sig .tc := ⟨.hbm, 200, rfl⟩
abbrev main_cst_18 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_call6_cst : Ref sig .tc := ⟨.hbm, 218, rfl⟩
abbrev main_call6_v0 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_call7_cst : Ref sig .tc := ⟨.hbm, 225, rfl⟩
abbrev main_call7_v0 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_cst_19 : Ref sig .tc := ⟨.hbm, 233, rfl⟩
abbrev main_v166 : Ref sig .tc := ⟨.hbm, 234, rfl⟩
abbrev main_v167 : Ref sig .tc := ⟨.hbm, 235, rfl⟩
abbrev main_cst_20 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_cst_21 : Ref sig .tc := ⟨.hbm, 242, rfl⟩
abbrev main_v173 : Ref sig .tc := ⟨.hbm, 243, rfl⟩
abbrev main_v174 : Ref sig .tc := ⟨.hbm, 244, rfl⟩
abbrev main_cst_22 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_cst_23 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_c_24 : Ref sig .tc := ⟨.hbm, 262, rfl⟩
abbrev main_v190 : Ref sig .tc := ⟨.hbm, 263, rfl⟩
abbrev main_v191 : Ref sig .tc := ⟨.hbm, 264, rfl⟩
abbrev main_c_25 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_call8_cst : Ref sig .tc := ⟨.hbm, 272, rfl⟩
abbrev main_call8_v0 : Ref sig .tc := ⟨.hbm, 273, rfl⟩
abbrev main_v198 : Ref sig .tc := ⟨.hbm, 274, rfl⟩
abbrev main_cst_26 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_call9_cst : Ref sig .tc := ⟨.hbm, 292, rfl⟩
abbrev main_call9_v0 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_call10_cst : Ref sig .tc := ⟨.hbm, 299, rfl⟩
abbrev main_call10_v0 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_cst_27 : Ref sig .tc := ⟨.hbm, 307, rfl⟩
abbrev main_v226 : Ref sig .tc := ⟨.hbm, 308, rfl⟩
abbrev main_v227 : Ref sig .tc := ⟨.hbm, 309, rfl⟩
abbrev main_cst_28 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_cst_29 : Ref sig .tc := ⟨.hbm, 316, rfl⟩
abbrev main_v233 : Ref sig .tc := ⟨.hbm, 317, rfl⟩
abbrev main_v234 : Ref sig .tc := ⟨.hbm, 318, rfl⟩
abbrev main_cst_30 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_cst_31 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_call11_cst : Ref sig .tc := ⟨.hbm, 336, rfl⟩
abbrev main_call11_v0 : Ref sig .tc := ⟨.hbm, 337, rfl⟩
abbrev main_call11_v1 : Ref sig .tc := ⟨.hbm, 338, rfl⟩
abbrev main_call11_v2 : Ref sig .tc := ⟨.hbm, 339, rfl⟩
abbrev main_call11_v3 : Ref sig .tc := ⟨.hbm, 340, rfl⟩
abbrev main_call11_v4 : Ref sig .tc := ⟨.hbm, 341, rfl⟩
abbrev main_call11_v5 : Ref sig .tc := ⟨.hbm, 342, rfl⟩
abbrev main_call11_v6 : Ref sig .tc := ⟨.hbm, 343, rfl⟩
abbrev main_call11_v7 : Ref sig .tc := ⟨.hbm, 344, rfl⟩
abbrev main_call11_v8 : Ref sig .tc := ⟨.hbm, 345, rfl⟩
abbrev main_v250 : Ref sig .tc := ⟨.hbm, 346, rfl⟩
abbrev main_cst_32 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_call12_cst : Ref sig .tc := ⟨.hbm, 353, rfl⟩
abbrev main_call12_v0 : Ref sig .tc := ⟨.hbm, 354, rfl⟩
abbrev main_v256 : Ref sig .tc := ⟨.hbm, 355, rfl⟩
abbrev main_v257 : Ref sig .tc := ⟨.hbm, 356, rfl⟩
abbrev main_v258 : Ref sig .tc := ⟨.hbm, 357, rfl⟩
abbrev main_v259 : Ref sig .tc := ⟨.hbm, 358, rfl⟩
abbrev main_v260 : Ref sig .tc := ⟨.hbm, 359, rfl⟩
abbrev main_v261 : Ref sig .tc := ⟨.hbm, 360, rfl⟩
abbrev main_v262 : Ref sig .tc := ⟨.hbm, 361, rfl⟩
abbrev main_v263 : Ref sig .tc := ⟨.hbm, 362, rfl⟩
abbrev main_v264 : Ref sig .tc := ⟨.hbm, 363, rfl⟩
abbrev main_v265 : Ref sig .tc := ⟨.hbm, 364, rfl⟩
abbrev main_v266 : Ref sig .tc := ⟨.hbm, 365, rfl⟩
abbrev main_call13_cst : Ref sig .tc := ⟨.hbm, 366, rfl⟩
abbrev main_call13_v0 : Ref sig .tc := ⟨.hbm, 367, rfl⟩
abbrev main_v267 : Ref sig .tc := ⟨.hbm, 368, rfl⟩
abbrev main_v268 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_cst_33 : Ref sig .tc := ⟨.hbm, 373, rfl⟩
abbrev main_cst_34 : Ref sig .tc := ⟨.hbm, 374, rfl⟩
abbrev main_call14_v0 : Ref sig .tc := ⟨.hbm, 375, rfl⟩
abbrev main_call14_v1 : Ref sig .tc := ⟨.hbm, 376, rfl⟩
abbrev main_call14_v2 : Ref sig .tc := ⟨.hbm, 377, rfl⟩
abbrev main_call14_v3 : Ref sig .tc := ⟨.hbm, 378, rfl⟩
abbrev main_call14_v4 : Ref sig .tc := ⟨.hbm, 379, rfl⟩
abbrev main_v272 : Ref sig .tc := ⟨.hbm, 380, rfl⟩
abbrev main_v273 : Ref sig .tc := ⟨.hbm, 381, rfl⟩
abbrev main_cst_35 : Ref sig .tc := ⟨.hbm, 382, rfl⟩
abbrev main_v274 : Ref sig .tc := ⟨.hbm, 383, rfl⟩
abbrev main_v275 : Ref sig .tc := ⟨.hbm, 384, rfl⟩
abbrev main_cst_36 : Ref sig .tc := ⟨.hbm, 385, rfl⟩
abbrev main_v276 : Ref sig .tc := ⟨.hbm, 386, rfl⟩
abbrev main_v277 : Ref sig .tc := ⟨.hbm, 387, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  reducesTo_S600000x128_S600000_d1 : S600000x128.ReducesTo [1] S600000
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S600000 : S_.BroadcastsInDim S600000 (![] : Fin 0 → Fin S600000.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  bcast_S_S50000x3 : S_.BroadcastsInDim S50000x3 (![] : Fin 0 → Fin S50000x3.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x5_S5x128_S50000x128_1_0_0_1_n_n_wf : DotDims.WF S50000x5 S5x128 S50000x128 [1] [0] [0] [1] [] []
  dot_S50000x128_S128x128_S50000x128_1_0_0_1_n_n_wf : DotDims.WF S50000x128 S128x128 S50000x128 [1] [0] [0] [1] [] []
  dot_S600000x6_S6x128_S600000x128_1_0_0_1_n_n_wf : DotDims.WF S600000x6 S6x128 S600000x128 [1] [0] [0] [1] [] []
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  dot_S50000x64_S64x3_S50000x3_1_0_0_1_n_n_wf : DotDims.WF S50000x64 S64x3 S50000x3 [1] [0] [0] [1] [] []
  dot_S50000x64_S64x1_S50000x1_1_0_0_1_n_n_wf : DotDims.WF S50000x64 S64x1 S50000x1 [1] [0] [0] [1] [] []

variable [Facts₀]

def dot_S50000x5_S5x128_S50000x128_1_0_0_1_n_n : DotDims S50000x5 S5x128 S50000x128 where
  lhsContracting := [1]
  rhsContracting := [0]
  lhsNonContracting := [0]
  rhsNonContracting := [1]
  lhsBatch := []
  rhsBatch := []
  wf := dot_S50000x5_S5x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x6_S6x128_S600000x128_1_0_0_1_n_n : DotDims S600000x6 S6x128 S600000x128 where
  lhsContracting := [1]
  rhsContracting := [0]
  lhsNonContracting := [0]
  rhsNonContracting := [1]
  lhsBatch := []
  rhsBatch := []
  wf := dot_S600000x6_S6x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x3_S50000x3_1_0_0_1_n_n : DotDims S50000x64 S64x3 S50000x3 where
  lhsContracting := [1]
  rhsContracting := [0]
  lhsNonContracting := [0]
  rhsNonContracting := [1]
  lhsBatch := []
  rhsBatch := []
  wf := dot_S50000x64_S64x3_S50000x3_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.RFold.lean ====
import proofs.«410051_j26534307954693_2_alg».proof.Proof.RefRunP
import proofs.«410051_j26534307954693_2_alg».proof.Proof.RefReadP
import Idealize.ShloMosaic.Lib.StableHlo.Run

noncomputable section

namespace Cert.ReferenceIdeal.RFold

open Cert.ReferenceIdeal Cert.ReferenceIdeal.Gen Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
theorem ops_eq : (RunP.ops : List (HloOp τ sig (Elt F))) = RunP.c0 ++ (RunP.c1 ++ (RunP.c2 ++ (RunP.c3 ++ (RunP.c4 ++ (RunP.c5 ++ (RunP.c6 ++ (RunP.c7 ++ RunP.c8))))))) := rfl

/-- An operation whose one result buffer is listed in W writes inside W. -/
theorem writes_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

variable (m : (ℓ : Loc nD τ sig) → Buf (Elt F) ℓ) (c : Dev nD)

/-- The launch contents of a buffer, an argument of @main for one. -/
abbrev arg (r : Ref sig .tc) := m ((c.tc : Thread nD τ).loc r)

-- Chunk 0: the contents after it, the buffers it writes, and every other buffer carried across it.
def B0 : Valuation τ sig (Elt F) := after RunP.c0 (launchContents m c)
abbrev c0_W : List (Ref sig .tc) := [main_v0, main_v1, main_v2, main_v3, main_v4, main_v5, main_v6, main_v7, main_call0_cst, main_call0_v0, main_v8, main_v9, main_v10, main_v11, main_v12, main_cst, main_v13, main_v14, main_cst_0, main_v15, main_v16, main_v17, main_v18, main_v19, main_cst_1, main_v20, main_v21, main_cst_2, main_v22, main_v23, main_v24, main_v25, main_cst_3, main_v26, main_v27, main_v28, main_v29, main_v30, main_v31, main_v32, main_v33, main_v34, main_v35, main_v36]
set_option maxRecDepth 8192 in
theorem c0_writes : (RunP.c0 : List (HloOp τ sig (Elt F))).Forall fun op => op.writes ⊆ (c0_W.map (Proc.devRef (τ := τ) .tc)).toFinset := by
  simp only [RunP.c0, List.Forall]
  repeat' apply And.intro
  all_goals exact writes_sub (by decide)
theorem B0_keep (r : Ref sig .tc) (h : r ∉ c0_W) : B0 m c (no_index (Proc.devRef .tc r)) = arg m c r :=
  after_of_writes_sub RunP.c0 _ c0_writes h
set_option maxRecDepth 8192 in
set_option maxHeartbeats 4000000 in
theorem B0_main_v1 : B0 m c (no_index (Proc.devRef .tc main_v1)) = ReadP.val_main_v1 (F := F) (arg m c main_arg2) := by
  unfold B0
  simp only [RunP.c0]
  after_results_simp
  all_goals rfl
set_option maxRecDepth 8192 in
set_option maxHeartbeats 4000000 in
theorem B0_main_v3 : B0 m c (no_index (Proc.devRef .tc main_v3)) = ReadP.val_main_v3 (F := F) (arg m c main_arg2) := by
  unfold B0
  simp only [RunP.c0]
  after_results_simp
  all_goals rfl
set_option maxRecDepth 8192 in
set_option maxHeartbeats 4000000 in
theorem B0_main_v36 : B0 m c (no_index (Proc.devRef .tc main_v36)) = ReadP.val_main_v36 (F := F) (arg m c main_arg0) (arg m c main_arg3) (arg m c main_arg4) (arg m c main_arg5) (arg m c main_arg6) (arg m c main_arg7) (arg m c main_arg8) := by
  unfold B0
  simp only [RunP.c0]
  after_results_simp
  all_goals rfl

-- Chunk 1: the contents after it, the buffers it writes, and every other buffer carried across it.
def B1 : Valuation τ sig (Elt F) := after RunP.c1 (B0 m c)
abbrev c1_W : List (Ref sig .tc) := [main_v37, main_v38, main_v39, main_v40, main_call1_cst, main_call1_v0, main_v41, main_v42, main_v43, main_v44, main_v45, main_cst_4, main_v46, main_v47, main_cst_5, main_v48, main_v49, main_v50, main_v51, main_v52, main_cst_6, main_v53, main_v54, main_cst_7, main_v55, main_v56, main_v57, main_v58, main_cst_8, main_v59, main_v60, main_v61, main_v62, main_v63, main_v64, main_v65, main_v66, main_v67, main_v68, main_v69]
set_option maxRecDepth 8192 in
theorem c1_writes : (RunP.c1 : List (HloOp τ sig (Elt F))).Forall fun op => op.writes ⊆ (c1_W.map (Proc.devRef (τ := τ) .tc)).toFinset := by
  simp only [RunP.c1, List.Forall]
  repeat' apply And.intro
  all_goals exact writes_sub (by decide)
theorem B1_keep (r : Ref sig .tc) (h : r ∉ c1_W) : B1 m c (no_index (Proc.devRef .tc r)) = B0 m c (Proc.devRef .tc r) :=
  after_of_writes_sub RunP.c1 _ c1_writes h
set_option maxRecDepth 8192 in
set_option maxHeartbeats 4000000 in
theorem B1_main_v69 : B1 m c (no_index (Proc.devRef .tc main_v69)) = ReadP.val_main_v69 (F := F) (arg m c main_arg1) (arg m c main_arg9) (arg m c main_arg10) (arg m c main_arg11) (arg m c main_arg12) (arg m c main_arg13) (arg m c main_arg14) := by
  unfold B1
  simp only [RunP.c1]
  after_results_simp
  simp (disch := decide) only [B0_keep] <;> rfl

-- Chunk 2: the contents after it, the buffers it writes, and every other buffer carried across it.
def B2 : Valuation τ sig (Elt F) := after RunP.c2 (B1 m c)
abbrev c2_W : List (Ref sig .tc) := [main_c, main_v70, main_v71, main_c_9, main_v72, main_v73, main_v74, main_v75, main_v76, main_v77, main_call2_cst, main_call2_v0, main_v78, main_cst_10, main_v79, main_v80, main_v81]
set_option maxRecDepth 8192 in
theorem c2_writes : (RunP.c2 : List (HloOp τ sig (Elt F))).Forall fun op => op.writes ⊆ (c2_W.map (Proc.devRef (τ := τ) .tc)).toFinset := by
  simp only [RunP.c2, List.Forall]
  repeat' apply And.intro
  all_goals exact writes_sub (by decide)
theorem B2_keep (r : Ref sig .tc) (h : r ∉ c2_W) : B2 m c (no_index (Proc.devRef .tc r)) = B1 m c (Proc.devRef .tc r) :=
  after_of_writes_sub RunP.c2 _ c2_writes h
set_option maxRecDepth 8192 in
set_option maxHeartbeats 1700000 in
theorem B2_main_v81 : B2 m c (no_index (Proc.devRef .tc main_v81)) = ReadP.val_main_v81 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) := by
  unfold B2
  simp only [RunP.c2]
  after_results_simp
  simp (disch := decide) only [B1_keep, B0_keep, B1_main_v69, B0_main_v1, B0_main_v36, B0_main_v3] <;> rfl

-- Chunk 3: the contents after it, the buffers it writes, and every other buffer carried across it.
def B3 : Valuation τ sig (Elt F) := after RunP.c3 (B2 m c)
abbrev c3_W : List (Ref sig .tc) := [main_v82, main_v83, main_v84, main_v85, main_v86, main_v87, main_v88, main_v89, main_v90, main_v91, main_v92, main_v93, main_v94, main_call3_cst, main_call3_v0, main_v95, main_v96, main_v97, main_v98, main_v99, main_call4_cst, main_call4_v0, main_v100, main_v101, main_v102, main_v103, main_v104, main_v105, main_cst_11, main_v106, main_v107, main_cst_12, main_v108, main_v109, main_v110, main_v111, main_v112, main_cst_13, main_v113, main_v114, main_cst_14, main_v115, main_v116, main_v117, main_v118, main_cst_15, main_v119, main_v120, main_v121, main_v122, main_v123, main_v124, main_v125, main_v126, main_v127, main_v128, main_v129]
set_option maxRecDepth 8192 in
theorem c3_writes : (RunP.c3 : List (HloOp τ sig (Elt F))).Forall fun op => op.writes ⊆ (c3_W.map (Proc.devRef (τ := τ) .tc)).toFinset := by
  simp only [RunP.c3, List.Forall]
  repeat' apply And.intro
  all_goals exact writes_sub (by decide)
theorem B3_keep (r : Ref sig .tc) (h : r ∉ c3_W) : B3 m c (no_index (Proc.devRef .tc r)) = B2 m c (Proc.devRef .tc r) :=
  after_of_writes_sub RunP.c3 _ c3_writes h
set_option maxRecDepth 8192 in
set_option maxHeartbeats 4000000 in
theorem B3_main_v129 : B3 m c (no_index (Proc.devRef .tc main_v129)) = ReadP.val_main_v129 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) := by
  unfold B3
  simp only [RunP.c3]
  after_results_simp
  simp (disch := decide) only [B2_keep, B1_keep, B0_keep, B2_main_v81, B0_main_v36] <;> rfl

-- Chunk 4: the contents after it, the buffers it writes, and every other buffer carried across it.
def B4 : Valuation τ sig (Elt F) := after RunP.c4 (B3 m c)
abbrev c4_W : List (Ref sig .tc) := [main_c_16, main_v130, main_v131, main_c_17, main_v132, main_v133, main_v134, main_v135, main_v136, main_v137, main_call5_cst, main_call5_v0, main_v138, main_cst_18, main_v139, main_v140, main_v141]
set_option maxRecDepth 8192 in
theorem c4_writes : (RunP.c4 : List (HloOp τ sig (Elt F))).Forall fun op => op.writes ⊆ (c4_W.map (Proc.devRef (τ := τ) .tc)).toFinset := by
  simp only [RunP.c4, List.Forall]
  repeat' apply And.intro
  all_goals exact writes_sub (by decide)
theorem B4_keep (r : Ref sig .tc) (h : r ∉ c4_W) : B4 m c (no_index (Proc.devRef .tc r)) = B3 m c (Proc.devRef .tc r) :=
  after_of_writes_sub RunP.c4 _ c4_writes h
set_option maxRecDepth 8192 in
set_option maxHeartbeats 1700000 in
theorem B4_main_v141 : B4 m c (no_index (Proc.devRef .tc main_v141)) = ReadP.val_main_v141 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) := by
  unfold B4
  simp only [RunP.c4]
  after_results_simp
  simp (disch := decide) only [B3_keep, B2_keep, B1_keep, B0_keep, B1_main_v69, B0_main_v1, B3_main_v129, B0_main_v3] <;> rfl

-- Chunk 5: the contents after it, the buffers it writes, and every other buffer carried across it.
def B5 : Valuation τ sig (Elt F) := after RunP.c5 (B4 m c)
abbrev c5_W : List (Ref sig .tc) := [main_v142, main_v143, main_v144, main_v145, main_v146, main_v147, main_v148, main_v149, main_v150, main_v151, main_v152, main_v153, main_v154, main_call6_cst, main_call6_v0, main_v155, main_v156, main_v157, main_v158, main_v159, main_call7_cst, main_call7_v0, main_v160, main_v161, main_v162, main_v163, main_v164, main_v165, main_cst_19, main_v166, main_v167, main_cst_20, main_v168, main_v169, main_v170, main_v171, main_v172, main_cst_21, main_v173, main_v174, main_cst_22, main_v175, main_v176, main_v177, main_v178, main_cst_23, main_v179, main_v180, main_v181, main_v182, main_v183, main_v184, main_v185, main_v186, main_v187, main_v188, main_v189]
set_option maxRecDepth 8192 in
theorem c5_writes : (RunP.c5 : List (HloOp τ sig (Elt F))).Forall fun op => op.writes ⊆ (c5_W.map (Proc.devRef (τ := τ) .tc)).toFinset := by
  simp only [RunP.c5, List.Forall]
  repeat' apply And.intro
  all_goals exact writes_sub (by decide)
theorem B5_keep (r : Ref sig .tc) (h : r ∉ c5_W) : B5 m c (no_index (Proc.devRef .tc r)) = B4 m c (Proc.devRef .tc r) :=
  after_of_writes_sub RunP.c5 _ c5_writes h
set_option maxRecDepth 8192 in
set_option maxHeartbeats 4000000 in
theorem B5_main_v189 : B5 m c (no_index (Proc.devRef .tc main_v189)) = ReadP.val_main_v189 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) := by
  unfold B5
  simp only [RunP.c5]
  after_results_simp
  simp (disch := decide) only [B4_keep, B3_keep, B2_keep, B1_keep, B0_keep, B4_main_v141, B3_main_v129] <;> rfl

-- Chunk 6: the contents after it, the buffers it writes, and every other buffer carried across it.
def B6 : Valuation τ sig (Elt F) := after RunP.c6 (B5 m c)
abbrev c6_W : List (Ref sig .tc) := [main_c_24, main_v190, main_v191, main_c_25, main_v192, main_v193, main_v194, main_v195, main_v196, main_v197, main_call8_cst, main_call8_v0, main_v198, main_cst_26, main_v199, main_v200, main_v201]
set_option maxRecDepth 8192 in
theorem c6_writes : (RunP.c6 : List (HloOp τ sig (Elt F))).Forall fun op => op.writes ⊆ (c6_W.map (Proc.devRef (τ := τ) .tc)).toFinset := by
  simp only [RunP.c6, List.Forall]
  repeat' apply And.intro
  all_goals exact writes_sub (by decide)
theorem B6_keep (r : Ref sig .tc) (h : r ∉ c6_W) : B6 m c (no_index (Proc.devRef .tc r)) = B5 m c (Proc.devRef .tc r) :=
  after_of_writes_sub RunP.c6 _ c6_writes h
set_option maxRecDepth 8192 in
set_option maxHeartbeats 1700000 in
theorem B6_main_v201 : B6 m c (no_index (Proc.devRef .tc main_v201)) = ReadP.val_main_v201 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) := by
  unfold B6
  simp only [RunP.c6]
  after_results_simp
  simp (disch := decide) only [B5_keep, B4_keep, B3_keep, B2_keep, B1_keep, B0_keep, B1_main_v69, B0_main_v1, B5_main_v189, B0_main_v3] <;> rfl

-- Chunk 7: the contents after it, the buffers it writes, and every other buffer carried across it.
def B7 : Valuation τ sig (Elt F) := after RunP.c7 (B6 m c)
abbrev c7_W : List (Ref sig .tc) := [main_v202, main_v203, main_v204, main_v205, main_v206, main_v207, main_v208, main_v209, main_v210, main_v211, main_v212, main_v213, main_v214, main_call9_cst, main_call9_v0, main_v215, main_v216, main_v217, main_v218, main_v219, main_call10_cst, main_call10_v0, main_v220, main_v221, main_v222, main_v223, main_v224, main_v225, main_cst_27, main_v226, main_v227, main_cst_28, main_v228, main_v229, main_v230, main_v231, main_v232, main_cst_29, main_v233, main_v234, main_cst_30, main_v235, main_v236, main_v237, main_v238, main_cst_31, main_v239, main_v240, main_v241, main_v242, main_v243, main_v244, main_v245, main_v246, main_v247, main_v248, main_v249]
set_option maxRecDepth 8192 in
theorem c7_writes : (RunP.c7 : List (HloOp τ sig (Elt F))).Forall fun op => op.writes ⊆ (c7_W.map (Proc.devRef (τ := τ) .tc)).toFinset := by
  simp only [RunP.c7, List.Forall]
  repeat' apply And.intro
  all_goals exact writes_sub (by decide)
theorem B7_keep (r : Ref sig .tc) (h : r ∉ c7_W) : B7 m c (no_index (Proc.devRef .tc r)) = B6 m c (Proc.devRef .tc r) :=
  after_of_writes_sub RunP.c7 _ c7_writes h
set_option maxRecDepth 8192 in
set_option maxHeartbeats 4000000 in
theorem B7_main_v249 : B7 m c (no_index (Proc.devRef .tc main_v249)) = ReadP.val_main_v249 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) := by
  unfold B7
  simp only [RunP.c7]
  after_results_simp
  simp (disch := decide) only [B6_keep, B5_keep, B4_keep, B3_keep, B2_keep, B1_keep, B0_keep, B6_main_v201, B5_main_v189] <;> rfl

-- Chunk 8: the contents after it, the buffers it writes, and every other buffer carried across it.
def B8 : Valuation τ sig (Elt F) := after RunP.c8 (B7 m c)
abbrev c8_W : List (Ref sig .tc) := [main_call11_cst, main_call11_v0, main_call11_v1, main_call11_v2, main_call11_v3, main_call11_v4, main_call11_v5, main_call11_v6, main_call11_v7, main_call11_v8, main_v250, main_cst_32, main_v251, main_v252, main_v253, main_v254, main_v255, main_call12_cst, main_call12_v0, main_v256, main_v257, main_v258, main_v259, main_v260, main_v261, main_v262, main_v263, main_v264, main_v265, main_v266, main_call13_cst, main_call13_v0, main_v267, main_v268, main_v269, main_v270, main_v271, main_cst_33, main_cst_34, main_call14_v0, main_call14_v1, main_call14_v2, main_call14_v3, main_call14_v4, main_v272, main_v273, main_cst_35, main_v274, main_v275, main_cst_36, main_v276, main_v277]
set_option maxRecDepth 8192 in
theorem c8_writes : (RunP.c8 : List (HloOp τ sig (Elt F))).Forall fun op => op.writes ⊆ (c8_W.map (Proc.devRef (τ := τ) .tc)).toFinset := by
  simp only [RunP.c8, List.Forall]
  repeat' apply And.intro
  all_goals exact writes_sub (by decide)
theorem B8_keep (r : Ref sig .tc) (h : r ∉ c8_W) : B8 m c (no_index (Proc.devRef .tc r)) = B7 m c (Proc.devRef .tc r) :=
  after_of_writes_sub RunP.c8 _ c8_writes h

theorem after_ops : after (RunP.ops (F := F)) (launchContents m c) = B8 m c := by
  rw [ops_eq]; simp only [after_app, B8, B7, B6, B5, B4, B3, B2, B1, B0]

-- The five results of @main, each as its stage over the arguments' launch contents.
set_option maxRecDepth 8192 in
set_option maxHeartbeats 4000000 in
theorem res_v251 : after (RunP.ops (F := F)) (launchContents m c) (Proc.devRef .tc main_v251) = ReadP.val_main_v251 (F := F) (arg m c main_arg29) := by
  rw [after_ops]; unfold B8
  simp only [RunP.c8]
  after_results_simp
  simp (disch := decide) only [B7_keep, B6_keep, B5_keep, B4_keep, B3_keep, B2_keep, B1_keep, B0_keep] <;> rfl
set_option maxRecDepth 8192 in
set_option maxHeartbeats 4000000 in
theorem res_v262 : after (RunP.ops (F := F)) (launchContents m c) (Proc.devRef .tc main_v262) = ReadP.val_main_v262 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg29) := by
  rw [after_ops]; unfold B8
  simp only [RunP.c8]
  after_results_simp
  simp (disch := decide) only [B7_keep, B6_keep, B5_keep, B4_keep, B3_keep, B2_keep, B1_keep, B0_keep, B7_main_v249] <;> rfl
set_option maxRecDepth 8192 in
set_option maxHeartbeats 4000000 in
theorem res_v272 : after (RunP.ops (F := F)) (launchContents m c) (Proc.devRef .tc main_v272) = ReadP.val_main_v272 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg25) (arg m c main_arg26) (arg m c main_arg27) (arg m c main_arg28) := by
  rw [after_ops]; unfold B8
  simp only [RunP.c8]
  after_results_simp
  simp (disch := decide) only [B7_keep, B6_keep, B5_keep, B4_keep, B3_keep, B2_keep, B1_keep, B0_keep, B7_main_v249] <;> rfl
set_option maxRecDepth 8192 in
set_option maxHeartbeats 4000000 in
theorem res_v273 : after (RunP.ops (F := F)) (launchContents m c) (Proc.devRef .tc main_v273) = ReadP.val_main_v273 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg25) (arg m c main_arg26) (arg m c main_arg27) (arg m c main_arg28) := by
  rw [after_ops]; unfold B8
  simp only [RunP.c8]
  after_results_simp
  simp (disch := decide) only [B7_keep, B6_keep, B5_keep, B4_keep, B3_keep, B2_keep, B1_keep, B0_keep, B7_main_v249] <;> rfl
set_option maxRecDepth 8192 in
set_option maxHeartbeats 4000000 in
theorem res_v277 : after (RunP.ops (F := F)) (launchContents m c) (Proc.devRef .tc main_v277) = ReadP.val_main_v277 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg25) (arg m c main_arg26) (arg m c main_arg27) (arg m c main_arg28) := by
  rw [after_ops]; unfold B8
  simp only [RunP.c8]
  after_results_simp
  simp (disch := decide) only [B7_keep, B6_keep, B5_keep, B4_keep, B3_keep, B2_keep, B1_keep, B0_keep, B7_main_v249] <;> rfl

/-- A buffer no chunk writes ends the run at its launch contents. -/
theorem kept (r : Ref sig .tc) (h : r ∉ c0_W ∧ r ∉ c1_W ∧ r ∉ c2_W ∧ r ∉ c3_W ∧ r ∉ c4_W ∧ r ∉ c5_W ∧ r ∉ c6_W ∧ r ∉ c7_W ∧ r ∉ c8_W) :
    after (RunP.ops (F := F)) (launchContents m c) (Proc.devRef .tc r) = arg m c r := by
  obtain ⟨h0, h1, h2, h3, h4, h5, h6, h7, h8⟩ := h
  rw [after_ops, B8_keep m c r h8, B7_keep m c r h7, B6_keep m c r h6, B5_keep m c r h5, B4_keep m c r h4, B3_keep m c r h3, B2_keep m c r h2, B1_keep m c r h1, B0_keep m c r h0]

end Cert.ReferenceIdeal.RFold

end
-- ==== Proof.Bridge.lean ====
import proofs.«410051_j26534307954693_2_alg».proof.Proof.Gen.KernelIdeal
import proofs.«410051_j26534307954693_2_alg».proof.Proof.RefReadP

noncomputable section

namespace Cert.Bridge

open Idealize.ShloMosaic Idealize.ShloMosaic.TcCoe Idealize.SL.Sem
open Cert.ReferenceIdeal.ReadP

abbrev KMem := (ℓ : Loc Cert.KernelIdeal.nD Cert.KernelIdeal.τ Cert.KernelIdeal.sig) → Buf (Elt Ideal) ℓ

variable (m : KMem) (c : Dev Cert.KernelIdeal.nD)

abbrev a0 : (⟨Cert.ReferenceIdeal.S50000x5, .f32⟩ : BufTy).Contents (Elt Ideal) :=
  m ((c.tc : Thread Cert.KernelIdeal.nD Cert.KernelIdeal.τ).loc Cert.KernelIdeal.main_arg0)
abbrev a1 : (⟨Cert.ReferenceIdeal.S600000x6, .f32⟩ : BufTy).Contents (Elt Ideal) :=
  m ((c.tc : Thread Cert.KernelIdeal.nD Cert.KernelIdeal.τ).loc Cert.KernelIdeal.main_arg1)
abbrev a2 : (⟨Cert.ReferenceIdeal.S2x600000, .i32⟩ : BufTy).Contents (Elt Ideal) :=
  m ((c.tc : Thread Cert.KernelIdeal.nD Cert.KernelIdeal.τ).loc Cert.KernelIdeal.main_arg2)
abbrev a3 : (⟨Cert.ReferenceIdeal.S5x128, .f32⟩ : BufTy).Contents (Elt Ideal) :=
  m ((c.tc : Thread Cert.KernelIdeal.nD Cert.KernelIdeal.τ).loc Cert.KernelIdeal.main_arg3)
abbrev a4 : (⟨Cert.ReferenceIdeal.S128, .f32⟩ : BufTy).Contents (Elt Ideal) :=
  m ((c.tc : Thread Cert.KernelIdeal.nD Cert.KernelIdeal.τ).loc Cert.KernelIdeal.main_arg4)
abbrev a5 : (⟨Cert.ReferenceIdeal.S128x128, .f32⟩ : BufTy).Contents (Elt Ideal) :=
  m ((c.tc : Thread Cert.KernelIdeal.nD Cert.KernelIdeal.τ).loc Cert.KernelIdeal.main_arg5)
abbrev a6 : (⟨Cert.ReferenceIdeal.S128, .f32⟩ : BufTy).Contents (Elt Ideal) :=
  m ((c.tc : Thread Cert.KernelIdeal.nD Cert.KernelIdeal.τ).loc Cert.KernelIdeal.main_arg6)
abbrev a7 : (⟨Cert.ReferenceIdeal.S128, .f32⟩ : BufTy).Contents (Elt Ideal) :=
  m ((c.tc : Thread Cert.KernelIdeal.nD Cert.KernelIdeal.τ).loc Cert.KernelIdeal.main_arg7)
abbrev a8 : (⟨Cert.ReferenceIdeal.S128, .f32⟩ : BufTy).Contents (Elt Ideal) :=
  m ((c.tc : Thread Cert.KernelIdeal.nD Cert.KernelIdeal.τ).loc Cert.KernelIdeal.main_arg8)
abbrev a9 : (⟨Cert.ReferenceIdeal.S6x128, .f32⟩ : BufTy).Contents (Elt Ideal) :=
  m ((c.tc : Thread Cert.KernelIdeal.nD Cert.KernelIdeal.τ).loc Cert.KernelIdeal.main_arg9)
abbrev a10 : (⟨Cert.ReferenceIdeal.S128, .f32⟩ : BufTy).Contents (Elt Ideal) :=
  m ((c.tc : Thread Cert.KernelIdeal.nD Cert.KernelIdeal.τ).loc Cert.KernelIdeal.main_arg10)
abbrev a11 : (⟨Cert.ReferenceIdeal.S128x128, .f32⟩ : BufTy).Contents (Elt Ideal) :=
  m ((c.tc : Thread Cert.KernelIdeal.nD Cert.KernelIdeal.τ).loc Cert.KernelIdeal.main_arg11)
abbrev a12 : (⟨Cert.ReferenceIdeal.S128, .f32⟩ : BufTy).Contents (Elt Ideal) :=
  m ((c.tc : Thread Cert.KernelIdeal.nD Cert.KernelIdeal.τ).loc Cert.KernelIdeal.main_arg12)
abbrev a13 : (⟨Cert.ReferenceIdeal.S128, .f32⟩ : BufTy).Contents (Elt Ideal) :=
  m ((c.tc : Thread Cert.KernelIdeal.nD Cert.KernelIdeal.τ).loc Cert.KernelIdeal.main_arg13)
abbrev a14 : (⟨Cert.ReferenceIdeal.S128, .f32⟩ : BufTy).Contents (Elt Ideal) :=
  m ((c.tc : Thread Cert.KernelIdeal.nD Cert.KernelIdeal.τ).loc Cert.KernelIdeal.main_arg14)
abbrev a15 : (⟨Cert.ReferenceIdeal.S3x128x128, .f32⟩ : BufTy).Contents (Elt Ideal) :=
  m ((c.tc : Thread Cert.KernelIdeal.nD Cert.KernelIdeal.τ).loc Cert.KernelIdeal.main_arg15)
abbrev a16 : (⟨Cert.ReferenceIdeal.S3x128, .f32⟩ : BufTy).Contents (Elt Ideal) :=
  m ((c.tc : Thread Cert.KernelIdeal.nD Cert.KernelIdeal.τ).loc Cert.KernelIdeal.main_arg16)
abbrev a17 : (⟨Cert.ReferenceIdeal.S3x128x128, .f32⟩ : BufTy).Contents (Elt Ideal) :=
  m ((c.tc : Thread Cert.KernelIdeal.nD Cert.KernelIdeal.τ).loc Cert.KernelIdeal.main_arg17)
abbrev a18 : (⟨Cert.ReferenceIdeal.S3x128, .f32⟩ : BufTy).Contents (Elt Ideal) :=
  m ((c.tc : Thread Cert.KernelIdeal.nD Cert.KernelIdeal.τ).loc Cert.KernelIdeal.main_arg18)
abbrev a19 : (⟨Cert.ReferenceIdeal.S3x128, .f32⟩ : BufTy).Contents (Elt Ideal) :=
  m ((c.tc : Thread Cert.KernelIdeal.nD Cert.KernelIdeal.τ).loc Cert.KernelIdeal.main_arg19)
abbrev a20 : (⟨Cert.ReferenceIdeal.S3x128, .f32⟩ : BufTy).Contents (Elt Ideal) :=
  m ((c.tc : Thread Cert.KernelIdeal.nD Cert.KernelIdeal.τ).loc Cert.KernelIdeal.main_arg20)
abbrev a21 : (⟨Cert.ReferenceIdeal.S128x64, .f32⟩ : BufTy).Contents (Elt Ideal) :=
  m ((c.tc : Thread Cert.KernelIdeal.nD Cert.KernelIdeal.τ).loc Cert.KernelIdeal.main_arg21)
abbrev a22 : (⟨Cert.ReferenceIdeal.S64, .f32⟩ : BufTy).Contents (Elt Ideal) :=
  m ((c.tc : Thread Cert.KernelIdeal.nD Cert.KernelIdeal.τ).loc Cert.KernelIdeal.main_arg22)
abbrev a23 : (⟨Cert.ReferenceIdeal.S64x3, .f32⟩ : BufTy).Contents (Elt Ideal) :=
  m ((c.tc : Thread Cert.KernelIdeal.nD Cert.KernelIdeal.τ).loc Cert.KernelIdeal.main_arg23)
abbrev a24 : (⟨Cert.ReferenceIdeal.S3, .f32⟩ : BufTy).Contents (Elt Ideal) :=
  m ((c.tc : Thread Cert.KernelIdeal.nD Cert.KernelIdeal.τ).loc Cert.KernelIdeal.main_arg24)
abbrev a25 : (⟨Cert.ReferenceIdeal.S128x64, .f32⟩ : BufTy).Contents (Elt Ideal) :=
  m ((c.tc : Thread Cert.KernelIdeal.nD Cert.KernelIdeal.τ).loc Cert.KernelIdeal.main_arg25)
abbrev a26 : (⟨Cert.ReferenceIdeal.S64, .f32⟩ : BufTy).Contents (Elt Ideal) :=
  m ((c.tc : Thread Cert.KernelIdeal.nD Cert.KernelIdeal.τ).loc Cert.KernelIdeal.main_arg26)
abbrev a27 : (⟨Cert.ReferenceIdeal.S64x1, .f32⟩ : BufTy).Contents (Elt Ideal) :=
  m ((c.tc : Thread Cert.KernelIdeal.nD Cert.KernelIdeal.τ).loc Cert.KernelIdeal.main_arg27)
abbrev a28 : (⟨Cert.ReferenceIdeal.S1, .f32⟩ : BufTy).Contents (Elt Ideal) :=
  m ((c.tc : Thread Cert.KernelIdeal.nD Cert.KernelIdeal.τ).loc Cert.KernelIdeal.main_arg28)
abbrev a29 : (⟨Cert.ReferenceIdeal.S_, .f32⟩ : BufTy).Contents (Elt Ideal) :=
  m ((c.tc : Thread Cert.KernelIdeal.nD Cert.KernelIdeal.τ).loc Cert.KernelIdeal.main_arg29)

def h0 := val_main_v36 (F := Ideal) (a0 m c) (a3 m c) (a4 m c) (a5 m c) (a6 m c) (a7 m c) (a8 m c)
def ea := val_main_v69 (F := Ideal) (a1 m c) (a9 m c) (a10 m c) (a11 m c) (a12 m c) (a13 m c) (a14 m c)
def agg0 := val_main_v81 (F := Ideal) (a0 m c) (a1 m c) (a2 m c) (a3 m c) (a4 m c) (a5 m c) (a6 m c) (a7 m c) (a8 m c) (a9 m c) (a10 m c) (a11 m c) (a12 m c) (a13 m c) (a14 m c)
def h1 := val_main_v129 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)
def agg1 := val_main_v141 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)
def h2 := val_main_v189 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)
def agg2 := val_main_v201 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)
def h3 := val_main_v249 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)
def uraw := val_main_v260 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c)
def logsraw := val_main_v271 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a25 m c) (a26 m c) (a27 m c) (a28 m c)
def vU := val_main_v262 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a29 m c)
def vS := val_main_v273 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a25 m c) (a26 m c) (a27 m c) (a28 m c)
def vLogS := val_main_v272 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a25 m c) (a26 m c) (a27 m c) (a28 m c)
def vScale := val_main_v251 (F := Ideal) (a29 m c)
def vSafety := val_main_v277 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a25 m c) (a26 m c) (a27 m c) (a28 m c)

end Cert.Bridge

end
-- ==== Proof.LibReduceAllOnes.lean ====
import Idealize.ShloMosaic.Lib.ReduceAll

namespace Idealize.ShloMosaic

namespace IntOp

theorem foldl_andi_of_all_one {ι : Type} (f : ι → BitVec 1) :
    ∀ (l : List ι) (init : BitVec 1), init = 1#1 → (∀ n ∈ l, f n = 1#1) →
      l.foldl (fun r n => andi r (f n)) init = 1#1
  | [], _, h, _ => h
  | a :: l, _, h, hl =>
    foldl_andi_of_all_one f l _ (andi_eq_one.2 ⟨h, hl a List.mem_cons_self⟩)
      fun n hn => hl n (List.mem_cons_of_mem _ hn)

end IntOp

namespace Host

variable {s t u : Shape} {axes : List (Fin s.rank)}

theorem reduce_andi_of_all_one (x : s.Idx → BitVec 1) (init : u.Idx → BitVec 1) (h : s.ReducesTo axes t)
    (hu : 0 < u.numel) (j : t.Idx) (hinit : ∀ k, init k = 1#1) (hx : ∀ i, x i = 1#1) :
    Host.reduce IntOp.andi x init h hu j = 1#1 := by
  rw [Host.reduce_eq_foldl]
  exact IntOp.foldl_andi_of_all_one x _ _ (hinit _) fun n _ => hx n

end Host

end Idealize.ShloMosaic
-- ==== Proof.PreIdx.lean ====
import proofs.«410051_j26534307954693_2_alg».proof.Defs
import proofs.«410051_j26534307954693_2_alg».proof.Proof.Gen.Pre_finite_inputs
import proofs.«410051_j26534307954693_2_alg».proof.Proof.Gen.KernelIdeal
import proofs.«410051_j26534307954693_2_alg».proof.Proof.LibReduceAllOnes
import Idealize.ShloMosaic.Lib.ReduceAll
import Idealize.ShloMosaic.Lib.Affine
import Idealize.ShloMosaic.Lib.StableHlo.Predicate
import Idealize.ShloMosaic.Lib.ValueIdx
import Idealize.ShloMosaic.Lib.Pipeline.Value

noncomputable section

namespace Cert.KernelIdeal.PreIdx

open Cert.KernelIdeal Idealize.ShloMosaic Idealize.ShloMosaic.ValueIdx

instance : Subsingleton S_.Idx := ⟨fun a b => funext fun d => d.elim0⟩

theorem row0_apply {α : Type} (x : S2x600000.Idx → α) (hs : S2x600000.Slices ![0, 0] S1x600000)
    (hc : S1x600000.ShapeCasts S600000) (i : S600000.Idx) :
    shapeCast S600000 (extractStridedSlice S1x600000 ![0, 0] x hs) hc i = x (ix2 (0 : Fin 2) (i 0)) := by
  rw [shapeCast_apply _ hc i (ix2 (0 : Fin 1) (i 0))
    (by rewrite [Shape.rowMajor_val_two, Shape.rowMajor_val_one]; show 0 * 600000 + (i 0).val = (i 0).val; omega)]
  exact extractStridedSlice_apply ![0, 0] x hs _ (ix2 (0 : Fin 2) (i 0)) (fun a => match a with
    | ⟨0, _⟩ => by show (0 : Nat) = 0 + 0; omega
    | ⟨1, _⟩ => by show (i 0).val = 0 + (i 0).val; omega)

theorem bcast_const {s t : Shape} {w : Nat} (dims : Fin s.rank → Fin t.rank) (h : s.BroadcastsInDim t dims) (c : BitVec w)
    (j : t.Idx) : broadcastInDim t dims h (constantI s w c) j = c := rfl

theorem toInt_zero32 : (0#32 : BitVec 32).toInt = 0 := by decide
theorem toInt_50000 : (50000#32 : BitVec 32).toInt = 50000 := by decide
theorem toInt_49999 : (49999#32 : BitVec 32).toInt = 49999 := by decide

theorem part8_range (a2 : IVec Cert.Pre_finite_inputs.S2x600000 32) (a29 : FVec Ideal Cert.Pre_finite_inputs.S_ .f32)
    (v133 : IVec Cert.Pre_finite_inputs.S_ 1) (v136 : IVec Cert.Pre_finite_inputs.S1 1)
    (h : Cert.Pre_finite_inputs.fn_part8 (F := Ideal) a2 a29 v133 v136 ix0 = 1#1) (e : Fin 600000) :
    0 ≤ (a2 (ix2 (0 : Fin 2) e)).toInt ∧ (a2 (ix2 (0 : Fin 2) e)).toInt < 50000 := by
  unfold Cert.Pre_finite_inputs.fn_part8 at h
  dsimp only at h
  change IntOp.andi _ _ = 1#1 at h
  have h1 := (IntOp.andi_eq_one.1 h).2
  have h2 := Host.reduce_andi_all _ _ _ _ _ h1 (ix1 e)
  change IntOp.andi (IntOp.cmpi .sge _ _) (IntOp.cmpi .slt _ _) = 1#1 at h2
  obtain ⟨h3, h4⟩ := IntOp.andi_eq_one.1 h2
  have h5 := IntOp.cmpi_sge.1 h3
  have h6 := IntOp.cmpi_slt.1 h4
  rw [bcast_const, toInt_zero32, row0_apply] at h5
  rw [bcast_const, toInt_50000, row0_apply] at h6
  exact ⟨h5, h6⟩

theorem src_range (a0 : FVec Ideal Cert.Pre_finite_inputs.S50000x5 .f32) (a1 : FVec Ideal Cert.Pre_finite_inputs.S600000x6 .f32) (a2 : IVec Cert.Pre_finite_inputs.S2x600000 32) (a3 : FVec Ideal Cert.Pre_finite_inputs.S5x128 .f32) (a4 : FVec Ideal Cert.Pre_finite_inputs.S128 .f32) (a5 : FVec Ideal Cert.Pre_finite_inputs.S128x128 .f32) (a6 : FVec Ideal Cert.Pre_finite_inputs.S128 .f32) (a7 : FVec Ideal Cert.Pre_finite_inputs.S128 .f32) (a8 : FVec Ideal Cert.Pre_finite_inputs.S128 .f32) (a9 : FVec Ideal Cert.Pre_finite_inputs.S6x128 .f32) (a10 : FVec Ideal Cert.Pre_finite_inputs.S128 .f32) (a11 : FVec Ideal Cert.Pre_finite_inputs.S128x128 .f32) (a12 : FVec Ideal Cert.Pre_finite_inputs.S128 .f32) (a13 : FVec Ideal Cert.Pre_finite_inputs.S128 .f32) (a14 : FVec Ideal Cert.Pre_finite_inputs.S128 .f32) (a15 : FVec Ideal Cert.Pre_finite_inputs.S3x128x128 .f32) (a16 : FVec Ideal Cert.Pre_finite_inputs.S3x128 .f32) (a17 : FVec Ideal Cert.Pre_finite_inputs.S3x128x128 .f32) (a18 : FVec Ideal Cert.Pre_finite_inputs.S3x128 .f32) (a19 : FVec Ideal Cert.Pre_finite_inputs.S3x128 .f32) (a20 : FVec Ideal Cert.Pre_finite_inputs.S3x128 .f32) (a21 : FVec Ideal Cert.Pre_finite_inputs.S128x64 .f32) (a22 : FVec Ideal Cert.Pre_finite_inputs.S64 .f32) (a23 : FVec Ideal Cert.Pre_finite_inputs.S64x3 .f32) (a24 : FVec Ideal Cert.Pre_finite_inputs.S3 .f32) (a25 : FVec Ideal Cert.Pre_finite_inputs.S128x64 .f32) (a26 : FVec Ideal Cert.Pre_finite_inputs.S64 .f32) (a27 : FVec Ideal Cert.Pre_finite_inputs.S64x1 .f32) (a28 : FVec Ideal Cert.Pre_finite_inputs.S1 .f32) (a29 : FVec Ideal Cert.Pre_finite_inputs.S_ .f32)
    (h : Cert.Pre_finite_inputs.fn (F := Ideal) a0 a1 a2 a3 a4 a5 a6 a7 a8 a9 a10 a11 a12 a13 a14 a15 a16 a17 a18 a19 a20 a21 a22 a23 a24 a25 a26 a27 a28 a29 = (fun _ => 1#1)) (e : Fin 600000) :
    0 ≤ (a2 (ix2 (0 : Fin 2) e)).toInt ∧ (a2 (ix2 (0 : Fin 2) e)).toInt < 50000 := by
  have h0 := congrFun h ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 Cert.Pre_finite_inputs.fn_part6 Cert.Pre_finite_inputs.fn_part7 at h0
  exact part8_range _ _ _ _ h0 e

abbrev srcOf (ei : IVec S2x600000 32) : IVec S600000 32 :=
  shapeCast S600000 ((extractStridedSlice S1x600000 ![0, 0] · Gen.slices_S2x600000_S1x600000_0_0) ei) Gen.shapeCasts_S1x600000_S600000

abbrev wrapOf (s : IVec S600000 32) : IVec S600000 32 :=
  select (cmpi .slt s (broadcastInDim S600000 ![] Gen.bcast_S_S600000 (constantI S_ 32 0#32)))
    (addi s (broadcastInDim S600000 ![] Gen.bcast_S_S600000 (constantI S_ 32 50000#32))) s

abbrev mask12Of (i5 : IVec S600000x1 32) : IVec S600000 1 :=
  Host.reduce IntOp.andi
    (andi (cmpi .sge i5 (broadcastInDim S600000x1 ![] Gen.bcast_S_S600000x1 (constantI S_ 32 0#32)))
      (cmpi .sle i5 (broadcastInDim S600000x1 ![0, 1] Gen.bcast_S1x1_S600000x1_0_1
        (broadcastInDim S1x1 ![1] Gen.bcast_S1_S1x1_1 (constantI S1 32 49999#32)))))
    (constantI S_ 1 1#1) Gen.reducesTo_S600000x1_S600000_d1 Gen.h_S_

section
variable (ei : IVec S2x600000 32)
  (hr : ∀ e : Fin 600000, 0 ≤ (ei (ix2 (0 : Fin 2) e)).toInt ∧ (ei (ix2 (0 : Fin 2) e)).toInt < 50000)
include hr

omit hr in
theorem srcOf_apply (i : S600000.Idx) : srcOf ei i = ei (ix2 (0 : Fin 2) (i 0)) := row0_apply ei _ _ i

theorem wrap_eq : wrapOf (srcOf ei) = srcOf ei := by
  funext i
  have hs := srcOf_apply ei i
  have hc : IntOp.cmpi .slt (srcOf ei i) 0#32 = 0#1 := eq_zero_of_ne_one fun hc => by
    have hlt := IntOp.cmpi_slt.1 hc
    rw [hs, toInt_zero32] at hlt
    exact absurd (hr (i 0)).1 (by omega)
  show Scalar.select (IntOp.cmpi .slt (srcOf ei i) 0#32) _ _ = _
  rw [hc, select_zero]

omit hr in
theorem col_apply {α : Type} (s : S600000.Idx → α) (i : S600000x1.Idx) :
    broadcastInDim S600000x1 ![0] Gen.bcast_S600000_S600000x1_0 s i = s (ix1 (i 0)) :=
  broadcastInDim_apply ![0] Gen.bcast_S600000_S600000x1_0 s i (ix1 (i 0)) (fun a => match a with
    | ⟨0, _⟩ => by show (i 0).val = if (600000 : Nat) = 1 then 0 else (i 0).val; rw [if_neg (by decide)])

theorem mask12_one (e : S600000.Idx) :
    mask12Of (broadcastInDim S600000x1 ![0] Gen.bcast_S600000_S600000x1_0 (wrapOf (srcOf ei))) e = 1#1 := by
  refine Host.reduce_andi_of_all_one _ _ _ _ e (fun _ => rfl) (fun i => ?_)
  show IntOp.andi
    (IntOp.cmpi .sge (broadcastInDim S600000x1 ![0] Gen.bcast_S600000_S600000x1_0 (wrapOf (srcOf ei)) i) 0#32)
    (IntOp.cmpi .sle (broadcastInDim S600000x1 ![0] Gen.bcast_S600000_S600000x1_0 (wrapOf (srcOf ei)) i) 49999#32) = 1#1
  have hsrc : broadcastInDim S600000x1 ![0] Gen.bcast_S600000_S600000x1_0 (wrapOf (srcOf ei)) i
      = ei (ix2 (0 : Fin 2) (i 0)) := by
    rw [col_apply, wrap_eq ei hr]
    exact srcOf_apply ei _
  rw [hsrc]
  obtain ⟨hlo, hhi⟩ := hr (i 0)
  exact IntOp.andi_eq_one.2 ⟨IntOp.cmpi_sge.2 (by rw [toInt_zero32]; exact hlo),
    IntOp.cmpi_sle.2 (by rw [toInt_49999]; omega)⟩

theorem mask14_one (i : S600000x128.Idx) :
    broadcastInDim S600000x128 ![0] Gen.bcast_S600000_S600000x128_0
      (mask12Of (broadcastInDim S600000x1 ![0] Gen.bcast_S600000_S600000x1_0 (wrapOf (srcOf ei)))) i = 1#1 :=
  mask12_one ei hr _

end

theorem select_of_all_one {α : Type} (msk : IVec S600000x128 1) (hm : ∀ i, msk i = 1#1) (A B : S600000x128.Idx → α) :
    select msk A B = A := by
  funext i
  rw [select_apply, hm i, select_one]

end Cert.KernelIdeal.PreIdx

end
-- ==== Proof.Spec.lean ====
import Idealize.ShloMosaic.PureOps.Ideal
import Mathlib.Algebra.BigOperators.Group.Finset.Basic

noncomputable section

namespace Cert.Spec

open Idealize.ShloMosaic

abbrev z0 : EReal := Ideal.ofBits .f32 0x00000000#32
abbrev c128 : EReal := Ideal.ofBits .f32 0x43000000#32
abbrev eps : EReal := Ideal.ofBits .f32 0x3727C5AC#32

def lin {n k : ℕ} (x : Fin n → EReal) (w : Fin n → Fin k → EReal) (b : Fin k → EReal) : Fin k → EReal :=
  fun q => (∑ j : Fin n, x j * w j q) + b q

def relu {k : ℕ} (x : Fin k → EReal) : Fin k → EReal := fun q => max (x q) z0

def mlp2 {n k o : ℕ} (x : Fin n → EReal) (w1 : Fin n → Fin k → EReal) (b1 : Fin k → EReal)
    (w2 : Fin k → Fin o → EReal) (b2 : Fin o → EReal) : Fin o → EReal :=
  lin (relu (lin x w1 b1)) w2 b2

def meanR (h : Fin 128 → EReal) : EReal := Ideal.div (z0 + ∑ k : Fin 128, h k) c128
def varR (h : Fin 128 → EReal) : EReal :=
  Ideal.div (z0 + ∑ k : Fin 128, (h k - meanR h) * (h k - meanR h)) c128
def lnR (h g b : Fin 128 → EReal) : Fin 128 → EReal :=
  fun q => Ideal.div (h q - meanR h) (Ideal.sqrt (varR h + eps)) * g q + b q

def meanK (h : Fin 128 → EReal) : EReal := Ideal.div (∑ k : Fin 128, h k) c128
def varK (h : Fin 128 → EReal) : EReal :=
  Ideal.div (∑ k : Fin 128, (h k - meanK h) * (h k - meanK h)) c128
def lnK (h g b : Fin 128 → EReal) : Fin 128 → EReal :=
  fun q => (h q - meanK h) * Ideal.rsqrt (varK h + eps) * g q + b q

def encR {d : ℕ} (x : Fin d → EReal) (w1 : Fin d → Fin 128 → EReal) (b1 : Fin 128 → EReal)
    (w2 : Fin 128 → Fin 128 → EReal) (b2 g be : Fin 128 → EReal) : Fin 128 → EReal :=
  lnR (mlp2 x w1 b1 w2 b2) g be
def encK {d : ℕ} (x : Fin d → EReal) (w1 : Fin d → Fin 128 → EReal) (b1 : Fin 128 → EReal)
    (w2 : Fin 128 → Fin 128 → EReal) (b2 g be : Fin 128 → EReal) : Fin 128 → EReal :=
  lnK (mlp2 x w1 b1 w2 b2) g be

def convPre (a h : Fin 128 → EReal) (w1 : Fin 128 → Fin 128 → EReal) (b1 : Fin 128 → EReal)
    (w2 : Fin 128 → Fin 128 → EReal) (b2 : Fin 128 → EReal) : Fin 128 → EReal :=
  fun q => h q + max (mlp2 (fun j => a j + h j) w1 b1 w2 b2 q) z0
def convR (a h : Fin 128 → EReal) (w1 : Fin 128 → Fin 128 → EReal) (b1 : Fin 128 → EReal)
    (w2 : Fin 128 → Fin 128 → EReal) (b2 g be : Fin 128 → EReal) : Fin 128 → EReal :=
  lnR (convPre a h w1 b1 w2 b2) g be
def convK (a h : Fin 128 → EReal) (w1 : Fin 128 → Fin 128 → EReal) (b1 : Fin 128 → EReal)
    (w2 : Fin 128 → Fin 128 → EReal) (b2 g be : Fin 128 → EReal) : Fin 128 → EReal :=
  lnK (convPre a h w1 b1 w2 b2) g be

end Cert.Spec

end
-- ==== Proof.KReg0.lean ====
import proofs.«410051_j26534307954693_2_alg».proof.Proof.Gen.KernelIdeal.Frame
import proofs.«410051_j26534307954693_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KReg0

open Cert.KernelIdeal Cert.KernelIdeal.Gen Idealize.ShloMosaic Idealize.ShloMosaic.ValueIdx
open Idealize.ShloMosaic.TcCoe

theorem rowBcast_apply (v : FVec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  exact broadcastTo_1b_ab_apply v broadcasts_S1x128_S5000x128 p q

theorem colCast_apply (v : FVec Ideal S5000 .f32) (p : Fin 5000) (u : Fin 1) :
    shapeCast S5000x1 v shapeCasts_S5000_S5000x1 (ix2 p u) = v (ix1 p) :=
  shapeCast_apply v shapeCasts_S5000_S5000x1 _ _ (by
    have hu : u.val = 0 := by omega
    rw [Shape.rowMajor_val_two, Shape.rowMajor_val_one]
    show p.val = p.val * 1 + u.val
    omega)

theorem colBcast_apply (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ =>
    show p.val = if (5000 : Nat) = 1 then 0 else p.val
    rw [if_neg (by decide)]
  | ⟨1, _⟩ => rfl

theorem laneSum_apply (src : FVec Ideal S5000x128 .f32) (hacc : (0x00000000#32 : BitVec 32) = 0x00000000#32) (p : Fin 5000) :
    multiReduction (F := Ideal) .add [1] S5000 src 0x00000000#32 reduces_S5000x128_S5000 (.inl rfl) hacc (ix1 p)
      = ∑ k : Fin 128, src (ix2 p k) := by
  refine (Ideal.multiReduction_add_single src 0x00000000#32 reduces_S5000x128_S5000 (.inl rfl) hacc (ix1 p)).trans ?_
  refine Finset.sum_congr rfl fun k _ => congrArg src (funext fun a => Fin.ext ?_)
  match a with
  | ⟨0, _⟩ => rfl
  | ⟨1, _⟩ => rfl

theorem lhs_w1_0 (i : S5000x128.Idx) (q : dot_S5000x5_S5x128_S5000x128_1_0_0_1_n_n.contr.Idx) :
    (dot_S5000x5_S5x128_S5000x128_1_0_0_1_n_n.lhsIdx i q 0).val = (i 0).val := by
  unfold DotDims.lhsIdx
  rw [dif_neg (show ¬(0 : Fin S5000x5.rank) ∈ dot_S5000x5_S5x128_S5000x128_1_0_0_1_n_n.lhsBatch by decide), dif_pos (show (0 : Fin S5000x5.rank) ∈ dot_S5000x5_S5x128_S5000x128_1_0_0_1_n_n.lhsNonContracting by decide)]
  rfl
theorem lhs_w1_1 (i : S5000x128.Idx) (q : dot_S5000x5_S5x128_S5000x128_1_0_0_1_n_n.contr.Idx) :
    (dot_S5000x5_S5x128_S5000x128_1_0_0_1_n_n.lhsIdx i q 1).val = (q ⟨0, by decide⟩).val :=
  dot_S5000x5_S5x128_S5000x128_1_0_0_1_n_n.lhsIdx_val_of_single rfl i q
theorem rhs_w1_0 (i : S5000x128.Idx) (q : dot_S5000x5_S5x128_S5000x128_1_0_0_1_n_n.contr.Idx) :
    (dot_S5000x5_S5x128_S5000x128_1_0_0_1_n_n.rhsIdx i q 0).val = (q ⟨0, by decide⟩).val :=
  dot_S5000x5_S5x128_S5000x128_1_0_0_1_n_n.rhsIdx_val_of_single rfl i q
theorem rhs_w1_1 (i : S5000x128.Idx) (q : dot_S5000x5_S5x128_S5000x128_1_0_0_1_n_n.contr.Idx) :
    (dot_S5000x5_S5x128_S5000x128_1_0_0_1_n_n.rhsIdx i q 1).val = (i 1).val := by
  unfold DotDims.rhsIdx
  rw [dif_neg (show ¬(1 : Fin S5x128.rank) ∈ dot_S5000x5_S5x128_S5000x128_1_0_0_1_n_n.rhsBatch by decide), dif_pos (show (1 : Fin S5x128.rank) ∈ dot_S5000x5_S5x128_S5000x128_1_0_0_1_n_n.rhsNonContracting by decide)]
  rfl

theorem matmul_w1_apply (l : FVec Ideal S5000x5 .f32) (r : FVec Ideal S5x128 .f32) (p : Fin 5000) (q : Fin 128) :
    matmul dot_S5000x5_S5x128_S5000x128_1_0_0_1_n_n none l r (constant (F := Ideal) S5000x128 .f32 0x00000000#32) (ix2 p q)
      = ∑ k : Fin 5, l (ix2 p k) * r (ix2 k q) := by
  refine (Ideal.matmul_constant_zero_apply dot_S5000x5_S5x128_S5000x128_1_0_0_1_n_n none l r (ix2 p q)).trans ?_
  rw [← Equiv.sum_comp (ValueIdx.contrEquiv1 dot_S5000x5_S5x128_S5000x128_1_0_0_1_n_n 5 rfl rfl).symm]
  refine Finset.sum_congr rfl fun k _ => ?_
  have hk := ValueIdx.contrEquiv1_symm_val dot_S5000x5_S5x128_S5000x128_1_0_0_1_n_n 5 rfl rfl k
  have el : dot_S5000x5_S5x128_S5000x128_1_0_0_1_n_n.lhsIdx (ix2 p q) ((ValueIdx.contrEquiv1 dot_S5000x5_S5x128_S5000x128_1_0_0_1_n_n 5 rfl rfl).symm k) = ix2 p k := funext fun a => Fin.ext (by
    match a with
    | ⟨0, _⟩ => exact lhs_w1_0 _ _
    | ⟨1, _⟩ => exact (lhs_w1_1 _ _).trans hk)
  have er : dot_S5000x5_S5x128_S5000x128_1_0_0_1_n_n.rhsIdx (ix2 p q) ((ValueIdx.contrEquiv1 dot_S5000x5_S5x128_S5000x128_1_0_0_1_n_n 5 rfl rfl).symm k) = ix2 k q := funext fun a => Fin.ext (by
    match a with
    | ⟨0, _⟩ => exact (rhs_w1_0 _ _).trans hk
    | ⟨1, _⟩ => exact rhs_w1_1 _ _)
  rw [el, er]

theorem lhs_w2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_w2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_w2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_w2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul_w2_apply (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_w2_0 _ _
    | ⟨1, _⟩ => exact (lhs_w2_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_w2_0 _ _).trans hk
    | ⟨1, _⟩ => exact rhs_w2_1 _ _)
  rw [el, er]

theorem rsqrt_apply {s : Shape} (a : FVec Ideal s .f32) (i : s.Idx) : rsqrt a i = Ideal.rsqrt (a i) := rfl

theorem pay_apply (v0 : Vec Ideal S5000x5 .f32) (v1 : Vec Ideal S5x128 .f32) (v3 : Vec Ideal S1x128 .f32)
    (v9 : Vec Ideal S128x128 .f32) (v11 v33 v37 : Vec Ideal S1x128 .f32) (p : Fin 5000) (q : Fin 128) :
    k0_pay1 (F := Ideal) (k0_pay2 (F := Ideal) v0 v1 v3 v9 v11 v33) v37 (ix2 p q)
      = Cert.Spec.encK (fun k : Fin 5 => v0 (ix2 p k)) (fun (j : Fin 5) (k : Fin 128) => v1 (ix2 j k))
          (fun k : Fin 128 => v3 (ix2 (0 : Fin 1) k)) (fun (j k : Fin 128) => v9 (ix2 j k))
          (fun k => v11 (ix2 (0 : Fin 1) k)) (fun k => v33 (ix2 (0 : Fin 1) k)) (fun k => v37 (ix2 (0 : Fin 1) k)) q := by
  unfold k0_pay1 k0_pay2
  simp only [addf_apply, mulf_apply, subf_apply, divf_apply, maximumf_apply, broadcast_apply, rsqrt_apply,
    rowBcast_apply, colBcast_apply, colCast_apply, matmul_w1_apply, matmul_w2_apply]
  repeat (rw [laneSum_apply]; try simp only [addf_apply, mulf_apply, subf_apply, divf_apply, maximumf_apply, broadcast_apply,
    rsqrt_apply, rowBcast_apply, colBcast_apply, colCast_apply, matmul_w1_apply, matmul_w2_apply])
  unfold Cert.Spec.encK Cert.Spec.lnK Cert.Spec.varK Cert.Spec.meanK Cert.Spec.mlp2 Cert.Spec.lin Cert.Spec.relu
  rfl

theorem hz : (![0, 0] : Fin 2 → Nat) = fun _ => 0 := funext fun a => by
  match a with
  | ⟨0, _⟩ => rfl
  | ⟨1, _⟩ => rfl

theorem out_apply (x0 : Vec Ideal S5000x5 .f32) (x1 : Vec Ideal S5x128 .f32) (x2 : Vec Ideal S1x128 .f32)
    (x3 : Vec Ideal S128x128 .f32) (x4 x5 x6 : Vec Ideal S1x128 .f32) (p : Fin 5000) (q : Fin 128) :
    out0_7 (F := Ideal) x0 x1 x2 x3 x4 x5 x6 (ix2 p q)
      = Cert.Spec.encK (fun k : Fin 5 => x0 (ix2 p k)) (fun (j : Fin 5) (k : Fin 128) => x1 (ix2 j k))
          (fun k : Fin 128 => x2 (ix2 (0 : Fin 1) k)) (fun (j k : Fin 128) => x3 (ix2 j k))
          (fun k => x4 (ix2 (0 : Fin 1) k)) (fun k => x5 (ix2 (0 : Fin 1) k)) (fun k => x6 (ix2 (0 : Fin 1) k)) q := by
  unfold out0_7
  rw [View.canon_unit_zero hz]
  simp only [View.ld_unit_zero (S := S5000x5) hz, View.ld_unit_zero (S := S5x128) hz, View.ld_unit_zero (S := S1x128) hz,
    View.ld_unit_zero (S := S128x128) hz]
  exact pay_apply x0 x1 x2 x3 x4 x5 x6 p q

section Arrays

variable (V : (c : Dev nD) → (b : Ref sig .tc) → Buf (Elt Ideal) ((c : Thread nD τ).loc b))

abbrev aX (c : Dev nD) : S50000x5.Idx → EReal := V c (Pipeline.arrRef spec0 0)
abbrev aW1 (c : Dev nD) : S5x128.Idx → EReal := V c (Pipeline.arrRef spec0 1)
abbrev aB1 (c : Dev nD) : S1x128.Idx → EReal := V c (Pipeline.arrRef spec0 2)
abbrev aW2 (c : Dev nD) : S128x128.Idx → EReal := V c (Pipeline.arrRef spec0 3)
abbrev aB2 (c : Dev nD) : S1x128.Idx → EReal := V c (Pipeline.arrRef spec0 4)
abbrev aG (c : Dev nD) : S1x128.Idx → EReal := V c (Pipeline.arrRef spec0 5)
abbrev aBe (c : Dev nD) : S1x128.Idx → EReal := V c (Pipeline.arrRef spec0 6)

def encArr (c : Dev nD) : S50000x128.Idx → EReal := fun i =>
  Cert.Spec.encK (fun k : Fin 5 => aX V c (ix2 (i 0) k)) (fun (j : Fin 5) (k : Fin 128) => aW1 V c (ix2 j k))
    (fun k : Fin 128 => aB1 V c (ix2 (0 : Fin 1) k)) (fun (j k : Fin 128) => aW2 V c (ix2 j k))
    (fun k => aB2 V c (ix2 (0 : Fin 1) k)) (fun k => aG V c (ix2 (0 : Fin 1) k)) (fun k => aBe V c (ix2 (0 : Fin 1) k)) (i 1)

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem blkX_apply (c : Dev nD) (t : Fin cfg0.N) (p : Fin 5000) (k : Fin 5) (i : S50000x5.Idx)
    (h0 : (i 0).val = t.val * 5000 + p.val) (h1 : (i 1).val = k.val) :
    iblk0 V c 0 t (ix2 p k) = aX V c i := by
  obtain ⟨e0, e1, -⟩ := idx_facts t
  show V c (Pipeline.arrRef spec0 0) (((cfg0.win 0).blk t).view.emb (ix2 p k)) = V c (Pipeline.arrRef spec0 0) i
  refine congrArg _ (funext fun a => Fin.ext ?_)
  match a with
  | ⟨0, _⟩ => show win0_0.index t (0 : Fin 2) * 5000 + 1 * p.val = (i 0).val; omega
  | ⟨1, _⟩ => show win0_0.index t (1 : Fin 2) * 5 + 1 * k.val = (i 1).val; omega

theorem blkW1_apply (c : Dev nD) (t : Fin cfg0.N) (y : S5x128.Idx) : iblk0 V c 1 t y = aW1 V c y := by
  obtain ⟨-, -, e10, e11, e20, e21, e30, e31, e40, e41, e50, e51, e60, e61, -⟩ := idx_facts t
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 5 + 1 * (y 0).val = (y 0).val; omega
  | ⟨1, _⟩ => show win0_1.index t (1 : Fin 2) * 128 + 1 * (y 1).val = (y 1).val; omega

theorem blkB1_apply (c : Dev nD) (t : Fin cfg0.N) (y : S1x128.Idx) : iblk0 V c 2 t y = aB1 V c y := by
  obtain ⟨-, -, e10, e11, e20, e21, e30, e31, e40, e41, e50, e51, e60, e61, -⟩ := idx_facts t
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem blkW2_apply (c : Dev nD) (t : Fin cfg0.N) (y : S128x128.Idx) : iblk0 V c 3 t y = aW2 V c y := by
  obtain ⟨-, -, e10, e11, e20, e21, e30, e31, e40, e41, e50, e51, e60, e61, -⟩ := idx_facts t
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blkB2_apply (c : Dev nD) (t : Fin cfg0.N) (y : S1x128.Idx) : iblk0 V c 4 t y = aB2 V c y := by
  obtain ⟨-, -, e10, e11, e20, e21, e30, e31, e40, e41, e50, e51, e60, e61, -⟩ := idx_facts t
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem blkG_apply (c : Dev nD) (t : Fin cfg0.N) (y : S1x128.Idx) : iblk0 V c 5 t y = aG V c y := by
  obtain ⟨-, -, e10, e11, e20, e21, e30, e31, e40, e41, e50, e51, e60, e61, -⟩ := idx_facts t
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem blkBe_apply (c : Dev nD) (t : Fin cfg0.N) (y : S1x128.Idx) : iblk0 V c 6 t y = aBe V c y := by
  obtain ⟨-, -, e10, e11, e20, e21, e30, e31, e40, e41, e50, e51, e60, e61, -⟩ := idx_facts t
  show V c (Pipeline.arrRef spec0 6) (((cfg0.win 6).blk t).view.emb y) = V c (Pipeline.arrRef spec0 6) y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem encK_congr {d : ℕ} {x x' : Fin d → EReal} {w1 w1' : Fin d → Fin 128 → EReal} {b1 b1' : Fin 128 → EReal}
    {w2 w2' : Fin 128 → Fin 128 → EReal} {b2 b2' g g' be be' : Fin 128 → EReal} {q q' : Fin 128}
    (hx : x = x') (hw1 : w1 = w1') (hb1 : b1 = b1') (hw2 : w2 = w2') (hb2 : b2 = b2') (hg : g = g') (hbe : be = be')
    (hq : q = q') : Cert.Spec.encK x w1 b1 w2 b2 g be q = Cert.Spec.encK x' w1' b1' w2' b2' g' be' q' := by
  subst hx hw1 hb1 hw2 hb2 hg hbe hq; rfl

theorem flushed_eq (c : Dev nD) (t : Fin cfg0.N) :
    (dat0 V c).flushed 7 t = ((cfg0.win 7).blk t).view.read (Elt Ideal) (encArr V c) := by
  show (cfg0.win 7).cut (grid0.coords t) ((dat0 V c).after 7 t) = _
  rw [after0_7]
  funext j
  have hj0 : (j 0).val < 5000 := (j 0).isLt
  have hj1 : (j 1).val < 128 := (j 1).isLt
  obtain ⟨-, -, -, -, -, -, -, -, -, -, -, -, -, -, e70, e71⟩ := idx_facts t
  have hx : (cfg0.win 7).xinj (grid0.coords t) j = ix2 (⟨(j 0).val, hj0⟩ : Fin 5000) (⟨(j 1).val, hj1⟩ : Fin 128) :=
    funext fun a => Fin.ext (by
      match a with
      | ⟨0, _⟩ => rfl
      | ⟨1, _⟩ => rfl)
  show out0_7 (iblk0 V c 0 t) (iblk0 V c 1 t) (iblk0 V c 2 t) (iblk0 V c 3 t) (iblk0 V c 4 t) (iblk0 V c 5 t) (iblk0 V c 6 t)
      ((cfg0.win 7).xinj (grid0.coords t) j) = encArr V c (((cfg0.win 7).blk t).view.emb j)
  refine (congrArg _ hx).trans ?_
  refine (out_apply _ _ _ _ _ _ _ _ _).trans ?_
  unfold encArr
  refine encK_congr (funext fun k => blkX_apply V c t _ k _ ?_ rfl) (funext fun a => funext fun k => blkW1_apply V c t _)
    (funext fun k => blkB1_apply V c t _) (funext fun a => funext fun k => blkW2_apply V c t _)
    (funext fun k => blkB2_apply V c t _) (funext fun k => blkG_apply V c t _) (funext fun k => blkBe_apply V c t _)
    (Fin.ext ?_)
  · show win0_7.index t (0 : Fin 2) * 5000 + 1 * (j 0).val = t.val * 5000 + (j 0).val
    omega
  · show (j 1).val = win0_7.index t (1 : Fin 2) * 128 + 1 * (j 1).val
    omega

theorem mem_blk (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v8).slice (win0_7.rect t)).set ↔ _
  rw [View.set_slice_whole, Rect.mem_set_unit]
  exact Iff.rfl

theorem covered (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, -, -, -, -, -, -, -, -, -, -, e70, e71⟩ := idx_facts ⟨(i 0).val / 5000, ht⟩
  refine ⟨⟨(i 0).val / 5000, ht⟩, flush0_7 _, ?_⟩
  rw [mem_blk]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [e70]; show (i 0).val / 5000 * 5000 ≤ (i 0).val ∧ (i 0).val < (i 0).val / 5000 * 5000 + 5000; omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    rw [e71]; omega

theorem final_arr (c : Dev nD) : (dat0 V c).arrAt 7 cfg0.N = encArr V c :=
  (dat0 V c).arrAt_eq_of_cover 7 (encArr V c) (fun t _ => flushed_eq V c t) covered

end Arrays

theorem final_apply (V : (c : Dev nD) → (b : Ref sig .tc) → Buf (Elt Ideal) ((c : Thread nD τ).loc b)) (c : Dev nD)
    (r : Fin 50000) (q : Fin 128) :
    (dat0 (F := Ideal) V c).arrAt 7 cfg0.N (ix2 r q)
      = Cert.Spec.encK (fun k : Fin 5 => V c (Pipeline.arrRef spec0 0) (ix2 r k))
          (fun (j : Fin 5) (k : Fin 128) => V c (Pipeline.arrRef spec0 1) (ix2 j k))
          (fun k : Fin 128 => V c (Pipeline.arrRef spec0 2) (ix2 (0 : Fin 1) k))
          (fun (j k : Fin 128) => V c (Pipeline.arrRef spec0 3) (ix2 j k))
          (fun k => V c (Pipeline.arrRef spec0 4) (ix2 (0 : Fin 1) k))
          (fun k => V c (Pipeline.arrRef spec0 5) (ix2 (0 : Fin 1) k))
          (fun k => V c (Pipeline.arrRef spec0 6) (ix2 (0 : Fin 1) k)) q :=
  (congrFun (final_arr V c) (ix2 r q)).trans rfl

end Cert.KernelIdeal.KReg0

end
-- ==== Proof.KReg1.lean ====
import proofs.«410051_j26534307954693_2_alg».proof.Proof.Gen.KernelIdeal.Frame
import proofs.«410051_j26534307954693_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KReg1

open Cert.KernelIdeal Cert.KernelIdeal.Gen Idealize.ShloMosaic Idealize.ShloMosaic.ValueIdx
open Idealize.ShloMosaic.TcCoe

theorem rowBcast_apply (v : FVec Ideal S1x128 .f32) (p : Fin 10000) (q : Fin 128) :
    broadcastTo S10000x128 (shapeCast S1x128 v shapeCasts_S1x128_S1x128) broadcasts_S1x128_S10000x128 (ix2 p q)
      = v (ix2 (0 : Fin 1) q) := by
  rw [shapeCast_self]
  exact broadcastTo_1b_ab_apply v broadcasts_S1x128_S10000x128 p q

theorem colCast_apply (v : FVec Ideal S10000 .f32) (p : Fin 10000) (u : Fin 1) :
    shapeCast S10000x1 v shapeCasts_S10000_S10000x1 (ix2 p u) = v (ix1 p) :=
  shapeCast_apply v shapeCasts_S10000_S10000x1 _ _ (by
    have hu : u.val = 0 := by omega
    rw [Shape.rowMajor_val_two, Shape.rowMajor_val_one]
    show p.val = p.val * 1 + u.val
    omega)

theorem colBcast_apply (v : FVec Ideal S10000x1 .f32) (p : Fin 10000) (q : Fin 128) :
    broadcastTo S10000x128 v broadcasts_S10000x1_S10000x128 (ix2 p q) = v (ix2 p (0 : Fin 1)) := by
  refine broadcastTo_apply v broadcasts_S10000x1_S10000x128 (ix2 p q) (ix2 p (0 : Fin 1)) fun ax => ?_
  match ax with
  | ⟨0, _⟩ =>
    show p.val = if (10000 : Nat) = 1 then 0 else p.val
    rw [if_neg (by decide)]
  | ⟨1, _⟩ => rfl

theorem laneSum_apply (src : FVec Ideal S10000x128 .f32) (hacc : (0x00000000#32 : BitVec 32) = 0x00000000#32) (p : Fin 10000) :
    multiReduction (F := Ideal) .add [1] S10000 src 0x00000000#32 reduces_S10000x128_S10000 (.inl rfl) hacc (ix1 p)
      = ∑ k : Fin 128, src (ix2 p k) := by
  refine (Ideal.multiReduction_add_single src 0x00000000#32 reduces_S10000x128_S10000 (.inl rfl) hacc (ix1 p)).trans ?_
  refine Finset.sum_congr rfl fun k _ => congrArg src (funext fun a => Fin.ext ?_)
  match a with
  | ⟨0, _⟩ => rfl
  | ⟨1, _⟩ => rfl

theorem lhs_w1_0 (i : S10000x128.Idx) (q : dot_S10000x6_S6x128_S10000x128_1_0_0_1_n_n.contr.Idx) :
    (dot_S10000x6_S6x128_S10000x128_1_0_0_1_n_n.lhsIdx i q 0).val = (i 0).val := by
  unfold DotDims.lhsIdx
  rw [dif_neg (show ¬(0 : Fin S10000x6.rank) ∈ dot_S10000x6_S6x128_S10000x128_1_0_0_1_n_n.lhsBatch by decide), dif_pos (show (0 : Fin S10000x6.rank) ∈ dot_S10000x6_S6x128_S10000x128_1_0_0_1_n_n.lhsNonContracting by decide)]
  rfl
theorem lhs_w1_1 (i : S10000x128.Idx) (q : dot_S10000x6_S6x128_S10000x128_1_0_0_1_n_n.contr.Idx) :
    (dot_S10000x6_S6x128_S10000x128_1_0_0_1_n_n.lhsIdx i q 1).val = (q ⟨0, by decide⟩).val :=
  dot_S10000x6_S6x128_S10000x128_1_0_0_1_n_n.lhsIdx_val_of_single rfl i q
theorem rhs_w1_0 (i : S10000x128.Idx) (q : dot_S10000x6_S6x128_S10000x128_1_0_0_1_n_n.contr.Idx) :
    (dot_S10000x6_S6x128_S10000x128_1_0_0_1_n_n.rhsIdx i q 0).val = (q ⟨0, by decide⟩).val :=
  dot_S10000x6_S6x128_S10000x128_1_0_0_1_n_n.rhsIdx_val_of_single rfl i q
theorem rhs_w1_1 (i : S10000x128.Idx) (q : dot_S10000x6_S6x128_S10000x128_1_0_0_1_n_n.contr.Idx) :
    (dot_S10000x6_S6x128_S10000x128_1_0_0_1_n_n.rhsIdx i q 1).val = (i 1).val := by
  unfold DotDims.rhsIdx
  rw [dif_neg (show ¬(1 : Fin S6x128.rank) ∈ dot_S10000x6_S6x128_S10000x128_1_0_0_1_n_n.rhsBatch by decide), dif_pos (show (1 : Fin S6x128.rank) ∈ dot_S10000x6_S6x128_S10000x128_1_0_0_1_n_n.rhsNonContracting by decide)]
  rfl

theorem matmul_w1_apply (l : FVec Ideal S10000x6 .f32) (r : FVec Ideal S6x128 .f32) (p : Fin 10000) (q : Fin 128) :
    matmul dot_S10000x6_S6x128_S10000x128_1_0_0_1_n_n none l r (constant (F := Ideal) S10000x128 .f32 0x00000000#32) (ix2 p q)
      = ∑ k : Fin 6, l (ix2 p k) * r (ix2 k q) := by
  refine (Ideal.matmul_constant_zero_apply dot_S10000x6_S6x128_S10000x128_1_0_0_1_n_n none l r (ix2 p q)).trans ?_
  rw [← Equiv.sum_comp (ValueIdx.contrEquiv1 dot_S10000x6_S6x128_S10000x128_1_0_0_1_n_n 6 rfl rfl).symm]
  refine Finset.sum_congr rfl fun k _ => ?_
  have hk := ValueIdx.contrEquiv1_symm_val dot_S10000x6_S6x128_S10000x128_1_0_0_1_n_n 6 rfl rfl k
  have el : dot_S10000x6_S6x128_S10000x128_1_0_0_1_n_n.lhsIdx (ix2 p q) ((ValueIdx.contrEquiv1 dot_S10000x6_S6x128_S10000x128_1_0_0_1_n_n 6 rfl rfl).symm k) = ix2 p k := funext fun a => Fin.ext (by
    match a with
    | ⟨0, _⟩ => exact lhs_w1_0 _ _
    | ⟨1, _⟩ => exact (lhs_w1_1 _ _).trans hk)
  have er : dot_S10000x6_S6x128_S10000x128_1_0_0_1_n_n.rhsIdx (ix2 p q) ((ValueIdx.contrEquiv1 dot_S10000x6_S6x128_S10000x128_1_0_0_1_n_n 6 rfl rfl).symm k) = ix2 k q := funext fun a => Fin.ext (by
    match a with
    | ⟨0, _⟩ => exact (rhs_w1_0 _ _).trans hk
    | ⟨1, _⟩ => exact rhs_w1_1 _ _)
  rw [el, er]

theorem lhs_w2_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_w2_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_w2_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_w2_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem matmul_w2_apply (l : FVec Ideal S10000x128 .f32) (r : FVec Ideal S128x128 .f32) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  refine (Ideal.matmul_constant_zero_apply dot_S10000x128_S128x128_S10000x128_1_0_0_1_n_n none l r (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_w2_0 _ _
    | ⟨1, _⟩ => exact (lhs_w2_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_w2_0 _ _).trans hk
    | ⟨1, _⟩ => exact rhs_w2_1 _ _)
  rw [el, er]

theorem rsqrt_apply {s : Shape} (a : FVec Ideal s .f32) (i : s.Idx) : rsqrt a i = Ideal.rsqrt (a i) := rfl

theorem pay_apply (v0 : Vec Ideal S10000x6 .f32) (v1 : Vec Ideal S6x128 .f32) (v3 : Vec Ideal S1x128 .f32)
    (v9 : Vec Ideal S128x128 .f32) (v11 v33 v37 : Vec Ideal S1x128 .f32) (p : Fin 10000) (q : Fin 128) :
    k1_pay1 (F := Ideal) (k1_pay2 (F := Ideal) v0 v1 v3 v9 v11 v33) v37 (ix2 p q)
      = Cert.Spec.encK (fun k : Fin 6 => v0 (ix2 p k)) (fun (j : Fin 6) (k : Fin 128) => v1 (ix2 j k))
          (fun k : Fin 128 => v3 (ix2 (0 : Fin 1) k)) (fun (j k : Fin 128) => v9 (ix2 j k))
          (fun k => v11 (ix2 (0 : Fin 1) k)) (fun k => v33 (ix2 (0 : Fin 1) k)) (fun k => v37 (ix2 (0 : Fin 1) k)) q := by
  unfold k1_pay1 k1_pay2
  simp only [addf_apply, mulf_apply, subf_apply, divf_apply, maximumf_apply, broadcast_apply, rsqrt_apply,
    rowBcast_apply, colBcast_apply, colCast_apply, matmul_w1_apply, matmul_w2_apply]
  repeat (rw [laneSum_apply]; try simp only [addf_apply, mulf_apply, subf_apply, divf_apply, maximumf_apply, broadcast_apply,
    rsqrt_apply, rowBcast_apply, colBcast_apply, colCast_apply, matmul_w1_apply, matmul_w2_apply])
  unfold Cert.Spec.encK Cert.Spec.lnK Cert.Spec.varK Cert.Spec.meanK Cert.Spec.mlp2 Cert.Spec.lin Cert.Spec.relu
  rfl

theorem hz : (![0, 0] : Fin 2 → Nat) = fun _ => 0 := funext fun a => by
  match a with
  | ⟨0, _⟩ => rfl
  | ⟨1, _⟩ => rfl

theorem out_apply (x0 : Vec Ideal S10000x6 .f32) (x1 : Vec Ideal S6x128 .f32) (x2 : Vec Ideal S1x128 .f32)
    (x3 : Vec Ideal S128x128 .f32) (x4 x5 x6 : Vec Ideal S1x128 .f32) (p : Fin 10000) (q : Fin 128) :
    out1_7 (F := Ideal) x0 x1 x2 x3 x4 x5 x6 (ix2 p q)
      = Cert.Spec.encK (fun k : Fin 6 => x0 (ix2 p k)) (fun (j : Fin 6) (k : Fin 128) => x1 (ix2 j k))
          (fun k : Fin 128 => x2 (ix2 (0 : Fin 1) k)) (fun (j k : Fin 128) => x3 (ix2 j k))
          (fun k => x4 (ix2 (0 : Fin 1) k)) (fun k => x5 (ix2 (0 : Fin 1) k)) (fun k => x6 (ix2 (0 : Fin 1) k)) q := by
  unfold out1_7
  rw [View.canon_unit_zero hz]
  simp only [View.ld_unit_zero (S := S10000x6) hz, View.ld_unit_zero (S := S6x128) hz, View.ld_unit_zero (S := S1x128) hz,
    View.ld_unit_zero (S := S128x128) hz]
  exact pay_apply x0 x1 x2 x3 x4 x5 x6 p q

section Arrays

variable (V : (c : Dev nD) → (b : Ref sig .tc) → Buf (Elt Ideal) ((c : Thread nD τ).loc b))

abbrev aX (c : Dev nD) : S600000x6.Idx → EReal := V c (Pipeline.arrRef spec1 0)
abbrev aW1 (c : Dev nD) : S6x128.Idx → EReal := V c (Pipeline.arrRef spec1 1)
abbrev aB1 (c : Dev nD) : S1x128.Idx → EReal := V c (Pipeline.arrRef spec1 2)
abbrev aW2 (c : Dev nD) : S128x128.Idx → EReal := V c (Pipeline.arrRef spec1 3)
abbrev aB2 (c : Dev nD) : S1x128.Idx → EReal := V c (Pipeline.arrRef spec1 4)
abbrev aG (c : Dev nD) : S1x128.Idx → EReal := V c (Pipeline.arrRef spec1 5)
abbrev aBe (c : Dev nD) : S1x128.Idx → EReal := V c (Pipeline.arrRef spec1 6)

def encArr (c : Dev nD) : S600000x128.Idx → EReal := fun i =>
  Cert.Spec.encK (fun k : Fin 6 => aX V c (ix2 (i 0) k)) (fun (j : Fin 6) (k : Fin 128) => aW1 V c (ix2 j k))
    (fun k : Fin 128 => aB1 V c (ix2 (0 : Fin 1) k)) (fun (j k : Fin 128) => aW2 V c (ix2 j k))
    (fun k => aB2 V c (ix2 (0 : Fin 1) k)) (fun k => aG V c (ix2 (0 : Fin 1) k)) (fun k => aBe V c (ix2 (0 : Fin 1) k)) (i 1)

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem blkX_apply (c : Dev nD) (t : Fin cfg1.N) (p : Fin 10000) (k : Fin 6) (i : S600000x6.Idx)
    (h0 : (i 0).val = t.val * 10000 + p.val) (h1 : (i 1).val = k.val) :
    iblk1 V c 0 t (ix2 p k) = aX V c i := by
  obtain ⟨e0, e1, -⟩ := idx_facts t
  show V c (Pipeline.arrRef spec1 0) (((cfg1.win 0).blk t).view.emb (ix2 p k)) = V c (Pipeline.arrRef spec1 0) i
  refine congrArg _ (funext fun a => Fin.ext ?_)
  match a with
  | ⟨0, _⟩ => show win1_0.index t (0 : Fin 2) * 10000 + 1 * p.val = (i 0).val; omega
  | ⟨1, _⟩ => show win1_0.index t (1 : Fin 2) * 6 + 1 * k.val = (i 1).val; omega

theorem blkW1_apply (c : Dev nD) (t : Fin cfg1.N) (y : S6x128.Idx) : iblk1 V c 1 t y = aW1 V c y := by
  obtain ⟨-, -, e10, e11, e20, e21, e30, e31, e40, e41, e50, e51, e60, e61, -⟩ := idx_facts t
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 6 + 1 * (y 0).val = (y 0).val; omega
  | ⟨1, _⟩ => show win1_1.index t (1 : Fin 2) * 128 + 1 * (y 1).val = (y 1).val; omega

theorem blkB1_apply (c : Dev nD) (t : Fin cfg1.N) (y : S1x128.Idx) : iblk1 V c 2 t y = aB1 V c y := by
  obtain ⟨-, -, e10, e11, e20, e21, e30, e31, e40, e41, e50, e51, e60, e61, -⟩ := idx_facts t
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem blkW2_apply (c : Dev nD) (t : Fin cfg1.N) (y : S128x128.Idx) : iblk1 V c 3 t y = aW2 V c y := by
  obtain ⟨-, -, e10, e11, e20, e21, e30, e31, e40, e41, e50, e51, e60, e61, -⟩ := idx_facts t
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blkB2_apply (c : Dev nD) (t : Fin cfg1.N) (y : S1x128.Idx) : iblk1 V c 4 t y = aB2 V c y := by
  obtain ⟨-, -, e10, e11, e20, e21, e30, e31, e40, e41, e50, e51, e60, e61, -⟩ := idx_facts t
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem blkG_apply (c : Dev nD) (t : Fin cfg1.N) (y : S1x128.Idx) : iblk1 V c 5 t y = aG V c y := by
  obtain ⟨-, -, e10, e11, e20, e21, e30, e31, e40, e41, e50, e51, e60, e61, -⟩ := idx_facts t
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem blkBe_apply (c : Dev nD) (t : Fin cfg1.N) (y : S1x128.Idx) : iblk1 V c 6 t y = aBe V c y := by
  obtain ⟨-, -, e10, e11, e20, e21, e30, e31, e40, e41, e50, e51, e60, e61, -⟩ := idx_facts t
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem encK_congr {d : ℕ} {x x' : Fin d → EReal} {w1 w1' : Fin d → Fin 128 → EReal} {b1 b1' : Fin 128 → EReal}
    {w2 w2' : Fin 128 → Fin 128 → EReal} {b2 b2' g g' be be' : Fin 128 → EReal} {q q' : Fin 128}
    (hx : x = x') (hw1 : w1 = w1') (hb1 : b1 = b1') (hw2 : w2 = w2') (hb2 : b2 = b2') (hg : g = g') (hbe : be = be')
    (hq : q = q') : Cert.Spec.encK x w1 b1 w2 b2 g be q = Cert.Spec.encK x' w1' b1' w2' b2' g' be' q' := by
  subst hx hw1 hb1 hw2 hb2 hg hbe hq; rfl

theorem flushed_eq (c : Dev nD) (t : Fin cfg1.N) :
    (dat1 V c).flushed 7 t = ((cfg1.win 7).blk t).view.read (Elt Ideal) (encArr V c) := by
  show (cfg1.win 7).cut (grid1.coords t) ((dat1 V c).after 7 t) = _
  rw [after1_7]
  funext j
  have hj0 : (j 0).val < 10000 := (j 0).isLt
  have hj1 : (j 1).val < 128 := (j 1).isLt
  obtain ⟨-, -, -, -, -, -, -, -, -, -, -, -, -, -, e70, e71⟩ := idx_facts t
  have hx : (cfg1.win 7).xinj (grid1.coords t) j = ix2 (⟨(j 0).val, hj0⟩ : Fin 10000) (⟨(j 1).val, hj1⟩ : Fin 128) :=
    funext fun a => Fin.ext (by
      match a with
      | ⟨0, _⟩ => rfl
      | ⟨1, _⟩ => rfl)
  show out1_7 (iblk1 V c 0 t) (iblk1 V c 1 t) (iblk1 V c 2 t) (iblk1 V c 3 t) (iblk1 V c 4 t) (iblk1 V c 5 t) (iblk1 V c 6 t)
      ((cfg1.win 7).xinj (grid1.coords t) j) = encArr V c (((cfg1.win 7).blk t).view.emb j)
  refine (congrArg _ hx).trans ?_
  refine (out_apply _ _ _ _ _ _ _ _ _).trans ?_
  unfold encArr
  refine encK_congr (funext fun k => blkX_apply V c t _ k _ ?_ rfl) (funext fun a => funext fun k => blkW1_apply V c t _)
    (funext fun k => blkB1_apply V c t _) (funext fun a => funext fun k => blkW2_apply V c t _)
    (funext fun k => blkB2_apply V c t _) (funext fun k => blkG_apply V c t _) (funext fun k => blkBe_apply V c t _)
    (Fin.ext ?_)
  · show win1_7.index t (0 : Fin 2) * 10000 + 1 * (j 0).val = t.val * 10000 + (j 0).val
    omega
  · show (j 1).val = win1_7.index t (1 : Fin 2) * 128 + 1 * (j 1).val
    omega

theorem mem_blk (t : Fin cfg1.N) (i : S600000x128.Idx) :
    i ∈ ((cfg1.win 7).blk t).view.set ↔ ∀ a : Fin 2, win1_7.index t a * S10000x128.size a ≤ (i a).val
      ∧ (i a).val < win1_7.index t a * S10000x128.size a + S10000x128.size a := by
  show i ∈ ((View.whole main_v13).slice (win1_7.rect t)).set ↔ _
  rw [View.set_slice_whole, Rect.mem_set_unit]
  exact Iff.rfl

theorem covered (i : S600000x128.Idx) :
    ∃ t : Fin cfg1.N, (cfg1.win 7).flush t = true ∧ i ∈ ((cfg1.win 7).blk t).view.set := by
  have hi0 : (i 0).val < 600000 := (i 0).isLt
  have hi1 : (i 1).val < 128 := (i 1).isLt
  have hN : grid1.N = 60 := N_1
  have ht : (i 0).val / 10000 < grid1.N := by rw [hN]; omega
  obtain ⟨-, -, -, -, -, -, -, -, -, -, -, -, -, -, e70, e71⟩ := idx_facts ⟨(i 0).val / 10000, ht⟩
  refine ⟨⟨(i 0).val / 10000, ht⟩, flush1_7 _, ?_⟩
  rw [mem_blk]
  intro a
  match a with
  | ⟨0, _⟩ =>
    show win1_7.index ⟨(i 0).val / 10000, ht⟩ (0 : Fin 2) * 10000 ≤ (i 0).val
      ∧ (i 0).val < win1_7.index ⟨(i 0).val / 10000, ht⟩ (0 : Fin 2) * 10000 + 10000
    rw [e70]; show (i 0).val / 10000 * 10000 ≤ (i 0).val ∧ (i 0).val < (i 0).val / 10000 * 10000 + 10000; omega
  | ⟨1, _⟩ =>
    show win1_7.index ⟨(i 0).val / 10000, ht⟩ (1 : Fin 2) * 128 ≤ (i 1).val
      ∧ (i 1).val < win1_7.index ⟨(i 0).val / 10000, ht⟩ (1 : Fin 2) * 128 + 128
    rw [e71]; omega

theorem final_arr (c : Dev nD) : (dat1 V c).arrAt 7 cfg1.N = encArr V c :=
  (dat1 V c).arrAt_eq_of_cover 7 (encArr V c) (fun t _ => flushed_eq V c t) covered

end Arrays

theorem final_apply (V : (c : Dev nD) → (b : Ref sig .tc) → Buf (Elt Ideal) ((c : Thread nD τ).loc b)) (c : Dev nD)
    (r : Fin 600000) (q : Fin 128) :
    (dat1 (F := Ideal) V c).arrAt 7 cfg1.N (ix2 r q)
      = Cert.Spec.encK (fun k : Fin 6 => V c (Pipeline.arrRef spec1 0) (ix2 r k))
          (fun (j : Fin 6) (k : Fin 128) => V c (Pipeline.arrRef spec1 1) (ix2 j k))
          (fun k : Fin 128 => V c (Pipeline.arrRef spec1 2) (ix2 (0 : Fin 1) k))
          (fun (j k : Fin 128) => V c (Pipeline.arrRef spec1 3) (ix2 j k))
          (fun k => V c (Pipeline.arrRef spec1 4) (ix2 (0 : Fin 1) k))
          (fun k => V c (Pipeline.arrRef spec1 5) (ix2 (0 : Fin 1) k))
          (fun k => V c (Pipeline.arrRef spec1 6) (ix2 (0 : Fin 1) k)) q :=
  (congrFun (final_arr V c) (ix2 r q)).trans rfl

end Cert.KernelIdeal.KReg1

end
-- ==== Proof.KFold.lean ====
import proofs.«410051_j26534307954693_2_alg».proof.Proof.Gen.KernelIdeal.Frame
import Idealize.ShloMosaic.Lib.StableHlo.Run

set_option maxRecDepth 16384

noncomputable section

namespace Cert.KernelIdeal.KFold

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

theorem wsub {W : List (Ref sig .tc)} {op : HloOp τ sig (Elt F)} (y : Ref sig .tc) (hw : op.writes = {Proc.devRef .tc y}) (hy : y ∈ W) :
    op.writes ⊆ (W.map (Proc.devRef (τ := τ) .tc)).toFinset := by
  rw [hw]; exact Finset.singleton_subset_iff.mpr (List.mem_toFinset.mpr (List.mem_map.mpr ⟨y, hy, rfl⟩))
abbrev wr_hostOps0 : List (Ref sig .tc) := [main_v0, main_v1, main_v2, main_v3, main_v4, main_v5, main_v6, main_v7]
theorem wr_hostOps0_sub : (hostOps0 : List (HloOp τ sig (Elt F))).Forall fun op => op.writes ⊆ ((wr_hostOps0).map (Proc.devRef (τ := τ) .tc)).toFinset :=
  ⟨wsub main_v0 rfl (by decide), wsub main_v1 rfl (by decide), wsub main_v2 rfl (by decide), wsub main_v3 rfl (by decide), wsub main_v4 rfl (by decide), wsub main_v5 rfl (by decide), wsub main_v6 rfl (by decide), wsub main_v7 rfl (by decide)⟩
theorem keep1 {r : Ref sig .tc} (hr : r ∉ wr_hostOps0) : W1 m ρ c (Proc.devRef .tc r) = W0 m ρ c (Proc.devRef .tc r) :=
  StableHlo.after_of_writes_sub hostOps0 _ wr_hostOps0_sub hr
abbrev wr_hostOps1 : List (Ref sig .tc) := [main_v9, main_v10, main_v11, main_v12]
theorem wr_hostOps1_sub : (hostOps1 : List (HloOp τ sig (Elt F))).Forall fun op => op.writes ⊆ ((wr_hostOps1).map (Proc.devRef (τ := τ) .tc)).toFinset :=
  ⟨wsub main_v9 rfl (by decide), wsub main_v10 rfl (by decide), wsub main_v11 rfl (by decide), wsub main_v12 rfl (by decide)⟩
theorem keep3 {r : Ref sig .tc} (hr : r ∉ wr_hostOps1) : W3 m ρ c (Proc.devRef .tc r) = W2 m ρ c (Proc.devRef .tc r) :=
  StableHlo.after_of_writes_sub hostOps1 _ wr_hostOps1_sub hr
abbrev wr_hostOps2 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v14]
theorem wr_hostOps2_sub : (hostOps2 : List (HloOp τ sig (Elt F))).Forall fun op => op.writes ⊆ ((wr_hostOps2).map (Proc.devRef (τ := τ) .tc)).toFinset :=
  ⟨wsub main_call0_c rfl (by decide), wsub main_call0_v0 rfl (by decide), wsub main_call0_v1 rfl (by decide), wsub main_call0_c_0 rfl (by decide), wsub main_call0_v2 rfl (by decide), wsub main_call0_v3 rfl (by decide), wsub main_call0_v4 rfl (by decide), wsub main_call0_v5 rfl (by decide), wsub main_call0_c_1 rfl (by decide), wsub main_call0_c_2 rfl (by decide), wsub main_call0_v6 rfl (by decide), wsub main_call0_v7 rfl (by decide), wsub main_call0_v8 rfl (by decide), wsub main_call0_v9 rfl (by decide), wsub main_call0_v10 rfl (by decide), wsub main_call0_v11 rfl (by decide), wsub main_call0_c_3 rfl (by decide), wsub main_call0_v12 rfl (by decide), wsub main_call0_v13 rfl (by decide), wsub main_call0_v14 rfl (by decide), wsub main_call0_cst rfl (by decide), wsub main_call0_v15 rfl (by decide), wsub main_v14 rfl (by decide)⟩
theorem keep5 {r : Ref sig .tc} (hr : r ∉ wr_hostOps2) : W5 m ρ c (Proc.devRef .tc r) = W4 m ρ c (Proc.devRef .tc r) :=
  StableHlo.after_of_writes_sub hostOps2 _ wr_hostOps2_sub hr
abbrev wr_hostOps2_1 : List (Ref sig .tc) := [main_v15]
theorem wr_hostOps2_1_sub : (hostOps2_1 : List (HloOp τ sig (Elt F))).Forall fun op => op.writes ⊆ ((wr_hostOps2_1).map (Proc.devRef (τ := τ) .tc)).toFinset :=
  wsub main_v15 rfl (by decide)
theorem keep6 {r : Ref sig .tc} (hr : r ∉ wr_hostOps2_1) : W6 m ρ c (Proc.devRef .tc r) = W5 m ρ c (Proc.devRef .tc r) :=
  StableHlo.after_of_writes_sub hostOps2_1 _ wr_hostOps2_1_sub hr
abbrev wr_hostOps2_2 : List (Ref sig .tc) := [main_call1_cst, main_call1_v0, main_v16]
theorem wr_hostOps2_2_sub : (hostOps2_2 : List (HloOp τ sig (Elt F))).Forall fun op => op.writes ⊆ ((wr_hostOps2_2).map (Proc.devRef (τ := τ) .tc)).toFinset :=
  ⟨wsub main_call1_cst rfl (by decide), wsub main_call1_v0 rfl (by decide), wsub main_v16 rfl (by decide)⟩
theorem keep7 {r : Ref sig .tc} (hr : r ∉ wr_hostOps2_2) : W7 m ρ c (Proc.devRef .tc r) = W6 m ρ c (Proc.devRef .tc r) :=
  StableHlo.after_of_writes_sub hostOps2_2 _ wr_hostOps2_2_sub hr
abbrev wr_hostOps2_3 : List (Ref sig .tc) := [main_cst, main_v17, main_v18, main_v19, main_v20, main_v21, main_v22, main_v23, main_v24, main_v25, main_v26, main_v27, main_v28, main_v29, main_v30, main_v31, main_v32, main_v33, main_v34, main_v35]
theorem wr_hostOps2_3_sub : (hostOps2_3 : List (HloOp τ sig (Elt F))).Forall fun op => op.writes ⊆ ((wr_hostOps2_3).map (Proc.devRef (τ := τ) .tc)).toFinset :=
  ⟨wsub main_cst rfl (by decide), wsub main_v17 rfl (by decide), wsub main_v18 rfl (by decide), wsub main_v19 rfl (by decide), wsub main_v20 rfl (by decide), wsub main_v21 rfl (by decide), wsub main_v22 rfl (by decide), wsub main_v23 rfl (by decide), wsub main_v24 rfl (by decide), wsub main_v25 rfl (by decide), wsub main_v26 rfl (by decide), wsub main_v27 rfl (by decide), wsub main_v28 rfl (by decide), wsub main_v29 rfl (by decide), wsub main_v30 rfl (by decide), wsub main_v31 rfl (by decide), wsub main_v32 rfl (by decide), wsub main_v33 rfl (by decide), wsub main_v34 rfl (by decide), wsub main_v35 rfl (by decide)⟩
theorem keep8 {r : Ref sig .tc} (hr : r ∉ wr_hostOps2_3) : W8 m ρ c (Proc.devRef .tc r) = W7 m ρ c (Proc.devRef .tc r) :=
  StableHlo.after_of_writes_sub hostOps2_3 _ wr_hostOps2_3_sub hr

abbrev argsA : List (Ref sig .tc) := [main_arg1, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]
abbrev argsB : List (Ref sig .tc) := [main_arg15, main_arg16, main_arg17, main_arg18, main_arg19, main_arg20, main_arg21, main_arg22, main_arg23, main_arg24, main_arg25, main_arg26, main_arg27, main_arg28, main_arg29]
theorem argsB_sub : ∀ r ∈ argsB, r ∈ argsA := by decide
theorem W0_arg (r : Ref sig .tc) : W0 m ρ c (Proc.devRef .tc r) = m ((c : Thread nD τ).loc r) := rfl
theorem W1_arg (r : Ref sig .tc) (hr : r ∈ argsA) : W1 m ρ c (Proc.devRef .tc r) = m ((c : Thread nD τ).loc r) :=
  (keep1 m ρ c ((by decide : ∀ r ∈ argsA, r ∉ wr_hostOps0) r hr)).trans (W0_arg m ρ c r)
theorem W2_arg (r : Ref sig .tc) (hr : r ∈ argsA) : W2 m ρ c (Proc.devRef .tc r) = m ((c : Thread nD τ).loc r) :=
  (W2_of_ne m ρ c r ((by decide : ∀ r ∈ argsA, ∀ w, Pipeline.arrRef spec0 w ≠ r) r hr)).trans (W1_arg m ρ c r hr)
theorem W3_arg (r : Ref sig .tc) (hr : r ∈ argsA) : W3 m ρ c (Proc.devRef .tc r) = m ((c : Thread nD τ).loc r) :=
  (keep3 m ρ c ((by decide : ∀ r ∈ argsA, r ∉ wr_hostOps1) r hr)).trans (W2_arg m ρ c r hr)
theorem W4_arg (r : Ref sig .tc) (hr : r ∈ argsB) : W4 m ρ c (Proc.devRef .tc r) = m ((c : Thread nD τ).loc r) :=
  (W4_of_ne m ρ c r ((by decide : ∀ r ∈ argsB, ∀ w, Pipeline.arrRef spec1 w ≠ r) r hr)).trans (W3_arg m ρ c r (argsB_sub r hr))
theorem W5_arg (r : Ref sig .tc) (hr : r ∈ argsB) : W5 m ρ c (Proc.devRef .tc r) = m ((c : Thread nD τ).loc r) :=
  (keep5 m ρ c ((by decide : ∀ r ∈ argsB, r ∉ wr_hostOps2) r hr)).trans (W4_arg m ρ c r hr)
theorem W6_arg (r : Ref sig .tc) (hr : r ∈ argsB) : W6 m ρ c (Proc.devRef .tc r) = m ((c : Thread nD τ).loc r) :=
  (keep6 m ρ c ((by decide : ∀ r ∈ argsB, r ∉ wr_hostOps2_1) r hr)).trans (W5_arg m ρ c r hr)
theorem W7_arg (r : Ref sig .tc) (hr : r ∈ argsB) : W7 m ρ c (Proc.devRef .tc r) = m ((c : Thread nD τ).loc r) :=
  (keep7 m ρ c ((by decide : ∀ r ∈ argsB, r ∉ wr_hostOps2_2) r hr)).trans (W6_arg m ρ c r hr)
theorem W8_arg (r : Ref sig .tc) (hr : r ∈ argsB) : W8 m ρ c (Proc.devRef .tc r) = m ((c : Thread nD τ).loc r) :=
  (keep8 m ρ c ((by decide : ∀ r ∈ argsB, r ∉ wr_hostOps2_3) r hr)).trans (W7_arg m ρ c r hr)

abbrev srcRow : (⟨S600000, .i32⟩ : BufTy).Contents (Elt F) :=
  shapeCast S600000 (extractStridedSlice S1x600000 ![0, 0] (m ((c : Thread nD τ).loc main_arg2) : (⟨S2x600000, .i32⟩ : BufTy).Contents (Elt F)) slices_S2x600000_S1x600000_0_0) shapeCasts_S1x600000_S600000
abbrev dstRow : (⟨S600000, .i32⟩ : BufTy).Contents (Elt F) :=
  shapeCast S600000 (extractStridedSlice S1x600000 ![1, 0] (m ((c : Thread nD τ).loc main_arg2) : (⟨S2x600000, .i32⟩ : BufTy).Contents (Elt F)) slices_S2x600000_S1x600000_1_0) shapeCasts_S1x600000_S600000
abbrev takeIdx (src : (⟨S600000, .i32⟩ : BufTy).Contents (Elt F)) : (⟨S600000x1, .i32⟩ : BufTy).Contents (Elt F) :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)
abbrev takeMask (src : (⟨S600000, .i32⟩ : BufTy).Contents (Elt F)) : (⟨S600000x128, .i1⟩ : BufTy).Contents (Elt F) :=
  broadcastInDim S600000x128 ![0] bcast_S600000_S600000x128_0
    (Host.reduce IntOp.andi
      (andi (cmpi .sge (takeIdx (F := F) src) (broadcastInDim S600000x1 ![] bcast_S_S600000x1 (constantI S_ 32 0#32)))
        (cmpi .sle (takeIdx (F := F) src) (broadcastInDim S600000x1 ![0, 1] bcast_S1x1_S600000x1_0_1 (broadcastInDim S1x1 ![1] bcast_S1_S1x1_1 (constantI S1 32 49999#32)))))
      (constantI S_ 1 1#1) reducesTo_S600000x1_S600000_d1 h_S_)
abbrev takeOf (h : (⟨S50000x128, .f32⟩ : BufTy).Contents (Elt F)) (src : (⟨S600000, .i32⟩ : BufTy).Contents (Elt F)) : (⟨S600000x128, .f32⟩ : BufTy).Contents (Elt F) :=
  select (takeMask (F := F) src) (Host.gather gather_S50000x128_S600000x1_S600000x128_1_0_n_n_0_1_1128 h (takeIdx (F := F) src))
    (broadcastInDim S600000x128 ![] bcast_S_S600000x128 (constant S_ .f32 0x7FC00000#32))
abbrev msgOf (h : (⟨S50000x128, .f32⟩ : BufTy).Contents (Elt F)) (ea : (⟨S600000x128, .f32⟩ : BufTy).Contents (Elt F)) (src : (⟨S600000, .i32⟩ : BufTy).Contents (Elt F)) : (⟨S600000x128, .f32⟩ : BufTy).Contents (Elt F) :=
  maximumf (addf (takeOf h src) ea) (broadcastInDim S600000x128 ![] bcast_S_S600000x128 (constant S_ .f32 0x00000000#32))
abbrev aggOf (h : (⟨S50000x128, .f32⟩ : BufTy).Contents (Elt F)) (ea : (⟨S600000x128, .f32⟩ : BufTy).Contents (Elt F)) (src dst : (⟨S600000, .i32⟩ : BufTy).Contents (Elt F)) : (⟨S50000x128, .f32⟩ : BufTy).Contents (Elt F) :=
  Host.scatterAdd scatter_S50000x128_S600000x1_S600000x128_1_0_0_1 (broadcastInDim S50000x128 ![] bcast_S_S50000x128 (constant S_ .f32 0x00000000#32))
    (broadcastInDim S600000x1 ![0] bcast_S600000_S600000x1_0 dst) (msgOf h ea src)

theorem W1_src : W1 m ρ c (Proc.devRef .tc main_v1) = srcRow m c := by
  show StableHlo.after hostOps0 (W0 m ρ c) (Proc.devRef .tc main_v1) = _
  after_results <;> rfl
theorem W1_dst : W1 m ρ c (Proc.devRef .tc main_v3) = dstRow m c := by
  show StableHlo.after hostOps0 (W0 m ρ c) (Proc.devRef .tc main_v3) = _
  after_results <;> rfl

theorem in_0_0 : V1 m ρ c (Pipeline.arrRef spec0 0) = m ((c : Thread nD τ).loc main_arg0) :=
  (keep1 m ρ c (r := main_arg0) (by decide)).trans rfl
theorem in_0_1 : V1 m ρ c (Pipeline.arrRef spec0 1) = m ((c : Thread nD τ).loc main_arg3) :=
  (keep1 m ρ c (r := main_arg3) (by decide)).trans rfl
theorem in_0_2 : V1 m ρ c (Pipeline.arrRef spec0 2) = shapeCast S1x128 (m ((c : Thread nD τ).loc main_arg4)) shapeCasts_S128_S1x128 := by
  rw [← W0_arg m ρ c main_arg4]
  show StableHlo.after hostOps0 (W0 m ρ c) (Proc.devRef .tc main_v4) = _
  generalize W0 m ρ c = V
  after_results <;> rfl
theorem in_0_3 : V1 m ρ c (Pipeline.arrRef spec0 3) = m ((c : Thread nD τ).loc main_arg5) :=
  (keep1 m ρ c (r := main_arg5) (by decide)).trans rfl
theorem in_0_4 : V1 m ρ c (Pipeline.arrRef spec0 4) = shapeCast S1x128 (m ((c : Thread nD τ).loc main_arg6)) shapeCasts_S128_S1x128 := by
  rw [← W0_arg m ρ c main_arg6]
  show StableHlo.after hostOps0 (W0 m ρ c) (Proc.devRef .tc main_v5) = _
  generalize W0 m ρ c = V
  after_results <;> rfl
theorem in_0_5 : V1 m ρ c (Pipeline.arrRef spec0 5) = shapeCast S1x128 (m ((c : Thread nD τ).loc main_arg7)) shapeCasts_S128_S1x128 := by
  rw [← W0_arg m ρ c main_arg7]
  show StableHlo.after hostOps0 (W0 m ρ c) (Proc.devRef .tc main_v6) = _
  generalize W0 m ρ c = V
  after_results <;> rfl
theorem in_0_6 : V1 m ρ c (Pipeline.arrRef spec0 6) = shapeCast S1x128 (m ((c : Thread nD τ).loc main_arg8)) shapeCasts_S128_S1x128 := by
  rw [← W0_arg m ρ c main_arg8]
  show StableHlo.after hostOps0 (W0 m ρ c) (Proc.devRef .tc main_v7) = _
  generalize W0 m ρ c = V
  after_results <;> rfl

theorem in_1_0 : V3 m ρ c (Pipeline.arrRef spec1 0) = m ((c : Thread nD τ).loc main_arg1) :=
  W3_arg m ρ c main_arg1 (by decide)
theorem in_1_1 : V3 m ρ c (Pipeline.arrRef spec1 1) = m ((c : Thread nD τ).loc main_arg9) :=
  W3_arg m ρ c main_arg9 (by decide)
theorem in_1_2 : V3 m ρ c (Pipeline.arrRef spec1 2) = shapeCast S1x128 (m ((c : Thread nD τ).loc main_arg10)) shapeCasts_S128_S1x128 := by
  rw [← W2_arg m ρ c main_arg10 (by decide)]
  show StableHlo.after hostOps1 (W2 m ρ c) (Proc.devRef .tc main_v9) = _
  generalize W2 m ρ c = V
  after_results <;> rfl
theorem in_1_3 : V3 m ρ c (Pipeline.arrRef spec1 3) = m ((c : Thread nD τ).loc main_arg11) :=
  W3_arg m ρ c main_arg11 (by decide)
theorem in_1_4 : V3 m ρ c (Pipeline.arrRef spec1 4) = shapeCast S1x128 (m ((c : Thread nD τ).loc main_arg12)) shapeCasts_S128_S1x128 := by
  rw [← W2_arg m ρ c main_arg12 (by decide)]
  show StableHlo.after hostOps1 (W2 m ρ c) (Proc.devRef .tc main_v10) = _
  generalize W2 m ρ c = V
  after_results <;> rfl
theorem in_1_5 : V3 m ρ c (Pipeline.arrRef spec1 5) = shapeCast S1x128 (m ((c : Thread nD τ).loc main_arg13)) shapeCasts_S128_S1x128 := by
  rw [← W2_arg m ρ c main_arg13 (by decide)]
  show StableHlo.after hostOps1 (W2 m ρ c) (Proc.devRef .tc main_v11) = _
  generalize W2 m ρ c = V
  after_results <;> rfl
theorem in_1_6 : V3 m ρ c (Pipeline.arrRef spec1 6) = shapeCast S1x128 (m ((c : Thread nD τ).loc main_arg14)) shapeCasts_S128_S1x128 := by
  rw [← W2_arg m ρ c main_arg14 (by decide)]
  show StableHlo.after hostOps1 (W2 m ρ c) (Proc.devRef .tc main_v12) = _
  generalize W2 m ρ c = V
  after_results <;> rfl

theorem W4_src : W4 m ρ c (Proc.devRef .tc main_v1) = srcRow m c :=
  ((W4_of_ne m ρ c main_v1 (by decide)).trans <| (keep3 m ρ c (r := main_v1) (by decide)).trans <| (W2_of_ne m ρ c main_v1 (by decide))).trans (W1_src m ρ c)
theorem W7_dst : W7 m ρ c (Proc.devRef .tc main_v3) = dstRow m c :=
  ((keep7 m ρ c (r := main_v3) (by decide)).trans <| (keep6 m ρ c (r := main_v3) (by decide)).trans <| (keep5 m ρ c (r := main_v3) (by decide)).trans <| (W4_of_ne m ρ c main_v3 (by decide)).trans <| (keep3 m ρ c (r := main_v3) (by decide)).trans <| (W2_of_ne m ρ c main_v3 (by decide))).trans (W1_dst m ρ c)
theorem W5_ea : W5 m ρ c (Proc.devRef .tc main_v13) = (dat1 (V3 m ρ) c).arrAt 7 cfg1.N :=
  ((keep5 m ρ c (r := main_v13) (by decide))).trans (W4_arr m ρ c 7)
theorem W4_h : W4 m ρ c (Proc.devRef .tc main_v8) = (dat0 (V1 m ρ) c).arrAt 7 cfg0.N :=
  ((W4_of_ne m ρ c main_v8 (by decide)).trans <| (keep3 m ρ c (r := main_v8) (by decide))).trans (W2_arr m ρ c 7)
theorem take_0 : W5 m ρ c (Proc.devRef .tc main_v14) = takeOf (W4 m ρ c (Proc.devRef .tc main_v8)) (W4 m ρ c (Proc.devRef .tc main_v1)) := by
  show StableHlo.after hostOps2 (W4 m ρ c) (Proc.devRef .tc main_v14) = _
  generalize W4 m ρ c = V
  after_results
  all_goals (try simp only [cast_cast, cast_eq])
  all_goals rfl
theorem msg_0 : W7 m ρ c (Proc.devRef .tc main_v16) = maximumf (addf (W5 m ρ c (Proc.devRef .tc main_v14) : (⟨S600000x128, .f32⟩ : BufTy).Contents (Elt F)) (W5 m ρ c (Proc.devRef .tc main_v13))) (broadcastInDim S600000x128 ![] bcast_S_S600000x128 (constant S_ .f32 0x00000000#32)) := by
  show StableHlo.after hostOps2_2 (StableHlo.after hostOps2_1 (W5 m ρ c)) (Proc.devRef .tc main_v16) = _
  generalize W5 m ρ c = V
  after_results <;> rfl
theorem agg_0 : W8 m ρ c (Proc.devRef .tc main_v19) = Host.scatterAdd scatter_S50000x128_S600000x1_S600000x128_1_0_0_1 (broadcastInDim S50000x128 ![] bcast_S_S50000x128 (constant S_ .f32 0x00000000#32))
    (broadcastInDim S600000x1 ![0] bcast_S600000_S600000x1_0 (W7 m ρ c (Proc.devRef .tc main_v3) : (⟨S600000, .i32⟩ : BufTy).Contents (Elt F))) (W7 m ρ c (Proc.devRef .tc main_v16)) := by
  show StableHlo.after hostOps2_3 (W7 m ρ c) (Proc.devRef .tc main_v19) = _
  generalize W7 m ρ c = V
  after_results <;> rfl
theorem in_2_0 : V8 m ρ c (Pipeline.arrRef spec2 0) = aggOf ((dat0 (V1 m ρ) c).arrAt 7 cfg0.N) ((dat1 (V3 m ρ) c).arrAt 7 cfg1.N) (srcRow m c) (dstRow m c) := by
  show W8 m ρ c (Proc.devRef .tc main_v19) = _
  rw [agg_0, msg_0, take_0, W7_dst, W5_ea, W4_h, W4_src]
theorem in_2_1 : V8 m ρ c (Pipeline.arrRef spec2 1) = (dat0 (V1 m ρ) c).arrAt 7 cfg0.N :=
  ((keep8 m ρ c (r := main_v8) (by decide)).trans <| (keep7 m ρ c (r := main_v8) (by decide)).trans <| (keep6 m ρ c (r := main_v8) (by decide)).trans <| (keep5 m ρ c (r := main_v8) (by decide))).trans (W4_h m ρ c)
theorem in_2_2 : V8 m ρ c (Pipeline.arrRef spec2 2) = shapeCast S128x128 (extractStridedSlice S1x128x128 ![0, 0, 0] (m ((c : Thread nD τ).loc main_arg15) : (⟨S3x128x128, .f32⟩ : BufTy).Contents (Elt F)) slices_S3x128x128_S1x128x128_0_0_0) shapeCasts_S1x128x128_S128x128 := by
  rw [← W7_arg m ρ c main_arg15 (by decide)]
  show StableHlo.after hostOps2_3 (W7 m ρ c) (Proc.devRef .tc main_v21) = _
  generalize W7 m ρ c = V
  after_results <;> rfl
theorem in_2_3 : V8 m ρ c (Pipeline.arrRef spec2 3) = shapeCast S1x128 (shapeCast S128 (extractStridedSlice S1x128 ![0, 0] (m ((c : Thread nD τ).loc main_arg16) : (⟨S3x128, .f32⟩ : BufTy).Contents (Elt F)) slices_S3x128_S1x128_0_0) shapeCasts_S1x128_S128) shapeCasts_S128_S1x128 := by
  rw [← W7_arg m ρ c main_arg16 (by decide)]
  show StableHlo.after hostOps2_3 (W7 m ρ c) (Proc.devRef .tc main_v32) = _
  generalize W7 m ρ c = V
  after_results <;> rfl
theorem in_2_4 : V8 m ρ c (Pipeline.arrRef spec2 4) = shapeCast S128x128 (extractStridedSlice S1x128x128 ![0, 0, 0] (m ((c : Thread nD τ).loc main_arg17) : (⟨S3x128x128, .f32⟩ : BufTy).Contents (Elt F)) slices_S3x128x128_S1x128x128_0_0_0) shapeCasts_S1x128x128_S128x128 := by
  rw [← W7_arg m ρ c main_arg17 (by decide)]
  show StableHlo.after hostOps2_3 (W7 m ρ c) (Proc.devRef .tc main_v25) = _
  generalize W7 m ρ c = V
  after_results <;> rfl
theorem in_2_5 : V8 m ρ c (Pipeline.arrRef spec2 5) = shapeCast S1x128 (shapeCast S128 (extractStridedSlice S1x128 ![0, 0] (m ((c : Thread nD τ).loc main_arg18) : (⟨S3x128, .f32⟩ : BufTy).Contents (Elt F)) slices_S3x128_S1x128_0_0) shapeCasts_S1x128_S128) shapeCasts_S128_S1x128 := by
  rw [← W7_arg m ρ c main_arg18 (by decide)]
  show StableHlo.after hostOps2_3 (W7 m ρ c) (Proc.devRef .tc main_v33) = _
  generalize W7 m ρ c = V
  after_results <;> rfl
theorem in_2_6 : V8 m ρ c (Pipeline.arrRef spec2 6) = shapeCast S1x128 (shapeCast S128 (extractStridedSlice S1x128 ![0, 0] (m ((c : Thread nD τ).loc main_arg19) : (⟨S3x128, .f32⟩ : BufTy).Contents (Elt F)) slices_S3x128_S1x128_0_0) shapeCasts_S1x128_S128) shapeCasts_S128_S1x128 := by
  rw [← W7_arg m ρ c main_arg19 (by decide)]
  show StableHlo.after hostOps2_3 (W7 m ρ c) (Proc.devRef .tc main_v34) = _
  generalize W7 m ρ c = V
  after_results <;> rfl
theorem in_2_7 : V8 m ρ c (Pipeline.arrRef spec2 7) = shapeCast S1x128 (shapeCast S128 (extractStridedSlice S1x128 ![0, 0] (m ((c : Thread nD τ).loc main_arg20) : (⟨S3x128, .f32⟩ : BufTy).Contents (Elt F)) slices_S3x128_S1x128_0_0) shapeCasts_S1x128_S128) shapeCasts_S128_S1x128 := by
  rw [← W7_arg m ρ c main_arg20 (by decide)]
  show StableHlo.after hostOps2_3 (W7 m ρ c) (Proc.devRef .tc main_v35) = _
  generalize W7 m ρ c = V
  after_results <;> rfl

end Cert.KernelIdeal.KFold

end
-- ==== Proof.KLayout.lean ====
import proofs.«410051_j26534307954693_2_alg».proof.Proof.Gen.KernelIdeal
import Idealize.ShloMosaic.Lib.Pipeline.Value
import Idealize.ShloMosaic.Lib.ValueIdx

namespace Cert.KernelIdeal.KLayout

open Cert.KernelIdeal Cert.KernelIdeal.Facts₀ Cert.KernelIdeal.Facts Idealize.ShloMosaic Idealize.ShloMosaic.ValueIdx

variable {α : Type}

theorem row128 (x : S128.Idx → α) (k : Fin 128) :
    shapeCast S1x128 x shapeCasts_S128_S1x128 (ix2 (0 : Fin 1) k) = x (ix1 k) :=
  shapeCast_apply x shapeCasts_S128_S1x128 (ix2 (0 : Fin 1) k) (ix1 k)
    (by rw [Shape.rowMajor_val_one, Shape.rowMajor_val_two]; show k.val = 0 * 128 + k.val; omega)

theorem row64 (x : S64.Idx → α) (k : Fin 64) :
    shapeCast S1x64 x shapeCasts_S64_S1x64 (ix2 (0 : Fin 1) k) = x (ix1 k) :=
  shapeCast_apply x shapeCasts_S64_S1x64 (ix2 (0 : Fin 1) k) (ix1 k)
    (by rw [Shape.rowMajor_val_one, Shape.rowMajor_val_two]; show k.val = 0 * 64 + k.val; omega)

theorem row3 (x : S3.Idx → α) (k : Fin 3) :
    shapeCast S1x3 x shapeCasts_S3_S1x3 (ix2 (0 : Fin 1) k) = x (ix1 k) :=
  shapeCast_apply x shapeCasts_S3_S1x3 (ix2 (0 : Fin 1) k) (ix1 k)
    (by rw [Shape.rowMajor_val_one, Shape.rowMajor_val_two]; show k.val = 0 * 3 + k.val; omega)

theorem row1 (x : S1.Idx → α) (k : Fin 1) :
    shapeCast S1x1 x shapeCasts_S1_S1x1 (ix2 (0 : Fin 1) k) = x (ix1 k) :=
  shapeCast_apply x shapeCasts_S1_S1x1 (ix2 (0 : Fin 1) k) (ix1 k)
    (by rw [Shape.rowMajor_val_one, Shape.rowMajor_val_two]; show k.val = 0 * 1 + k.val; omega)

theorem slab (l : Nat) (hl : l < 3) (x : S3x128x128.Idx → α) (hs : S3x128x128.Slices ![l, 0, 0] S1x128x128)
    (j k : Fin 128) :
    shapeCast S128x128 (extractStridedSlice S1x128x128 ![l, 0, 0] x hs) shapeCasts_S1x128x128_S128x128 (ix2 j k)
      = x (ix3 (⟨l, hl⟩ : Fin 3) j k) := by
  rw [shapeCast_apply (extractStridedSlice S1x128x128 ![l, 0, 0] x hs) shapeCasts_S1x128x128_S128x128 (ix2 j k)
    (ix3 (0 : Fin 1) j k)
    (by rw [Shape.rowMajor_val_three, Shape.rowMajor_val_two]
        show (0 * 128 + j.val) * 128 + k.val = j.val * 128 + k.val
        omega)]
  exact extractStridedSlice_apply ![l, 0, 0] x hs (ix3 (0 : Fin 1) j k) (ix3 (⟨l, hl⟩ : Fin 3) j k) (fun a => by
    match a with
    | ⟨0, _⟩ => show l = l + 0; omega
    | ⟨1, _⟩ => show j.val = 0 + j.val; omega
    | ⟨2, _⟩ => show k.val = 0 + k.val; omega)

theorem stackRow (l : Nat) (hl : l < 3) (x : S3x128.Idx → α) (hs : S3x128.Slices ![l, 0] S1x128) (k : Fin 128) :
    shapeCast S1x128 (shapeCast S128 (extractStridedSlice S1x128 ![l, 0] x hs) shapeCasts_S1x128_S128)
      shapeCasts_S128_S1x128 (ix2 (0 : Fin 1) k) = x (ix2 (⟨l, hl⟩ : Fin 3) k) := by
  rw [row128]
  rw [shapeCast_apply (extractStridedSlice S1x128 ![l, 0] x hs) shapeCasts_S1x128_S128 (ix1 k) (ix2 (0 : Fin 1) k)
    (by rw [Shape.rowMajor_val_two, Shape.rowMajor_val_one]; show 0 * 128 + k.val = k.val; omega)]
  exact extractStridedSlice_apply ![l, 0] x hs (ix2 (0 : Fin 1) k) (ix2 (⟨l, hl⟩ : Fin 3) k) (fun a => by
    match a with
    | ⟨0, _⟩ => show l = l + 0; omega
    | ⟨1, _⟩ => show k.val = 0 + k.val; omega)

end Cert.KernelIdeal.KLayout
-- ==== Proof.RRowEnc.lean ====
import proofs.«410051_j26534307954693_2_alg».proof.Proof.RefReadP
import proofs.«410051_j26534307954693_2_alg».proof.Proof.Spec
import Idealize.ShloMosaic.Lib.ValueIdx
import Idealize.ShloMosaic.PureOps.Ideal.Laws

noncomputable section

namespace Cert.ReferenceIdeal.RRow

open Cert.ReferenceIdeal Cert.ReferenceIdeal.ReadP Idealize.ShloMosaic Idealize.ShloMosaic.ValueIdx

section node

variable (x0 : (⟨S50000x5, .f32⟩ : BufTy).Contents (Elt Ideal)) (x3 : (⟨S5x128, .f32⟩ : BufTy).Contents (Elt Ideal))
  (x4 : (⟨S128, .f32⟩ : BufTy).Contents (Elt Ideal)) (x5 : (⟨S128x128, .f32⟩ : BufTy).Contents (Elt Ideal))
  (x6 x7 x8 : (⟨S128, .f32⟩ : BufTy).Contents (Elt Ideal))

private theorem node_lrow (r : Fin 50000) (q : Fin 128) (k : Fin 5) : lidx_main_v4 (ix2 r q) k = ix2 r k := funext fun a => by match a with | ⟨0, _⟩ => rfl | ⟨1, _⟩ => rfl
private theorem node_rcol (r : Fin 50000) (q : Fin 128) (k : Fin 5) : ridx_main_v4 (ix2 r q) k = ix2 k q := funext fun a => by match a with | ⟨0, _⟩ => rfl | ⟨1, _⟩ => rfl
private theorem node_lrow2 (r : Fin 50000) (q : Fin 128) (k : Fin 128) : lidx_main_v9 (ix2 r q) k = ix2 r k := funext fun a => by match a with | ⟨0, _⟩ => rfl | ⟨1, _⟩ => rfl
private theorem node_rcol2 (r : Fin 50000) (q : Fin 128) (k : Fin 128) : ridx_main_v9 (ix2 r q) k = ix2 k q := funext fun a => by match a with | ⟨0, _⟩ => rfl | ⟨1, _⟩ => rfl
private theorem node_b1 (r : Fin 50000) (q : Fin 128) : idx_main_v5 (idx_main_v6 (ix2 r q)) = ix1 q := funext fun a => by match a with | ⟨0, _⟩ => rfl
private theorem node_b2 (r : Fin 50000) (q : Fin 128) : idx_main_v10 (idx_main_v11 (ix2 r q)) = ix1 q := funext fun a => by match a with | ⟨0, _⟩ => rfl
private theorem node_g (r : Fin 50000) (q : Fin 128) : idx_main_v31 (idx_main_v32 (ix2 r q)) = ix1 q := funext fun a => by match a with | ⟨0, _⟩ => rfl
private theorem node_be (r : Fin 50000) (q : Fin 128) : idx_main_v34 (idx_main_v35 (ix2 r q)) = ix1 q := funext fun a => by match a with | ⟨0, _⟩ => rfl
private theorem node_s1 (r : Fin 50000) (k : Fin 128) : idx_main_v13 (ix1 r) k = ix2 r k := funext fun a => by match a with | ⟨0, _⟩ => rfl | ⟨1, _⟩ => rfl
private theorem node_s2 (r : Fin 50000) (k : Fin 128) : idx_main_v20 (ix1 r) k = ix2 r k := funext fun a => by match a with | ⟨0, _⟩ => rfl | ⟨1, _⟩ => rfl
private theorem node_c1 (r : Fin 50000) (o : Fin 1) : idx_main_v14 (ix2 r o) = ix1 r := funext fun a => by match a with | ⟨0, _⟩ => rfl
private theorem node_c2 (r : Fin 50000) (o : Fin 1) : idx_main_v21 (ix2 r o) = ix1 r := funext fun a => by match a with | ⟨0, _⟩ => rfl
private theorem node_m1 (r : Fin 50000) (q : Fin 128) : idx_main_v17 (ix2 r q) = ix2 r (⟨0, Nat.one_pos⟩ : Fin 1) := funext fun a => by match a with | ⟨0, _⟩ => rfl | ⟨1, _⟩ => rfl
private theorem node_m2 (r : Fin 50000) (q : Fin 128) : idx_main_v24 (ix2 r q) = ix2 r (⟨0, Nat.one_pos⟩ : Fin 1) := funext fun a => by match a with | ⟨0, _⟩ => rfl | ⟨1, _⟩ => rfl
private theorem node_m3 (r : Fin 50000) (q : Fin 128) : idx_main_v29 (ix2 r q) = ix2 r (⟨0, Nat.one_pos⟩ : Fin 1) := funext fun a => by match a with | ⟨0, _⟩ => rfl | ⟨1, _⟩ => rfl

private theorem node_lin1 (r : Fin 50000) (q : Fin 128) :
    val_main_v7 (F := Ideal) x0 x3 x4 (ix2 r q) = Cert.Spec.lin (fun j : Fin 5 => x0 (ix2 r j)) (fun (j : Fin 5) (k : Fin 128) => x3 (ix2 j k)) (fun k : Fin 128 => x4 (ix1 k)) q := by
  rw [val_main_v7_apply, val_main_v4_apply, val_main_v6_apply, val_main_v5_apply, node_b1]
  simp only [node_lrow, node_rcol, Ideal.addf_def]
  rfl

private theorem node_relu1 (r : Fin 50000) (q : Fin 128) :
    val_main_v8 (F := Ideal) x0 x3 x4 (ix2 r q) = Cert.Spec.relu (Cert.Spec.lin (fun j : Fin 5 => x0 (ix2 r j)) (fun (j : Fin 5) (k : Fin 128) => x3 (ix2 j k)) (fun k : Fin 128 => x4 (ix1 k))) q := by
  rw [val_main_v8_apply, node_lin1, val_main_call0_v0_apply, val_main_call0_cst_apply]
  rfl

private theorem node_mlp (r : Fin 50000) (q : Fin 128) :
    val_main_v12 (F := Ideal) x0 x3 x4 x5 x6 (ix2 r q) = Cert.Spec.mlp2 (fun j : Fin 5 => x0 (ix2 r j)) (fun (j : Fin 5) (k : Fin 128) => x3 (ix2 j k)) (fun k : Fin 128 => x4 (ix1 k)) (fun (j k : Fin 128) => x5 (ix2 j k)) (fun k : Fin 128 => x6 (ix1 k)) q := by
  rw [val_main_v12_apply, val_main_v9_apply, val_main_v11_apply, val_main_v10_apply, node_b2]
  simp only [node_lrow2, node_rcol2, node_relu1, Ideal.addf_def]
  rfl

private theorem node_mean (r : Fin 50000) (o : Fin 1) :
    val_main_v16 (F := Ideal) x0 x3 x4 x5 x6 (ix2 r o) = Cert.Spec.meanR (Cert.Spec.mlp2 (fun j : Fin 5 => x0 (ix2 r j)) (fun (j : Fin 5) (k : Fin 128) => x3 (ix2 j k)) (fun k : Fin 128 => x4 (ix1 k)) (fun (j k : Fin 128) => x5 (ix2 j k)) (fun k : Fin 128 => x6 (ix1 k))) := by
  rw [val_main_v16_apply, val_main_v14_apply, val_main_v15_apply, val_main_cst_0_apply, node_c1, val_main_v13_apply, val_main_cst_apply]
  simp only [node_s1, node_mlp, Ideal.hostDivf_def, Ideal.ofBits_def]
  rfl

private theorem node_dev (r : Fin 50000) (q : Fin 128) :
    val_main_v18 (F := Ideal) x0 x3 x4 x5 x6 (ix2 r q) = (Cert.Spec.mlp2 (fun j : Fin 5 => x0 (ix2 r j)) (fun (j : Fin 5) (k : Fin 128) => x3 (ix2 j k)) (fun k : Fin 128 => x4 (ix1 k)) (fun (j k : Fin 128) => x5 (ix2 j k)) (fun k : Fin 128 => x6 (ix1 k))) q - Cert.Spec.meanR (Cert.Spec.mlp2 (fun j : Fin 5 => x0 (ix2 r j)) (fun (j : Fin 5) (k : Fin 128) => x3 (ix2 j k)) (fun k : Fin 128 => x4 (ix1 k)) (fun (j k : Fin 128) => x5 (ix2 j k)) (fun k : Fin 128 => x6 (ix1 k))) := by
  rw [val_main_v18_apply, val_main_v17_apply, node_m1, node_mean, node_mlp]
  rfl

private theorem node_var (r : Fin 50000) (o : Fin 1) :
    val_main_v23 (F := Ideal) x0 x3 x4 x5 x6 (ix2 r o) = Cert.Spec.varR (Cert.Spec.mlp2 (fun j : Fin 5 => x0 (ix2 r j)) (fun (j : Fin 5) (k : Fin 128) => x3 (ix2 j k)) (fun k : Fin 128 => x4 (ix1 k)) (fun (j k : Fin 128) => x5 (ix2 j k)) (fun k : Fin 128 => x6 (ix1 k))) := by
  rw [val_main_v23_apply, val_main_v21_apply, val_main_v22_apply, val_main_cst_2_apply, node_c2, val_main_v20_apply, val_main_cst_1_apply]
  simp only [node_s2, val_main_v19_apply, node_dev, Ideal.hostDivf_def, Ideal.mulf_def, Ideal.ofBits_def]
  rfl

private theorem node_dev2 (r : Fin 50000) (q : Fin 128) :
    val_main_v25 (F := Ideal) x0 x3 x4 x5 x6 (ix2 r q) = (Cert.Spec.mlp2 (fun j : Fin 5 => x0 (ix2 r j)) (fun (j : Fin 5) (k : Fin 128) => x3 (ix2 j k)) (fun k : Fin 128 => x4 (ix1 k)) (fun (j k : Fin 128) => x5 (ix2 j k)) (fun k : Fin 128 => x6 (ix1 k))) q - Cert.Spec.meanR (Cert.Spec.mlp2 (fun j : Fin 5 => x0 (ix2 r j)) (fun (j : Fin 5) (k : Fin 128) => x3 (ix2 j k)) (fun k : Fin 128 => x4 (ix1 k)) (fun (j k : Fin 128) => x5 (ix2 j k)) (fun k : Fin 128 => x6 (ix1 k))) := by
  rw [val_main_v25_apply, val_main_v24_apply, node_m2, node_mean, node_mlp]
  rfl

private theorem node_root (r : Fin 50000) (q : Fin 128) :
    val_main_v29 (F := Ideal) x0 x3 x4 x5 x6 (ix2 r q) = Ideal.sqrt (Cert.Spec.varR (Cert.Spec.mlp2 (fun j : Fin 5 => x0 (ix2 r j)) (fun (j : Fin 5) (k : Fin 128) => x3 (ix2 j k)) (fun k : Fin 128 => x4 (ix1 k)) (fun (j k : Fin 128) => x5 (ix2 j k)) (fun k : Fin 128 => x6 (ix1 k))) + Cert.Spec.eps) := by
  rw [val_main_v29_apply, node_m3, val_main_v28_apply, val_main_v27_apply, node_var, val_main_v26_apply, val_main_cst_3_apply]
  rfl

theorem v36_apply (r : Fin 50000) (q : Fin 128) :
    val_main_v36 (F := Ideal) x0 x3 x4 x5 x6 x7 x8 (ix2 r q)
      = Cert.Spec.encR (fun k : Fin 5 => x0 (ix2 r k)) (fun (j : Fin 5) (k : Fin 128) => x3 (ix2 j k)) (fun k : Fin 128 => x4 (ix1 k)) (fun (j k : Fin 128) => x5 (ix2 j k)) (fun k => x6 (ix1 k)) (fun k => x7 (ix1 k)) (fun k => x8 (ix1 k)) q := by
  rw [val_main_v36_apply, val_main_v33_apply, val_main_v30_apply, node_dev2, node_root, val_main_v32_apply, val_main_v31_apply, node_g, val_main_v35_apply, val_main_v34_apply, node_be]
  rfl

end node

section edge

variable (x1 : (⟨S600000x6, .f32⟩ : BufTy).Contents (Elt Ideal)) (x9 : (⟨S6x128, .f32⟩ : BufTy).Contents (Elt Ideal))
  (x10 : (⟨S128, .f32⟩ : BufTy).Contents (Elt Ideal)) (x11 : (⟨S128x128, .f32⟩ : BufTy).Contents (Elt Ideal))
  (x12 x13 x14 : (⟨S128, .f32⟩ : BufTy).Contents (Elt Ideal))

private theorem edge_lrow (r : Fin 600000) (q : Fin 128) (k : Fin 6) : lidx_main_v37 (ix2 r q) k = ix2 r k := funext fun a => by match a with | ⟨0, _⟩ => rfl | ⟨1, _⟩ => rfl
private theorem edge_rcol (r : Fin 600000) (q : Fin 128) (k : Fin 6) : ridx_main_v37 (ix2 r q) k = ix2 k q := funext fun a => by match a with | ⟨0, _⟩ => rfl | ⟨1, _⟩ => rfl
private theorem edge_lrow2 (r : Fin 600000) (q : Fin 128) (k : Fin 128) : lidx_main_v42 (ix2 r q) k = ix2 r k := funext fun a => by match a with | ⟨0, _⟩ => rfl | ⟨1, _⟩ => rfl
private theorem edge_rcol2 (r : Fin 600000) (q : Fin 128) (k : Fin 128) : ridx_main_v42 (ix2 r q) k = ix2 k q := funext fun a => by match a with | ⟨0, _⟩ => rfl | ⟨1, _⟩ => rfl
private theorem edge_b1 (r : Fin 600000) (q : Fin 128) : idx_main_v38 (idx_main_v39 (ix2 r q)) = ix1 q := funext fun a => by match a with | ⟨0, _⟩ => rfl
private theorem edge_b2 (r : Fin 600000) (q : Fin 128) : idx_main_v43 (idx_main_v44 (ix2 r q)) = ix1 q := funext fun a => by match a with | ⟨0, _⟩ => rfl
private theorem edge_g (r : Fin 600000) (q : Fin 128) : idx_main_v64 (idx_main_v65 (ix2 r q)) = ix1 q := funext fun a => by match a with | ⟨0, _⟩ => rfl
private theorem edge_be (r : Fin 600000) (q : Fin 128) : idx_main_v67 (idx_main_v68 (ix2 r q)) = ix1 q := funext fun a => by match a with | ⟨0, _⟩ => rfl
private theorem edge_s1 (r : Fin 600000) (k : Fin 128) : idx_main_v46 (ix1 r) k = ix2 r k := funext fun a => by match a with | ⟨0, _⟩ => rfl | ⟨1, _⟩ => rfl
private theorem edge_s2 (r : Fin 600000) (k : Fin 128) : idx_main_v53 (ix1 r) k = ix2 r k := funext fun a => by match a with | ⟨0, _⟩ => rfl | ⟨1, _⟩ => rfl
private theorem edge_c1 (r : Fin 600000) (o : Fin 1) : idx_main_v47 (ix2 r o) = ix1 r := funext fun a => by match a with | ⟨0, _⟩ => rfl
private theorem edge_c2 (r : Fin 600000) (o : Fin 1) : idx_main_v54 (ix2 r o) = ix1 r := funext fun a => by match a with | ⟨0, _⟩ => rfl
private theorem edge_m1 (r : Fin 600000) (q : Fin 128) : idx_main_v50 (ix2 r q) = ix2 r (⟨0, Nat.one_pos⟩ : Fin 1) := funext fun a => by match a with | ⟨0, _⟩ => rfl | ⟨1, _⟩ => rfl
private theorem edge_m2 (r : Fin 600000) (q : Fin 128) : idx_main_v57 (ix2 r q) = ix2 r (⟨0, Nat.one_pos⟩ : Fin 1) := funext fun a => by match a with | ⟨0, _⟩ => rfl | ⟨1, _⟩ => rfl
private theorem edge_m3 (r : Fin 600000) (q : Fin 128) : idx_main_v62 (ix2 r q) = ix2 r (⟨0, Nat.one_pos⟩ : Fin 1) := funext fun a => by match a with | ⟨0, _⟩ => rfl | ⟨1, _⟩ => rfl

private theorem edge_lin1 (r : Fin 600000) (q : Fin 128) :
    val_main_v40 (F := Ideal) x1 x9 x10 (ix2 r q) = Cert.Spec.lin (fun j : Fin 6 => x1 (ix2 r j)) (fun (j : Fin 6) (k : Fin 128) => x9 (ix2 j k)) (fun k : Fin 128 => x10 (ix1 k)) q := by
  rw [val_main_v40_apply, val_main_v37_apply, val_main_v39_apply, val_main_v38_apply, edge_b1]
  simp only [edge_lrow, edge_rcol, Ideal.addf_def]
  rfl

private theorem edge_relu1 (r : Fin 600000) (q : Fin 128) :
    val_main_v41 (F := Ideal) x1 x9 x10 (ix2 r q) = Cert.Spec.relu (Cert.Spec.lin (fun j : Fin 6 => x1 (ix2 r j)) (fun (j : Fin 6) (k : Fin 128) => x9 (ix2 j k)) (fun k : Fin 128 => x10 (ix1 k))) q := by
  rw [val_main_v41_apply, edge_lin1, val_main_call1_v0_apply, val_main_call1_cst_apply]
  rfl

private theorem edge_mlp (r : Fin 600000) (q : Fin 128) :
    val_main_v45 (F := Ideal) x1 x9 x10 x11 x12 (ix2 r q) = Cert.Spec.mlp2 (fun j : Fin 6 => x1 (ix2 r j)) (fun (j : Fin 6) (k : Fin 128) => x9 (ix2 j k)) (fun k : Fin 128 => x10 (ix1 k)) (fun (j k : Fin 128) => x11 (ix2 j k)) (fun k : Fin 128 => x12 (ix1 k)) q := by
  rw [val_main_v45_apply, val_main_v42_apply, val_main_v44_apply, val_main_v43_apply, edge_b2]
  simp only [edge_lrow2, edge_rcol2, edge_relu1, Ideal.addf_def]
  rfl

private theorem edge_mean (r : Fin 600000) (o : Fin 1) :
    val_main_v49 (F := Ideal) x1 x9 x10 x11 x12 (ix2 r o) = Cert.Spec.meanR (Cert.Spec.mlp2 (fun j : Fin 6 => x1 (ix2 r j)) (fun (j : Fin 6) (k : Fin 128) => x9 (ix2 j k)) (fun k : Fin 128 => x10 (ix1 k)) (fun (j k : Fin 128) => x11 (ix2 j k)) (fun k : Fin 128 => x12 (ix1 k))) := by
  rw [val_main_v49_apply, val_main_v47_apply, val_main_v48_apply, val_main_cst_5_apply, edge_c1, val_main_v46_apply, val_main_cst_4_apply]
  simp only [edge_s1, edge_mlp, Ideal.hostDivf_def, Ideal.ofBits_def]
  rfl

private theorem edge_dev (r : Fin 600000) (q : Fin 128) :
    val_main_v51 (F := Ideal) x1 x9 x10 x11 x12 (ix2 r q) = (Cert.Spec.mlp2 (fun j : Fin 6 => x1 (ix2 r j)) (fun (j : Fin 6) (k : Fin 128) => x9 (ix2 j k)) (fun k : Fin 128 => x10 (ix1 k)) (fun (j k : Fin 128) => x11 (ix2 j k)) (fun k : Fin 128 => x12 (ix1 k))) q - Cert.Spec.meanR (Cert.Spec.mlp2 (fun j : Fin 6 => x1 (ix2 r j)) (fun (j : Fin 6) (k : Fin 128) => x9 (ix2 j k)) (fun k : Fin 128 => x10 (ix1 k)) (fun (j k : Fin 128) => x11 (ix2 j k)) (fun k : Fin 128 => x12 (ix1 k))) := by
  rw [val_main_v51_apply, val_main_v50_apply, edge_m1, edge_mean, edge_mlp]
  rfl

private theorem edge_var (r : Fin 600000) (o : Fin 1) :
    val_main_v56 (F := Ideal) x1 x9 x10 x11 x12 (ix2 r o) = Cert.Spec.varR (Cert.Spec.mlp2 (fun j : Fin 6 => x1 (ix2 r j)) (fun (j : Fin 6) (k : Fin 128) => x9 (ix2 j k)) (fun k : Fin 128 => x10 (ix1 k)) (fun (j k : Fin 128) => x11 (ix2 j k)) (fun k : Fin 128 => x12 (ix1 k))) := by
  rw [val_main_v56_apply, val_main_v54_apply, val_main_v55_apply, val_main_cst_7_apply, edge_c2, val_main_v53_apply, val_main_cst_6_apply]
  simp only [edge_s2, val_main_v52_apply, edge_dev, Ideal.hostDivf_def, Ideal.mulf_def, Ideal.ofBits_def]
  rfl

private theorem edge_dev2 (r : Fin 600000) (q : Fin 128) :
    val_main_v58 (F := Ideal) x1 x9 x10 x11 x12 (ix2 r q) = (Cert.Spec.mlp2 (fun j : Fin 6 => x1 (ix2 r j)) (fun (j : Fin 6) (k : Fin 128) => x9 (ix2 j k)) (fun k : Fin 128 => x10 (ix1 k)) (fun (j k : Fin 128) => x11 (ix2 j k)) (fun k : Fin 128 => x12 (ix1 k))) q - Cert.Spec.meanR (Cert.Spec.mlp2 (fun j : Fin 6 => x1 (ix2 r j)) (fun (j : Fin 6) (k : Fin 128) => x9 (ix2 j k)) (fun k : Fin 128 => x10 (ix1 k)) (fun (j k : Fin 128) => x11 (ix2 j k)) (fun k : Fin 128 => x12 (ix1 k))) := by
  rw [val_main_v58_apply, val_main_v57_apply, edge_m2, edge_mean, edge_mlp]
  rfl

private theorem edge_root (r : Fin 600000) (q : Fin 128) :
    val_main_v62 (F := Ideal) x1 x9 x10 x11 x12 (ix2 r q) = Ideal.sqrt (Cert.Spec.varR (Cert.Spec.mlp2 (fun j : Fin 6 => x1 (ix2 r j)) (fun (j : Fin 6) (k : Fin 128) => x9 (ix2 j k)) (fun k : Fin 128 => x10 (ix1 k)) (fun (j k : Fin 128) => x11 (ix2 j k)) (fun k : Fin 128 => x12 (ix1 k))) + Cert.Spec.eps) := by
  rw [val_main_v62_apply, edge_m3, val_main_v61_apply, val_main_v60_apply, edge_var, val_main_v59_apply, val_main_cst_8_apply]
  rfl

theorem v69_apply (r : Fin 600000) (q : Fin 128) :
    val_main_v69 (F := Ideal) x1 x9 x10 x11 x12 x13 x14 (ix2 r q)
      = Cert.Spec.encR (fun k : Fin 6 => x1 (ix2 r k)) (fun (j : Fin 6) (k : Fin 128) => x9 (ix2 j k)) (fun k : Fin 128 => x10 (ix1 k)) (fun (j k : Fin 128) => x11 (ix2 j k)) (fun k => x12 (ix1 k)) (fun k => x13 (ix1 k)) (fun k => x14 (ix1 k)) q := by
  rw [val_main_v69_apply, val_main_v66_apply, val_main_v63_apply, edge_dev2, edge_root, val_main_v65_apply, val_main_v64_apply, edge_g, val_main_v68_apply, val_main_v67_apply, edge_be]
  rfl

end edge

end Cert.ReferenceIdeal.RRow

end
-- ==== Proof.LnLaw.lean ====
import proofs.«410051_j26534307954693_2_alg».proof.Proof.Spec
import Mathlib.Data.EReal.Basic
import Mathlib.Data.EReal.Operations
import Mathlib.Data.EReal.Inv
import Mathlib.Analysis.Real.Sqrt
import Mathlib.Algebra.Order.BigOperators.Group.Finset

noncomputable section

namespace Cert.Spec

open Idealize.ShloMosaic

theorem z0_eq : z0 = 0 := by simp [z0, Ideal.ofBits, Ideal.ieee]

theorem c128_eq : c128 = ((128 : ℝ) : EReal) := by
  simp [c128, Ideal.ofBits, Ideal.ieee, -EReal.coe_mul]; norm_num

theorem eps_val : eps = ((((2 ^ 23 + 2606508 : ℕ) : ℝ) * (2 : ℝ) ^ ((110 : ℤ) - 127 - 23) : ℝ) : EReal) := by
  simp [eps, Ideal.ofBits, Ideal.ieee, -EReal.coe_mul]

theorem eps_pos : ∃ r : ℝ, 0 < r ∧ eps = (r : EReal) :=
  ⟨_, by positivity, eps_val⟩

theorem mul_self_nonneg' (x : EReal) : 0 ≤ x * x := by
  induction x using EReal.rec with
  | bot => simp
  | top => simp
  | coe r =>
    rw [← EReal.coe_mul]
    exact_mod_cast mul_self_nonneg r

theorem div_sqrt_eq_mul_rsqrt (d y : EReal) (hy : 0 < y) : Ideal.div d (Ideal.sqrt y) = d * Ideal.rsqrt y := by
  induction y using EReal.rec with
  | bot => exact absurd hy (by simp)
  | top =>
    rw [Ideal.sqrt_top, Ideal.rsqrt_top, Ideal.div, if_neg (by simp), EReal.inv_top]
  | coe r =>
    have hr : 0 < r := by exact_mod_cast hy
    have hs : 0 < Real.sqrt r := Real.sqrt_pos.mpr hr
    rw [Ideal.sqrt_coe, Ideal.rsqrt_coe, if_neg (not_lt.mpr hr.le), if_neg (not_lt.mpr hr.le), if_neg hr.ne',
      Ideal.div_coe hs.ne', one_div]

theorem meanK_eq_meanR (h : Fin 128 → EReal) : meanK h = meanR h := by
  unfold meanK meanR
  rw [z0_eq, zero_add]

theorem varK_eq_varR (h : Fin 128 → EReal) : varK h = varR h := by
  unfold varK varR
  rw [meanK_eq_meanR, z0_eq, zero_add]

theorem varR_add_eps_pos (h : Fin 128 → EReal) : 0 < varR h + eps := by
  obtain ⟨e, he, hE⟩ := eps_pos
  have hsum : 0 ≤ ∑ k : Fin 128, (h k - meanR h) * (h k - meanR h) :=
    Finset.sum_nonneg (fun k _ => mul_self_nonneg' _)
  have hv : 0 ≤ varR h := by
    unfold varR
    rw [z0_eq, zero_add, c128_eq, Ideal.div_coe (by norm_num)]
    exact mul_nonneg hsum (by exact_mod_cast (by norm_num : (0 : ℝ) ≤ 1 / 128))
  rw [hE]
  calc (0 : EReal) < (e : EReal) := by exact_mod_cast he
    _ = 0 + (e : EReal) := (zero_add _).symm
    _ ≤ varR h + (e : EReal) := add_le_add hv le_rfl

theorem lnK_eq_lnR (h g b : Fin 128 → EReal) : lnK h g b = lnR h g b := by
  funext q
  simp only [lnK, lnR]
  rw [meanK_eq_meanR, varK_eq_varR, div_sqrt_eq_mul_rsqrt _ _ (varR_add_eps_pos h)]

theorem encK_eq_encR {d : ℕ} (x : Fin d → EReal) (w1 : Fin d → Fin 128 → EReal) (b1 : Fin 128 → EReal)
    (w2 : Fin 128 → Fin 128 → EReal) (b2 g be : Fin 128 → EReal) :
    encK x w1 b1 w2 b2 g be = encR x w1 b1 w2 b2 g be := lnK_eq_lnR _ _ _

theorem convK_eq_convR (a h : Fin 128 → EReal) (w1 : Fin 128 → Fin 128 → EReal) (b1 : Fin 128 → EReal)
    (w2 : Fin 128 → Fin 128 → EReal) (b2 g be : Fin 128 → EReal) :
    convK a h w1 b1 w2 b2 g be = convR a h w1 b1 w2 b2 g be := lnK_eq_lnR _ _ _

end Cert.Spec

end
-- ==== Proof.KVal1.lean ====
import proofs.«410051_j26534307954693_2_alg».proof.Proof.KReg0
import proofs.«410051_j26534307954693_2_alg».proof.Proof.KReg1
import proofs.«410051_j26534307954693_2_alg».proof.Proof.KFold
import proofs.«410051_j26534307954693_2_alg».proof.Proof.KLayout
import proofs.«410051_j26534307954693_2_alg».proof.Proof.RRowEnc
import proofs.«410051_j26534307954693_2_alg».proof.Proof.LnLaw
import proofs.«410051_j26534307954693_2_alg».proof.Proof.Bridge

noncomputable section

namespace Cert.KernelIdeal.KVal

open Cert.KernelIdeal Cert.KernelIdeal.Gen Idealize.ShloMosaic Idealize.ShloMosaic.TcCoe Idealize.ShloMosaic.ValueIdx
open Idealize.SL.Sem

variable (m : Cert.Bridge.KMem) (ρ : Dev nD → PrngReg) (c : Dev nD)

theorem h0K : (dat0 (F := Ideal) (V1 m ρ) c).arrAt 7 cfg0.N = Cert.Bridge.h0 m c := by
  refine funext fun (i : S50000x128.Idx) => ?_
  obtain ⟨r, q, rfl⟩ : ∃ (r : Fin 50000) (q : Fin 128), i = ix2 r q := ⟨i 0, i 1, eq_ix2 i⟩
  rw [KReg0.final_apply (V1 m ρ) c r q]
  unfold Cert.Bridge.h0
  rw [Cert.ReferenceIdeal.RRow.v36_apply, ← Cert.Spec.encK_eq_encR]
  rw [KFold.in_0_0 m ρ c, KFold.in_0_1 m ρ c, KFold.in_0_2 m ρ c, KFold.in_0_3 m ρ c, KFold.in_0_4 m ρ c, KFold.in_0_5 m ρ c, KFold.in_0_6 m ρ c]
  simp only [KLayout.row128] <;> rfl

theorem eaK : (dat1 (F := Ideal) (V3 m ρ) c).arrAt 7 cfg1.N = Cert.Bridge.ea m c := by
  refine funext fun (i : S600000x128.Idx) => ?_
  obtain ⟨r, q, rfl⟩ : ∃ (r : Fin 600000) (q : Fin 128), i = ix2 r q := ⟨i 0, i 1, eq_ix2 i⟩
  rw [KReg1.final_apply (V3 m ρ) c r q]
  unfold Cert.Bridge.ea
  rw [Cert.ReferenceIdeal.RRow.v69_apply, ← Cert.Spec.encK_eq_encR]
  rw [KFold.in_1_0 m ρ c, KFold.in_1_1 m ρ c, KFold.in_1_2 m ρ c, KFold.in_1_3 m ρ c, KFold.in_1_4 m ρ c, KFold.in_1_5 m ρ c, KFold.in_1_6 m ρ c]
  simp only [KLayout.row128] <;> rfl

end Cert.KernelIdeal.KVal

end
-- ==== Proof.KReg2.lean ====
import proofs.«410051_j26534307954693_2_alg».proof.Proof.Gen.KernelIdeal.Frame
import proofs.«410051_j26534307954693_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.KReg2

open Cert.KernelIdeal Cert.KernelIdeal.Gen Idealize.ShloMosaic Idealize.ShloMosaic.ValueIdx Idealize.ShloMosaic.TcCoe

theorem lhs_ax0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_ax1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_ax0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_ax1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem mm_apply (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

theorem lanesum_apply (src : FVec Ideal S5000x128 .f32) (p : Fin 5000) (u : Fin 1) :
    shapeCast S5000x1 (multiReduction (F := Ideal) .add [1] S5000 src 0x00000000#32 reduces_S5000x128_S5000 (.inl rfl) rfl) shapeCasts_S5000_S5000x1 (ix2 p u)
      = ∑ k : Fin 128, src (ix2 p k) := by
  refine (shapeCast_apply _ shapeCasts_S5000_S5000x1 (ix2 p u) (ix1 p) (by
    have hu : u.val = 0 := by omega
    rw [Shape.rowMajor_val_two, Shape.rowMajor_val_one]
    show p.val = p.val * 1 + u.val
    omega)).trans ?_
  refine (Ideal.multiReduction_add_single src 0x00000000#32 reduces_S5000x128_S5000 (.inl rfl) rfl (ix1 p)).trans ?_
  show ∑ k : Fin 128, src (reduces_S5000x128_S5000.lift (ix1 p) k) = _
  refine Finset.sum_congr rfl fun k _ => congrArg src (funext fun a => Fin.ext ?_)
  match a with
  | ⟨0, _⟩ => rfl
  | ⟨1, _⟩ => rfl

theorem colbcast_apply (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => rfl
  | ⟨1, _⟩ => rfl

theorem rowbcast_apply (v : FVec Ideal S1x128 .f32) (p : Fin 5000) (q : Fin 128) :
    broadcastTo S5000x128 v broadcasts_S1x128_S5000x128 (ix2 p q) = v (ix2 (0 : Fin 1) q) :=
  broadcastTo_1b_ab_apply v broadcasts_S1x128_S5000x128 p q

theorem pay2_apply (x0 x1 : Vec Ideal S5000x128 .f32) (x2 : Vec Ideal S128x128 .f32) (x3 : Vec Ideal S1x128 .f32)
    (x4 : Vec Ideal S128x128 .f32) (x5 : Vec Ideal S1x128 .f32) (s : Vec Ideal S5000x128 .f32) (p : Fin 5000) (q : Fin 128) :
    k2_pay2 (F := Ideal) x0 x1 x2 x3 x4 x5 s (ix2 p q)
      = s (ix2 p q) + max ((∑ k : Fin 128, max ((∑ j : Fin 128, (x0 (ix2 p j) + x1 (ix2 p j)) * x2 (ix2 j k)) + x3 (ix2 (0 : Fin 1) k)) (Ideal.ofBits .f32 0x00000000#32) * x4 (ix2 k q)) + x5 (ix2 (0 : Fin 1) q)) (Ideal.ofBits .f32 0x00000000#32) := by
  unfold k2_pay2
  simp only [shapeCast_self, addf_apply, maximumf_apply, broadcast_apply, mm_apply, rowbcast_apply]
  rfl

theorem pay3_apply (x0 x1 : Vec Ideal S5000x128 .f32) (x2 : Vec Ideal S128x128 .f32) (x3 : Vec Ideal S1x128 .f32)
    (x4 : Vec Ideal S128x128 .f32) (x5 : Vec Ideal S1x128 .f32) (s : Vec Ideal S5000x128 .f32) (p : Fin 5000) (u : Fin 1) :
    k2_pay3 (F := Ideal) x0 x1 x2 x3 x4 x5 s (ix2 p u)
      = Ideal.div (∑ k : Fin 128, k2_pay2 (F := Ideal) x0 x1 x2 x3 x4 x5 s (ix2 p k)) (Ideal.ofBits .f32 0x43000000#32) := by
  unfold k2_pay3
  exact congrArg (fun z => Ideal.div z (Ideal.ofBits .f32 0x43000000#32)) (lanesum_apply (k2_pay2 (F := Ideal) x0 x1 x2 x3 x4 x5 s) p u)

theorem pay4_apply (x0 x1 : Vec Ideal S5000x128 .f32) (x2 : Vec Ideal S128x128 .f32) (x3 : Vec Ideal S1x128 .f32)
    (x4 : Vec Ideal S128x128 .f32) (x5 : Vec Ideal S1x128 .f32) (s : Vec Ideal S5000x128 .f32) (p : Fin 5000) (u : Fin 1) :
    k2_pay4 (F := Ideal) x0 x1 x2 x3 x4 x5 s (ix2 p u)
      = Ideal.div (∑ k : Fin 128, (k2_pay2 (F := Ideal) x0 x1 x2 x3 x4 x5 s (ix2 p k) - k2_pay3 (F := Ideal) x0 x1 x2 x3 x4 x5 s (ix2 p (0 : Fin 1)))
          * (k2_pay2 (F := Ideal) x0 x1 x2 x3 x4 x5 s (ix2 p k) - k2_pay3 (F := Ideal) x0 x1 x2 x3 x4 x5 s (ix2 p (0 : Fin 1)))) (Ideal.ofBits .f32 0x43000000#32) := by
  unfold k2_pay4
  refine (congrArg (fun z => Ideal.div z (Ideal.ofBits .f32 0x43000000#32)) (lanesum_apply
    (mulf (subf (k2_pay2 (F := Ideal) x0 x1 x2 x3 x4 x5 s) (broadcastTo S5000x128 (k2_pay3 (F := Ideal) x0 x1 x2 x3 x4 x5 s) broadcasts_S5000x1_S5000x128))
      (subf (k2_pay2 (F := Ideal) x0 x1 x2 x3 x4 x5 s) (broadcastTo S5000x128 (k2_pay3 (F := Ideal) x0 x1 x2 x3 x4 x5 s) broadcasts_S5000x1_S5000x128))) p u)).trans ?_
  simp only [mulf_apply, subf_apply, colbcast_apply]

theorem pay1_apply (v25 : FVec Ideal S5000x128 .f32) (v29 v36 : FVec Ideal S5000x1 .f32) (v44 v48 : Vec Ideal S1x128 .f32)
    (p : Fin 5000) (q : Fin 128) :
    k2_pay1 (F := Ideal) v25 v29 v36 v44 v48 (ix2 p q)
      = (v25 (ix2 p q) - v29 (ix2 p (0 : Fin 1))) * Ideal.rsqrt (v36 (ix2 p (0 : Fin 1)) + Ideal.ofBits .f32 0x3727C5AC#32)
          * v44 (ix2 (0 : Fin 1) q) + v48 (ix2 (0 : Fin 1) q) := by
  unfold k2_pay1
  simp only [shapeCast_self, addf_apply, mulf_apply, subf_apply, colbcast_apply, rowbcast_apply]
  rfl

theorem hz : (![0, 0] : Fin 2 → Nat) = fun _ => 0 := funext fun a => by fin_cases a <;> rfl

theorem out_apply (x0 x1 : Vec Ideal S5000x128 .f32) (x2 : Vec Ideal S128x128 .f32) (x3 : Vec Ideal S1x128 .f32) (x4 : Vec Ideal S128x128 .f32) (x5 x6 x7 : Vec Ideal S1x128 .f32) (p : Fin 5000) (q : Fin 128) :
    out2_8 (F := Ideal) x0 x1 x2 x3 x4 x5 x6 x7 (ix2 p q)
      = Cert.Spec.convK (fun k : Fin 128 => x0 (ix2 p k)) (fun k : Fin 128 => x1 (ix2 p k)) (fun (j k : Fin 128) => x2 (ix2 j k)) (fun k : Fin 128 => x3 (ix2 (0 : Fin 1) k))
          (fun (j k : Fin 128) => x4 (ix2 j k)) (fun k => x5 (ix2 (0 : Fin 1) k)) (fun k => x6 (ix2 (0 : Fin 1) k)) (fun k => x7 (ix2 (0 : Fin 1) k)) q := by
  unfold out2_8
  rw [View.canon_unit_zero hz]
  simp only [View.ld_unit_zero (S := S5000x128) hz, View.ld_unit_zero (S := S128x128) hz, View.ld_unit_zero (S := S1x128) hz]
  rw [pay1_apply, pay4_apply, pay3_apply]
  have hpre : (fun k : Fin 128 => k2_pay2 (F := Ideal) x0 x1 x2 x3 x4 x5 x1 (ix2 p k))
      = Cert.Spec.convPre (fun k : Fin 128 => x0 (ix2 p k)) (fun k : Fin 128 => x1 (ix2 p k)) (fun (j k : Fin 128) => x2 (ix2 j k)) (fun k : Fin 128 => x3 (ix2 (0 : Fin 1) k))
          (fun (j k : Fin 128) => x4 (ix2 j k)) (fun k => x5 (ix2 (0 : Fin 1) k)) :=
    funext fun k => (pay2_apply x0 x1 x2 x3 x4 x5 x1 p k).trans rfl
  unfold Cert.Spec.convK
  rw [← hpre]
  rfl

section Array

variable (V : (c : Dev nD) → (b : Ref sig .tc) → Buf (Elt Ideal) ((c : Thread nD τ).loc b))

def rows (c : Dev nD) : S50000x128.Idx → EReal := fun i =>
  Cert.Spec.convK (fun k : Fin 128 => V c (Pipeline.arrRef spec2 0) (ix2 (i 0) k)) (fun k : Fin 128 => V c (Pipeline.arrRef spec2 1) (ix2 (i 0) k)) (fun (j k : Fin 128) => V c (Pipeline.arrRef spec2 2) (ix2 j k)) (fun k : Fin 128 => V c (Pipeline.arrRef spec2 3) (ix2 (0 : Fin 1) k))
    (fun (j k : Fin 128) => V c (Pipeline.arrRef spec2 4) (ix2 j k)) (fun k => V c (Pipeline.arrRef spec2 5) (ix2 (0 : Fin 1) k)) (fun k => V c (Pipeline.arrRef spec2 6) (ix2 (0 : Fin 1) k)) (fun k => V c (Pipeline.arrRef spec2 7) (ix2 (0 : Fin 1) k)) (i 1)

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 ∧ t.val < 10 :=
  (by decide +kernel : ∀ t : Fin grid2.N, _)

theorem idx_onto : ∀ b : Fin 10, ∃ t : Fin cfg2.N, t.val = b.val :=
  (by decide +kernel : ∀ b : Fin 10, ∃ t : Fin grid2.N, t.val = b.val)

theorem out_row (x0 x1 : Vec Ideal S5000x128 .f32) (x2 : Vec Ideal S128x128 .f32) (x3 : Vec Ideal S1x128 .f32) (x4 : Vec Ideal S128x128 .f32) (x5 x6 x7 : Vec Ideal S1x128 .f32) (y : S5000x128.Idx) :
    out2_8 (F := Ideal) x0 x1 x2 x3 x4 x5 x6 x7 y
      = Cert.Spec.convK (fun k : Fin 128 => x0 (ix2 (y 0) k)) (fun k : Fin 128 => x1 (ix2 (y 0) k)) (fun (j k : Fin 128) => x2 (ix2 j k)) (fun k : Fin 128 => x3 (ix2 (0 : Fin 1) k))
          (fun (j k : Fin 128) => x4 (ix2 j k)) (fun k => x5 (ix2 (0 : Fin 1) k)) (fun k => x6 (ix2 (0 : Fin 1) k)) (fun k => x7 (ix2 (0 : Fin 1) k)) (y 1) := by
  obtain ⟨p, q, rfl⟩ : ∃ (p : Fin 5000) (q : Fin 128), y = ix2 p q := ⟨y 0, y 1, eq_ix2 y⟩
  exact out_apply x0 x1 x2 x3 x4 x5 x6 x7 p q

theorem convK_congr {a a' h h' b1 b1' b2 b2' g g' be be' : Fin 128 → EReal} {w1 w1' w2 w2' : Fin 128 → Fin 128 → EReal} {q q' : Fin 128}
    (ha : a = a') (hh : h = h') (hw1 : w1 = w1') (hb1 : b1 = b1') (hw2 : w2 = w2') (hb2 : b2 = b2') (hg : g = g') (hbe : be = be') (hq : q = q') :
    Cert.Spec.convK a h w1 b1 w2 b2 g be q = Cert.Spec.convK a' h' w1' b1' w2' b2' g' be' q' := by
  subst ha hh hw1 hb1 hw2 hb2 hg hbe hq; rfl

set_option maxHeartbeats 1000000 in
theorem flushed_eq (c : Dev nD) (t : Fin cfg2.N) :
    (dat2 (F := Ideal) V c).flushed 8 t = ((cfg2.win 8).blk t).view.read (Elt Ideal) (rows V c) := by
  show (cfg2.win 8).cut (grid2.coords t) ((dat2 V c).after 8 t) = _
  rw [after2_8]
  obtain ⟨a00, a01, a10, a11, a20, a21, a30, a31, a40, a41, a50, a51, a60, a61, a70, a71, a80, a81, ht⟩ := idx_facts t
  funext y
  show out2_8 (F := Ideal) (iblk2 V c 0 t) (iblk2 V c 1 t) (iblk2 V c 2 t) (iblk2 V c 3 t) (iblk2 V c 4 t) (iblk2 V c 5 t) (iblk2 V c 6 t) (iblk2 V c 7 t) y
    = rows V c (((cfg2.win 8).blk t).view.emb y)
  refine (out_row _ _ _ _ _ _ _ _ y).trans ?_
  unfold rows
  have hy0 : (y 0).val < 5000 := (y 0).isLt
  have hy1 : (y 1).val < 128 := (y 1).isLt
  refine convK_congr (funext fun k => ?_) (funext fun k => ?_) (funext fun j => funext fun k => ?_) (funext fun k => ?_)
    (funext fun j => funext fun k => ?_) (funext fun k => ?_) (funext fun k => ?_) (funext fun k => ?_) ?_
  · show V c (Pipeline.arrRef spec2 0) (((cfg2.win 0).blk t).view.emb _) = _
    refine congrArg (V c (Pipeline.arrRef spec2 0)) (funext fun a => Fin.ext ?_)
    match a with
    | ⟨0, _⟩ => show win2_0.index t (0 : Fin 2) * 5000 + 1 * (y 0).val = win2_8.index t (0 : Fin 2) * 5000 + 1 * (y 0).val; omega
    | ⟨1, _⟩ => show win2_0.index t (1 : Fin 2) * 128 + 1 * k.val = k.val; omega
  · show V c (Pipeline.arrRef spec2 1) (((cfg2.win 1).blk t).view.emb _) = _
    refine congrArg (V c (Pipeline.arrRef spec2 1)) (funext fun a => Fin.ext ?_)
    match a with
    | ⟨0, _⟩ => show win2_1.index t (0 : Fin 2) * 5000 + 1 * (y 0).val = win2_8.index t (0 : Fin 2) * 5000 + 1 * (y 0).val; omega
    | ⟨1, _⟩ => show win2_1.index t (1 : Fin 2) * 128 + 1 * k.val = k.val; omega
  · show V c (Pipeline.arrRef spec2 2) (((cfg2.win 2).blk t).view.emb _) = _
    refine congrArg (V c (Pipeline.arrRef spec2 2)) (funext fun a => Fin.ext ?_)
    match a with
    | ⟨0, _⟩ => show win2_2.index t (0 : Fin 2) * 128 + 1 * j.val = j.val; omega
    | ⟨1, _⟩ => show win2_2.index t (1 : Fin 2) * 128 + 1 * k.val = k.val; omega
  · show V c (Pipeline.arrRef spec2 3) (((cfg2.win 3).blk t).view.emb _) = _
    refine congrArg (V c (Pipeline.arrRef spec2 3)) (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  · show V c (Pipeline.arrRef spec2 4) (((cfg2.win 4).blk t).view.emb _) = _
    refine congrArg (V c (Pipeline.arrRef spec2 4)) (funext fun a => Fin.ext ?_)
    match a with
    | ⟨0, _⟩ => show win2_4.index t (0 : Fin 2) * 128 + 1 * j.val = j.val; omega
    | ⟨1, _⟩ => show win2_4.index t (1 : Fin 2) * 128 + 1 * k.val = k.val; omega
  · show V c (Pipeline.arrRef spec2 5) (((cfg2.win 5).blk t).view.emb _) = _
    refine congrArg (V c (Pipeline.arrRef spec2 5)) (funext fun a => Fin.ext ?_)
    match a with
    | ⟨0, _⟩ => show win2_5.index t (0 : Fin 2) * 1 + 1 * 0 = 0; omega
    | ⟨1, _⟩ => show win2_5.index t (1 : Fin 2) * 128 + 1 * k.val = k.val; omega
  · show V c (Pipeline.arrRef spec2 6) (((cfg2.win 6).blk t).view.emb _) = _
    refine congrArg (V c (Pipeline.arrRef spec2 6)) (funext fun a => Fin.ext ?_)
    match a with
    | ⟨0, _⟩ => show win2_6.index t (0 : Fin 2) * 1 + 1 * 0 = 0; omega
    | ⟨1, _⟩ => show win2_6.index t (1 : Fin 2) * 128 + 1 * k.val = k.val; omega
  · show V c (Pipeline.arrRef spec2 7) (((cfg2.win 7).blk t).view.emb _) = _
    refine congrArg (V c (Pipeline.arrRef spec2 7)) (funext fun a => Fin.ext ?_)
    match a with
    | ⟨0, _⟩ => show win2_7.index t (0 : Fin 2) * 1 + 1 * 0 = 0; omega
    | ⟨1, _⟩ => show win2_7.index t (1 : Fin 2) * 128 + 1 * k.val = k.val; omega
  · exact Fin.ext (by show (y 1).val = win2_8.index t (1 : Fin 2) * 128 + 1 * (y 1).val; omega)

theorem mem_blk (t : Fin cfg2.N) (i : S50000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v36).slice (win2_8.rect t)).set ↔ _
  rw [View.set_slice_whole, Rect.mem_set_unit]
  exact Iff.rfl

theorem cover (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, -, -, -, -, -, -, a80, a81, -⟩ := idx_facts t
  refine ⟨t, flush2_8 t, ?_⟩
  rw [mem_blk]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 128 ≤ (i 1).val ∧ (i 1).val < win2_8.index t (1 : Fin 2) * 128 + 128; omega

theorem final_eq (c : Dev nD) : (dat2 (F := Ideal) V c).arrAt 8 cfg2.N = rows V c :=
  (dat2 (F := Ideal) V c).arrAt_eq_of_cover 8 (rows V c) (fun t _ => flushed_eq V c t) cover

theorem final_apply (c : Dev nD) (r : Fin 50000) (q : Fin 128) :
    (dat2 (F := Ideal) V c).arrAt 8 cfg2.N (ix2 r q)
      = Cert.Spec.convK (fun k : Fin 128 => V c (Pipeline.arrRef spec2 0) (ix2 r k)) (fun k : Fin 128 => V c (Pipeline.arrRef spec2 1) (ix2 r k)) (fun (j k : Fin 128) => V c (Pipeline.arrRef spec2 2) (ix2 j k)) (fun k : Fin 128 => V c (Pipeline.arrRef spec2 3) (ix2 (0 : Fin 1) k))
          (fun (j k : Fin 128) => V c (Pipeline.arrRef spec2 4) (ix2 j k)) (fun k => V c (Pipeline.arrRef spec2 5) (ix2 (0 : Fin 1) k)) (fun k => V c (Pipeline.arrRef spec2 6) (ix2 (0 : Fin 1) k)) (fun k => V c (Pipeline.arrRef spec2 7) (ix2 (0 : Fin 1) k)) q :=
  (congrFun (final_eq V c) (ix2 r q)).trans rfl

end Array

end Cert.KernelIdeal.KReg2

end
-- ==== Proof.KReg3.lean ====
import proofs.«410051_j26534307954693_2_alg».proof.Proof.Gen.KernelIdeal.Frame
import proofs.«410051_j26534307954693_2_alg».proof.Proof.Spec
import proofs.«410051_j26534307954693_2_alg».proof.Proof.KReg2
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.KReg3

open Cert.KernelIdeal Cert.KernelIdeal.Gen Idealize.ShloMosaic Idealize.ShloMosaic.ValueIdx Idealize.ShloMosaic.TcCoe

/-- This region's body is the previous layer's under other names, so a block's row is again the layer's row function. -/
theorem out_row (x0 x1 : Vec Ideal S5000x128 .f32) (x2 : Vec Ideal S128x128 .f32) (x3 : Vec Ideal S1x128 .f32) (x4 : Vec Ideal S128x128 .f32) (x5 x6 x7 : Vec Ideal S1x128 .f32) (y : S5000x128.Idx) :
    out3_8 (F := Ideal) x0 x1 x2 x3 x4 x5 x6 x7 y
      = Cert.Spec.convK (fun k : Fin 128 => x0 (ix2 (y 0) k)) (fun k : Fin 128 => x1 (ix2 (y 0) k)) (fun (j k : Fin 128) => x2 (ix2 j k)) (fun k : Fin 128 => x3 (ix2 (0 : Fin 1) k))
          (fun (j k : Fin 128) => x4 (ix2 j k)) (fun k => x5 (ix2 (0 : Fin 1) k)) (fun k => x6 (ix2 (0 : Fin 1) k)) (fun k => x7 (ix2 (0 : Fin 1) k)) (y 1) :=
  KReg2.out_row x0 x1 x2 x3 x4 x5 x6 x7 y

section Array

variable (V : (c : Dev nD) → (b : Ref sig .tc) → Buf (Elt Ideal) ((c : Thread nD τ).loc b))

def rows (c : Dev nD) : S50000x128.Idx → EReal := fun i =>
  Cert.Spec.convK (fun k : Fin 128 => V c (Pipeline.arrRef spec3 0) (ix2 (i 0) k)) (fun k : Fin 128 => V c (Pipeline.arrRef spec3 1) (ix2 (i 0) k)) (fun (j k : Fin 128) => V c (Pipeline.arrRef spec3 2) (ix2 j k)) (fun k : Fin 128 => V c (Pipeline.arrRef spec3 3) (ix2 (0 : Fin 1) k))
    (fun (j k : Fin 128) => V c (Pipeline.arrRef spec3 4) (ix2 j k)) (fun k => V c (Pipeline.arrRef spec3 5) (ix2 (0 : Fin 1) k)) (fun k => V c (Pipeline.arrRef spec3 6) (ix2 (0 : Fin 1) k)) (fun k => V c (Pipeline.arrRef spec3 7) (ix2 (0 : Fin 1) k)) (i 1)

theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 ∧ t.val < 10 :=
  (by decide +kernel : ∀ t : Fin grid3.N, _)

theorem idx_onto : ∀ b : Fin 10, ∃ t : Fin cfg3.N, t.val = b.val :=
  (by decide +kernel : ∀ b : Fin 10, ∃ t : Fin grid3.N, t.val = b.val)

set_option maxHeartbeats 1000000 in
theorem flushed_eq (c : Dev nD) (t : Fin cfg3.N) :
    (dat3 (F := Ideal) V c).flushed 8 t = ((cfg3.win 8).blk t).view.read (Elt Ideal) (rows V c) := by
  show (cfg3.win 8).cut (grid3.coords t) ((dat3 V c).after 8 t) = _
  rw [after3_8]
  obtain ⟨a00, a01, a10, a11, a20, a21, a30, a31, a40, a41, a50, a51, a60, a61, a70, a71, a80, a81, ht⟩ := idx_facts t
  funext y
  show out3_8 (F := Ideal) (iblk3 V c 0 t) (iblk3 V c 1 t) (iblk3 V c 2 t) (iblk3 V c 3 t) (iblk3 V c 4 t) (iblk3 V c 5 t) (iblk3 V c 6 t) (iblk3 V c 7 t) y
    = rows V c (((cfg3.win 8).blk t).view.emb y)
  refine (out_row _ _ _ _ _ _ _ _ y).trans ?_
  unfold rows
  have hy0 : (y 0).val < 5000 := (y 0).isLt
  have hy1 : (y 1).val < 128 := (y 1).isLt
  refine KReg2.convK_congr (funext fun k => ?_) (funext fun k => ?_) (funext fun j => funext fun k => ?_) (funext fun k => ?_)
    (funext fun j => funext fun k => ?_) (funext fun k => ?_) (funext fun k => ?_) (funext fun k => ?_) ?_
  · show V c (Pipeline.arrRef spec3 0) (((cfg3.win 0).blk t).view.emb _) = _
    refine congrArg (V c (Pipeline.arrRef spec3 0)) (funext fun a => Fin.ext ?_)
    match a with
    | ⟨0, _⟩ => show win3_0.index t (0 : Fin 2) * 5000 + 1 * (y 0).val = win3_8.index t (0 : Fin 2) * 5000 + 1 * (y 0).val; omega
    | ⟨1, _⟩ => show win3_0.index t (1 : Fin 2) * 128 + 1 * k.val = k.val; omega
  · show V c (Pipeline.arrRef spec3 1) (((cfg3.win 1).blk t).view.emb _) = _
    refine congrArg (V c (Pipeline.arrRef spec3 1)) (funext fun a => Fin.ext ?_)
    match a with
    | ⟨0, _⟩ => show win3_1.index t (0 : Fin 2) * 5000 + 1 * (y 0).val = win3_8.index t (0 : Fin 2) * 5000 + 1 * (y 0).val; omega
    | ⟨1, _⟩ => show win3_1.index t (1 : Fin 2) * 128 + 1 * k.val = k.val; omega
  · show V c (Pipeline.arrRef spec3 2) (((cfg3.win 2).blk t).view.emb _) = _
    refine congrArg (V c (Pipeline.arrRef spec3 2)) (funext fun a => Fin.ext ?_)
    match a with
    | ⟨0, _⟩ => show win3_2.index t (0 : Fin 2) * 128 + 1 * j.val = j.val; omega
    | ⟨1, _⟩ => show win3_2.index t (1 : Fin 2) * 128 + 1 * k.val = k.val; omega
  · show V c (Pipeline.arrRef spec3 3) (((cfg3.win 3).blk t).view.emb _) = _
    refine congrArg (V c (Pipeline.arrRef spec3 3)) (funext fun a => Fin.ext ?_)
    match a with
    | ⟨0, _⟩ => show win3_3.index t (0 : Fin 2) * 1 + 1 * 0 = 0; omega
    | ⟨1, _⟩ => show win3_3.index t (1 : Fin 2) * 128 + 1 * k.val = k.val; omega
  · show V c (Pipeline.arrRef spec3 4) (((cfg3.win 4).blk t).view.emb _) = _
    refine congrArg (V c (Pipeline.arrRef spec3 4)) (funext fun a => Fin.ext ?_)
    match a with
    | ⟨0, _⟩ => show win3_4.index t (0 : Fin 2) * 128 + 1 * j.val = j.val; omega
    | ⟨1, _⟩ => show win3_4.index t (1 : Fin 2) * 128 + 1 * k.val = k.val; omega
  · show V c (Pipeline.arrRef spec3 5) (((cfg3.win 5).blk t).view.emb _) = _
    refine congrArg (V c (Pipeline.arrRef spec3 5)) (funext fun a => Fin.ext ?_)
    match a with
    | ⟨0, _⟩ => show win3_5.index t (0 : Fin 2) * 1 + 1 * 0 = 0; omega
    | ⟨1, _⟩ => show win3_5.index t (1 : Fin 2) * 128 + 1 * k.val = k.val; omega
  · show V c (Pipeline.arrRef spec3 6) (((cfg3.win 6).blk t).view.emb _) = _
    refine congrArg (V c (Pipeline.arrRef spec3 6)) (funext fun a => Fin.ext ?_)
    match a with
    | ⟨0, _⟩ => show win3_6.index t (0 : Fin 2) * 1 + 1 * 0 = 0; omega
    | ⟨1, _⟩ => show win3_6.index t (1 : Fin 2) * 128 + 1 * k.val = k.val; omega
  · show V c (Pipeline.arrRef spec3 7) (((cfg3.win 7).blk t).view.emb _) = _
    refine congrArg (V c (Pipeline.arrRef spec3 7)) (funext fun a => Fin.ext ?_)
    match a with
    | ⟨0, _⟩ => show win3_7.index t (0 : Fin 2) * 1 + 1 * 0 = 0; omega
    | ⟨1, _⟩ => show win3_7.index t (1 : Fin 2) * 128 + 1 * k.val = k.val; omega
  · exact Fin.ext (by show (y 1).val = win3_8.index t (1 : Fin 2) * 128 + 1 * (y 1).val; omega)

theorem mem_blk (t : Fin cfg3.N) (i : S50000x128.Idx) :
    i ∈ ((cfg3.win 8).blk t).view.set ↔ ∀ a : Fin 2, win3_8.index t a * S5000x128.size a ≤ (i a).val ∧ (i a).val < win3_8.index t a * S5000x128.size a + S5000x128.size a := by
  show i ∈ ((View.whole main_v59).slice (win3_8.rect t)).set ↔ _
  rw [View.set_slice_whole, Rect.mem_set_unit]
  exact Iff.rfl

theorem cover (i : S50000x128.Idx) : ∃ t : Fin cfg3.N, (cfg3.win 8).flush t = true ∧ i ∈ ((cfg3.win 8).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, -, -, -, -, -, -, a80, a81, -⟩ := idx_facts t
  refine ⟨t, flush3_8 t, ?_⟩
  rw [mem_blk]
  intro a
  match a with
  | ⟨0, _⟩ => show win3_8.index t (0 : Fin 2) * 5000 ≤ (i 0).val ∧ (i 0).val < win3_8.index t (0 : Fin 2) * 5000 + 5000; omega
  | ⟨1, _⟩ => show win3_8.index t (1 : Fin 2) * 128 ≤ (i 1).val ∧ (i 1).val < win3_8.index t (1 : Fin 2) * 128 + 128; omega

theorem final_eq (c : Dev nD) : (dat3 (F := Ideal) V c).arrAt 8 cfg3.N = rows V c :=
  (dat3 (F := Ideal) V c).arrAt_eq_of_cover 8 (rows V c) (fun t _ => flushed_eq V c t) cover

theorem final_apply (c : Dev nD) (r : Fin 50000) (q : Fin 128) :
    (dat3 (F := Ideal) V c).arrAt 8 cfg3.N (ix2 r q)
      = Cert.Spec.convK (fun k : Fin 128 => V c (Pipeline.arrRef spec3 0) (ix2 r k)) (fun k : Fin 128 => V c (Pipeline.arrRef spec3 1) (ix2 r k)) (fun (j k : Fin 128) => V c (Pipeline.arrRef spec3 2) (ix2 j k)) (fun k : Fin 128 => V c (Pipeline.arrRef spec3 3) (ix2 (0 : Fin 1) k))
          (fun (j k : Fin 128) => V c (Pipeline.arrRef spec3 4) (ix2 j k)) (fun k => V c (Pipeline.arrRef spec3 5) (ix2 (0 : Fin 1) k)) (fun k => V c (Pipeline.arrRef spec3 6) (ix2 (0 : Fin 1) k)) (fun k => V c (Pipeline.arrRef spec3 7) (ix2 (0 : Fin 1) k)) q :=
  (congrFun (final_eq V c) (ix2 r q)).trans rfl

end Array

end Cert.KernelIdeal.KReg3

end
-- ==== Proof.RRowConv.lean ====
import proofs.«410051_j26534307954693_2_alg».proof.Proof.RefReadP
import proofs.«410051_j26534307954693_2_alg».proof.Proof.Spec
import Idealize.ShloMosaic.Lib.ValueIdx
import Idealize.ShloMosaic.PureOps.Ideal.Laws

noncomputable section

namespace Cert.ReferenceIdeal.RRow

open Cert.ReferenceIdeal Cert.ReferenceIdeal.ReadP Idealize.ShloMosaic Idealize.ShloMosaic.ValueIdx

variable (x0 : (⟨S50000x5, .f32⟩ : BufTy).Contents (Elt Ideal)) (x1 : (⟨S600000x6, .f32⟩ : BufTy).Contents (Elt Ideal))
  (x2 : (⟨S2x600000, .i32⟩ : BufTy).Contents (Elt Ideal)) (x3 : (⟨S5x128, .f32⟩ : BufTy).Contents (Elt Ideal))
  (x4 : (⟨S128, .f32⟩ : BufTy).Contents (Elt Ideal)) (x5 : (⟨S128x128, .f32⟩ : BufTy).Contents (Elt Ideal))
  (x6 x7 x8 : (⟨S128, .f32⟩ : BufTy).Contents (Elt Ideal)) (x9 : (⟨S6x128, .f32⟩ : BufTy).Contents (Elt Ideal))
  (x10 : (⟨S128, .f32⟩ : BufTy).Contents (Elt Ideal)) (x11 : (⟨S128x128, .f32⟩ : BufTy).Contents (Elt Ideal))
  (x12 x13 x14 : (⟨S128, .f32⟩ : BufTy).Contents (Elt Ideal)) (x15 : (⟨S3x128x128, .f32⟩ : BufTy).Contents (Elt Ideal))
  (x16 : (⟨S3x128, .f32⟩ : BufTy).Contents (Elt Ideal)) (x17 : (⟨S3x128x128, .f32⟩ : BufTy).Contents (Elt Ideal))
  (x18 x19 x20 : (⟨S3x128, .f32⟩ : BufTy).Contents (Elt Ideal))

theorem l0_w1 (j k : Fin 128) : val_main_v84 (F := Ideal) x15 (ix2 j k) = x15 (ix3 (0 : Fin 3) j k) := by
  rw [val_main_v84_apply, val_main_v83_apply]
  exact congrArg x15 (funext fun a => Fin.ext (by
    match a with
    | ⟨0, _⟩ => rfl
    | ⟨1, _⟩ => show (j.val * 128 + k.val) / 128 % 128 = j.val; omega
    | ⟨2, _⟩ => show (j.val * 128 + k.val) % 128 = k.val; omega))

theorem l0_w2 (j k : Fin 128) : val_main_v88 (F := Ideal) x17 (ix2 j k) = x17 (ix3 (0 : Fin 3) j k) := by
  rw [val_main_v88_apply, val_main_v87_apply]
  exact congrArg x17 (funext fun a => Fin.ext (by
    match a with
    | ⟨0, _⟩ => rfl
    | ⟨1, _⟩ => show (j.val * 128 + k.val) / 128 % 128 = j.val; omega
    | ⟨2, _⟩ => show (j.val * 128 + k.val) % 128 = k.val; omega))

theorem l0_b1 (r : Fin 50000) (q : Fin 128) : val_main_v93 (F := Ideal) x16 (ix2 r q) = x16 (ix2 (0 : Fin 3) q) := by
  rw [val_main_v93_apply, val_main_v92_apply, val_main_v86_apply, val_main_v85_apply]
  exact congrArg x16 (funext fun a => Fin.ext (by
    match a with
    | ⟨0, _⟩ => rfl
    | ⟨1, _⟩ => show q.val % 128 = q.val; omega))

theorem l0_b2 (r : Fin 50000) (q : Fin 128) : val_main_v98 (F := Ideal) x18 (ix2 r q) = x18 (ix2 (0 : Fin 3) q) := by
  rw [val_main_v98_apply, val_main_v97_apply, val_main_v90_apply, val_main_v89_apply]
  exact congrArg x18 (funext fun a => Fin.ext (by
    match a with
    | ⟨0, _⟩ => rfl
    | ⟨1, _⟩ => show q.val % 128 = q.val; omega))

theorem l0_g (r : Fin 50000) (q : Fin 128) : val_main_v125 (F := Ideal) x19 (ix2 r q) = x19 (ix2 (0 : Fin 3) q) := by
  rw [val_main_v125_apply, val_main_v124_apply, val_main_v103_apply, val_main_v102_apply]
  exact congrArg x19 (funext fun a => Fin.ext (by
    match a with
    | ⟨0, _⟩ => rfl
    | ⟨1, _⟩ => show q.val % 128 = q.val; omega))

theorem l0_be (r : Fin 50000) (q : Fin 128) : val_main_v128 (F := Ideal) x20 (ix2 r q) = x20 (ix2 (0 : Fin 3) q) := by
  rw [val_main_v128_apply, val_main_v127_apply, val_main_v105_apply, val_main_v104_apply]
  exact congrArg x20 (funext fun a => Fin.ext (by
    match a with
    | ⟨0, _⟩ => rfl
    | ⟨1, _⟩ => show q.val % 128 = q.val; omega))

theorem l0_lidx1 (r : Fin 50000) (q k : Fin 128) : lidx_main_v91 (ix2 r q) k = ix2 r k :=
  funext fun a => by match a with | ⟨0, _⟩ => rfl | ⟨1, _⟩ => rfl
theorem l0_ridx1 (r : Fin 50000) (q k : Fin 128) : ridx_main_v91 (ix2 r q) k = ix2 k q :=
  funext fun a => by match a with | ⟨0, _⟩ => rfl | ⟨1, _⟩ => rfl
theorem l0_lidx2 (r : Fin 50000) (q k : Fin 128) : lidx_main_v96 (ix2 r q) k = ix2 r k :=
  funext fun a => by match a with | ⟨0, _⟩ => rfl | ⟨1, _⟩ => rfl
theorem l0_ridx2 (r : Fin 50000) (q k : Fin 128) : ridx_main_v96 (ix2 r q) k = ix2 k q :=
  funext fun a => by match a with | ⟨0, _⟩ => rfl | ⟨1, _⟩ => rfl
theorem l0_sum1 (r : Fin 50000) (k : Fin 128) : idx_main_v106 (idx_main_v107 (ix2 r (0 : Fin 1))) k = ix2 r k :=
  funext fun a => by match a with | ⟨0, _⟩ => rfl | ⟨1, _⟩ => rfl
theorem l0_sum2 (r : Fin 50000) (k : Fin 128) : idx_main_v113 (idx_main_v114 (ix2 r (0 : Fin 1))) k = ix2 r k :=
  funext fun a => by match a with | ⟨0, _⟩ => rfl | ⟨1, _⟩ => rfl
theorem l0_col1 (r : Fin 50000) (q : Fin 128) : idx_main_v110 (ix2 r q) = ix2 r (0 : Fin 1) :=
  funext fun a => by match a with | ⟨0, _⟩ => rfl | ⟨1, _⟩ => rfl
theorem l0_col2 (r : Fin 50000) (q : Fin 128) : idx_main_v117 (ix2 r q) = ix2 r (0 : Fin 1) :=
  funext fun a => by match a with | ⟨0, _⟩ => rfl | ⟨1, _⟩ => rfl
theorem l0_col3 (r : Fin 50000) (q : Fin 128) : idx_main_v122 (ix2 r q) = ix2 r (0 : Fin 1) :=
  funext fun a => by match a with | ⟨0, _⟩ => rfl | ⟨1, _⟩ => rfl

theorem l0_lin1 (r : Fin 50000) (q : Fin 128) :
    val_main_v94 (F := Ideal) x0 x1 x2 x3 x4 x5 x6 x7 x8 x9 x10 x11 x12 x13 x14 x15 x16 (ix2 r q)
      = Cert.Spec.lin (fun j : Fin 128 => val_main_v82 (F := Ideal) x0 x1 x2 x3 x4 x5 x6 x7 x8 x9 x10 x11 x12 x13 x14 (ix2 r j))
          (fun j k : Fin 128 => x15 (ix3 (0 : Fin 3) j k)) (fun k : Fin 128 => x16 (ix2 (0 : Fin 3) k)) q := by
  rw [val_main_v94_apply, val_main_v91_apply, l0_b1]
  simp only [Cert.Spec.lin, Ideal.addf_def, l0_lidx1, l0_ridx1, l0_w1]

theorem l0_relu1 (r : Fin 50000) (q : Fin 128) :
    val_main_v95 (F := Ideal) x0 x1 x2 x3 x4 x5 x6 x7 x8 x9 x10 x11 x12 x13 x14 x15 x16 (ix2 r q)
      = max (val_main_v94 (F := Ideal) x0 x1 x2 x3 x4 x5 x6 x7 x8 x9 x10 x11 x12 x13 x14 x15 x16 (ix2 r q)) Cert.Spec.z0 := by
  rw [val_main_v95_apply, val_main_call3_v0_apply, val_main_call3_cst_apply]; rfl

theorem l0_mlp (r : Fin 50000) (q : Fin 128) :
    val_main_v99 (F := Ideal) x0 x1 x2 x3 x4 x5 x6 x7 x8 x9 x10 x11 x12 x13 x14 x15 x16 x17 x18 (ix2 r q)
      = Cert.Spec.mlp2 (fun j : Fin 128 => val_main_v82 (F := Ideal) x0 x1 x2 x3 x4 x5 x6 x7 x8 x9 x10 x11 x12 x13 x14 (ix2 r j))
          (fun j k : Fin 128 => x15 (ix3 (0 : Fin 3) j k)) (fun k : Fin 128 => x16 (ix2 (0 : Fin 3) k))
          (fun j k : Fin 128 => x17 (ix3 (0 : Fin 3) j k)) (fun k : Fin 128 => x18 (ix2 (0 : Fin 3) k)) q := by
  rw [val_main_v99_apply, val_main_v96_apply, l0_b2]
  simp only [Cert.Spec.mlp2, Cert.Spec.lin, Cert.Spec.relu, Ideal.addf_def, l0_lidx2, l0_ridx2, l0_w2, l0_relu1, l0_lin1]

theorem l0_pre (r : Fin 50000) (q : Fin 128) :
    val_main_v101 (F := Ideal) x0 x1 x2 x3 x4 x5 x6 x7 x8 x9 x10 x11 x12 x13 x14 x15 x16 x17 x18 (ix2 r q)
      = Cert.Spec.convPre (fun k : Fin 128 => val_main_v81 (F := Ideal) x0 x1 x2 x3 x4 x5 x6 x7 x8 x9 x10 x11 x12 x13 x14 (ix2 r k))
          (fun k : Fin 128 => val_main_v36 (F := Ideal) x0 x3 x4 x5 x6 x7 x8 (ix2 r k))
          (fun j k : Fin 128 => x15 (ix3 (0 : Fin 3) j k)) (fun k : Fin 128 => x16 (ix2 (0 : Fin 3) k))
          (fun j k : Fin 128 => x17 (ix3 (0 : Fin 3) j k)) (fun k : Fin 128 => x18 (ix2 (0 : Fin 3) k)) q := by
  rw [val_main_v101_apply, val_main_v100_apply, val_main_call4_v0_apply, val_main_call4_cst_apply, l0_mlp]
  simp only [val_main_v82_apply]
  rfl

theorem l0_mean (r : Fin 50000) :
    val_main_v109 (F := Ideal) x0 x1 x2 x3 x4 x5 x6 x7 x8 x9 x10 x11 x12 x13 x14 x15 x16 x17 x18 (ix2 r (0 : Fin 1))
      = Cert.Spec.meanR (fun k : Fin 128 => val_main_v101 (F := Ideal) x0 x1 x2 x3 x4 x5 x6 x7 x8 x9 x10 x11 x12 x13 x14 x15 x16 x17 x18 (ix2 r k)) := by
  rw [val_main_v109_apply, val_main_v107_apply, val_main_v106_apply, val_main_v108_apply, val_main_cst_12_apply,
    val_main_cst_11_apply]
  unfold Cert.Spec.meanR
  simp only [l0_sum1]
  rfl

theorem l0_dev1 (r : Fin 50000) (q : Fin 128) :
    val_main_v111 (F := Ideal) x0 x1 x2 x3 x4 x5 x6 x7 x8 x9 x10 x11 x12 x13 x14 x15 x16 x17 x18 (ix2 r q)
      = val_main_v101 (F := Ideal) x0 x1 x2 x3 x4 x5 x6 x7 x8 x9 x10 x11 x12 x13 x14 x15 x16 x17 x18 (ix2 r q)
        - Cert.Spec.meanR (fun k : Fin 128 => val_main_v101 (F := Ideal) x0 x1 x2 x3 x4 x5 x6 x7 x8 x9 x10 x11 x12 x13 x14 x15 x16 x17 x18 (ix2 r k)) := by
  rw [val_main_v111_apply, val_main_v110_apply, l0_col1, l0_mean]
  exact Ideal.subf_def _ _

theorem l0_dev2 (r : Fin 50000) (q : Fin 128) :
    val_main_v118 (F := Ideal) x0 x1 x2 x3 x4 x5 x6 x7 x8 x9 x10 x11 x12 x13 x14 x15 x16 x17 x18 (ix2 r q)
      = val_main_v101 (F := Ideal) x0 x1 x2 x3 x4 x5 x6 x7 x8 x9 x10 x11 x12 x13 x14 x15 x16 x17 x18 (ix2 r q)
        - Cert.Spec.meanR (fun k : Fin 128 => val_main_v101 (F := Ideal) x0 x1 x2 x3 x4 x5 x6 x7 x8 x9 x10 x11 x12 x13 x14 x15 x16 x17 x18 (ix2 r k)) := by
  rw [val_main_v118_apply, val_main_v117_apply, l0_col2, l0_mean]
  exact Ideal.subf_def _ _

theorem l0_var (r : Fin 50000) :
    val_main_v116 (F := Ideal) x0 x1 x2 x3 x4 x5 x6 x7 x8 x9 x10 x11 x12 x13 x14 x15 x16 x17 x18 (ix2 r (0 : Fin 1))
      = Cert.Spec.varR (fun k : Fin 128 => val_main_v101 (F := Ideal) x0 x1 x2 x3 x4 x5 x6 x7 x8 x9 x10 x11 x12 x13 x14 x15 x16 x17 x18 (ix2 r k)) := by
  rw [val_main_v116_apply, val_main_v114_apply, val_main_v113_apply, val_main_v115_apply, val_main_cst_14_apply,
    val_main_cst_13_apply]
  unfold Cert.Spec.varR
  simp only [val_main_v112_apply, l0_sum2, l0_dev1, Ideal.mulf_def]
  rfl

theorem v129_apply (r : Fin 50000) (q : Fin 128) :
    val_main_v129 (F := Ideal) x0 x1 x2 x3 x4 x5 x6 x7 x8 x9 x10 x11 x12 x13 x14 x15 x16 x17 x18 x19 x20 (ix2 r q)
      = Cert.Spec.convR (fun k : Fin 128 => val_main_v81 (F := Ideal) x0 x1 x2 x3 x4 x5 x6 x7 x8 x9 x10 x11 x12 x13 x14 (ix2 r k))
          (fun k : Fin 128 => val_main_v36 (F := Ideal) x0 x3 x4 x5 x6 x7 x8 (ix2 r k))
          (fun j k : Fin 128 => x15 (ix3 (0 : Fin 3) j k)) (fun k : Fin 128 => x16 (ix2 (0 : Fin 3) k))
          (fun j k : Fin 128 => x17 (ix3 (0 : Fin 3) j k)) (fun k : Fin 128 => x18 (ix2 (0 : Fin 3) k))
          (fun k : Fin 128 => x19 (ix2 (0 : Fin 3) k)) (fun k : Fin 128 => x20 (ix2 (0 : Fin 3) k)) q := by
  rw [val_main_v129_apply, val_main_v126_apply, val_main_v123_apply, val_main_v122_apply, val_main_v121_apply,
    val_main_v120_apply, val_main_v119_apply, val_main_cst_15_apply, l0_g, l0_be, l0_dev2, l0_col3, l0_var]
  unfold Cert.Spec.convR Cert.Spec.lnR
  simp only [l0_pre]
  rfl

theorem l1_w1 (j k : Fin 128) : val_main_v144 (F := Ideal) x15 (ix2 j k) = x15 (ix3 (1 : Fin 3) j k) := by
  rw [val_main_v144_apply, val_main_v143_apply]
  exact congrArg x15 (funext fun a => Fin.ext (by
    match a with
    | ⟨0, _⟩ => rfl
    | ⟨1, _⟩ => show (j.val * 128 + k.val) / 128 % 128 = j.val; omega
    | ⟨2, _⟩ => show (j.val * 128 + k.val) % 128 = k.val; omega))

theorem l1_w2 (j k : Fin 128) : val_main_v148 (F := Ideal) x17 (ix2 j k) = x17 (ix3 (1 : Fin 3) j k) := by
  rw [val_main_v148_apply, val_main_v147_apply]
  exact congrArg x17 (funext fun a => Fin.ext (by
    match a with
    | ⟨0, _⟩ => rfl
    | ⟨1, _⟩ => show (j.val * 128 + k.val) / 128 % 128 = j.val; omega
    | ⟨2, _⟩ => show (j.val * 128 + k.val) % 128 = k.val; omega))

theorem l1_b1 (r : Fin 50000) (q : Fin 128) : val_main_v153 (F := Ideal) x16 (ix2 r q) = x16 (ix2 (1 : Fin 3) q) := by
  rw [val_main_v153_apply, val_main_v152_apply, val_main_v146_apply, val_main_v145_apply]
  exact congrArg x16 (funext fun a => Fin.ext (by
    match a with
    | ⟨0, _⟩ => rfl
    | ⟨1, _⟩ => show q.val % 128 = q.val; omega))

theorem l1_b2 (r : Fin 50000) (q : Fin 128) : val_main_v158 (F := Ideal) x18 (ix2 r q) = x18 (ix2 (1 : Fin 3) q) := by
  rw [val_main_v158_apply, val_main_v157_apply, val_main_v150_apply, val_main_v149_apply]
  exact congrArg x18 (funext fun a => Fin.ext (by
    match a with
    | ⟨0, _⟩ => rfl
    | ⟨1, _⟩ => show q.val % 128 = q.val; omega))

theorem l1_g (r : Fin 50000) (q : Fin 128) : val_main_v185 (F := Ideal) x19 (ix2 r q) = x19 (ix2 (1 : Fin 3) q) := by
  rw [val_main_v185_apply, val_main_v184_apply, val_main_v163_apply, val_main_v162_apply]
  exact congrArg x19 (funext fun a => Fin.ext (by
    match a with
    | ⟨0, _⟩ => rfl
    | ⟨1, _⟩ => show q.val % 128 = q.val; omega))

theorem l1_be (r : Fin 50000) (q : Fin 128) : val_main_v188 (F := Ideal) x20 (ix2 r q) = x20 (ix2 (1 : Fin 3) q) := by
  rw [val_main_v188_apply, val_main_v187_apply, val_main_v165_apply, val_main_v164_apply]
  exact congrArg x20 (funext fun a => Fin.ext (by
    match a with
    | ⟨0, _⟩ => rfl
    | ⟨1, _⟩ => show q.val % 128 = q.val; omega))

theorem l1_lidx1 (r : Fin 50000) (q k : Fin 128) : lidx_main_v151 (ix2 r q) k = ix2 r k :=
  funext fun a => by match a with | ⟨0, _⟩ => rfl | ⟨1, _⟩ => rfl
theorem l1_ridx1 (r : Fin 50000) (q k : Fin 128) : ridx_main_v151 (ix2 r q) k = ix2 k q :=
  funext fun a => by match a with | ⟨0, _⟩ => rfl | ⟨1, _⟩ => rfl
theorem l1_lidx2 (r : Fin 50000) (q k : Fin 128) : lidx_main_v156 (ix2 r q) k = ix2 r k :=
  funext fun a => by match a with | ⟨0, _⟩ => rfl | ⟨1, _⟩ => rfl
theorem l1_ridx2 (r : Fin 50000) (q k : Fin 128) : ridx_main_v156 (ix2 r q) k = ix2 k q :=
  funext fun a => by match a with | ⟨0, _⟩ => rfl | ⟨1, _⟩ => rfl
theorem l1_sum1 (r : Fin 50000) (k : Fin 128) : idx_main_v166 (idx_main_v167 (ix2 r (0 : Fin 1))) k = ix2 r k :=
  funext fun a => by match a with | ⟨0, _⟩ => rfl | ⟨1, _⟩ => rfl
theorem l1_sum2 (r : Fin 50000) (k : Fin 128) : idx_main_v173 (idx_main_v174 (ix2 r (0 : Fin 1))) k = ix2 r k :=
  funext fun a => by match a with | ⟨0, _⟩ => rfl | ⟨1, _⟩ => rfl
theorem l1_col1 (r : Fin 50000) (q : Fin 128) : idx_main_v170 (ix2 r q) = ix2 r (0 : Fin 1) :=
  funext fun a => by match a with | ⟨0, _⟩ => rfl | ⟨1, _⟩ => rfl
theorem l1_col2 (r : Fin 50000) (q : Fin 128) : idx_main_v177 (ix2 r q) = ix2 r (0 : Fin 1) :=
  funext fun a => by match a with | ⟨0, _⟩ => rfl | ⟨1, _⟩ => rfl
theorem l1_col3 (r : Fin 50000) (q : Fin 128) : idx_main_v182 (ix2 r q) = ix2 r (0 : Fin 1) :=
  funext fun a => by match a with | ⟨0, _⟩ => rfl | ⟨1, _⟩ => rfl

theorem l1_lin1 (r : Fin 50000) (q : Fin 128) :
    val_main_v154 (F := Ideal) x0 x1 x2 x3 x4 x5 x6 x7 x8 x9 x10 x11 x12 x13 x14 x15 x16 x17 x18 x19 x20 (ix2 r q)
      = Cert.Spec.lin (fun j : Fin 128 => val_main_v142 (F := Ideal) x0 x1 x2 x3 x4 x5 x6 x7 x8 x9 x10 x11 x12 x13 x14 x15 x16 x17 x18 x19 x20 (ix2 r j))
          (fun j k : Fin 128 => x15 (ix3 (1 : Fin 3) j k)) (fun k : Fin 128 => x16 (ix2 (1 : Fin 3) k)) q := by
  rw [val_main_v154_apply, val_main_v151_apply, l1_b1]
  simp only [Cert.Spec.lin, Ideal.addf_def, l1_lidx1, l1_ridx1, l1_w1]

theorem l1_relu1 (r : Fin 50000) (q : Fin 128) :
    val_main_v155 (F := Ideal) x0 x1 x2 x3 x4 x5 x6 x7 x8 x9 x10 x11 x12 x13 x14 x15 x16 x17 x18 x19 x20 (ix2 r q)
      = max (val_main_v154 (F := Ideal) x0 x1 x2 x3 x4 x5 x6 x7 x8 x9 x10 x11 x12 x13 x14 x15 x16 x17 x18 x19 x20 (ix2 r q)) Cert.Spec.z0 := by
  rw [val_main_v155_apply, val_main_call6_v0_apply, val_main_call6_cst_apply]; rfl

theorem l1_mlp (r : Fin 50000) (q : Fin 128) :
    val_main_v159 (F := Ideal) x0 x1 x2 x3 x4 x5 x6 x7 x8 x9 x10 x11 x12 x13 x14 x15 x16 x17 x18 x19 x20 (ix2 r q)
      = Cert.Spec.mlp2 (fun j : Fin 128 => val_main_v142 (F := Ideal) x0 x1 x2 x3 x4 x5 x6 x7 x8 x9 x10 x11 x12 x13 x14 x15 x16 x17 x18 x19 x20 (ix2 r j))
          (fun j k : Fin 128 => x15 (ix3 (1 : Fin 3) j k)) (fun k : Fin 128 => x16 (ix2 (1 : Fin 3) k))
          (fun j k : Fin 128 => x17 (ix3 (1 : Fin 3) j k)) (fun k : Fin 128 => x18 (ix2 (1 : Fin 3) k)) q := by
  rw [val_main_v159_apply, val_main_v156_apply, l1_b2]
  simp only [Cert.Spec.mlp2, Cert.Spec.lin, Cert.Spec.relu, Ideal.addf_def, l1_lidx2, l1_ridx2, l1_w2, l1_relu1, l1_lin1]

theorem l1_pre (r : Fin 50000) (q : Fin 128) :
    val_main_v161 (F := Ideal) x0 x1 x2 x3 x4 x5 x6 x7 x8 x9 x10 x11 x12 x13 x14 x15 x16 x17 x18 x19 x20 (ix2 r q)
      = Cert.Spec.convPre (fun k : Fin 128 => val_main_v141 (F := Ideal) x0 x1 x2 x3 x4 x5 x6 x7 x8 x9 x10 x11 x12 x13 x14 x15 x16 x17 x18 x19 x20 (ix2 r k))
          (fun k : Fin 128 => val_main_v129 (F := Ideal) x0 x1 x2 x3 x4 x5 x6 x7 x8 x9 x10 x11 x12 x13 x14 x15 x16 x17 x18 x19 x20 (ix2 r k))
          (fun j k : Fin 128 => x15 (ix3 (1 : Fin 3) j k)) (fun k : Fin 128 => x16 (ix2 (1 : Fin 3) k))
          (fun j k : Fin 128 => x17 (ix3 (1 : Fin 3) j k)) (fun k : Fin 128 => x18 (ix2 (1 : Fin 3) k)) q := by
  rw [val_main_v161_apply, val_main_v160_apply, val_main_call7_v0_apply, val_main_call7_cst_apply, l1_mlp]
  simp only [val_main_v142_apply]
  rfl

theorem l1_mean (r : Fin 50000) :
    val_main_v169 (F := Ideal) x0 x1 x2 x3 x4 x5 x6 x7 x8 x9 x10 x11 x12 x13 x14 x15 x16 x17 x18 x19 x20 (ix2 r (0 : Fin 1))
      = Cert.Spec.meanR (fun k : Fin 128 => val_main_v161 (F := Ideal) x0 x1 x2 x3 x4 x5 x6 x7 x8 x9 x10 x11 x12 x13 x14 x15 x16 x17 x18 x19 x20 (ix2 r k)) := by
  rw [val_main_v169_apply, val_main_v167_apply, val_main_v166_apply, val_main_v168_apply, val_main_cst_20_apply,
    val_main_cst_19_apply]
  unfold Cert.Spec.meanR
  simp only [l1_sum1]
  rfl

theorem l1_dev1 (r : Fin 50000) (q : Fin 128) :
    val_main_v171 (F := Ideal) x0 x1 x2 x3 x4 x5 x6 x7 x8 x9 x10 x11 x12 x13 x14 x15 x16 x17 x18 x19 x20 (ix2 r q)
      = val_main_v161 (F := Ideal) x0 x1 x2 x3 x4 x5 x6 x7 x8 x9 x10 x11 x12 x13 x14 x15 x16 x17 x18 x19 x20 (ix2 r q)
        - Cert.Spec.meanR (fun k : Fin 128 => val_main_v161 (F := Ideal) x0 x1 x2 x3 x4 x5 x6 x7 x8 x9 x10 x11 x12 x13 x14 x15 x16 x17 x18 x19 x20 (ix2 r k)) := by
  rw [val_main_v171_apply, val_main_v170_apply, l1_col1, l1_mean]
  exact Ideal.subf_def _ _

theorem l1_dev2 (r : Fin 50000) (q : Fin 128) :
    val_main_v178 (F := Ideal) x0 x1 x2 x3 x4 x5 x6 x7 x8 x9 x10 x11 x12 x13 x14 x15 x16 x17 x18 x19 x20 (ix2 r q)
      = val_main_v161 (F := Ideal) x0 x1 x2 x3 x4 x5 x6 x7 x8 x9 x10 x11 x12 x13 x14 x15 x16 x17 x18 x19 x20 (ix2 r q)
        - Cert.Spec.meanR (fun k : Fin 128 => val_main_v161 (F := Ideal) x0 x1 x2 x3 x4 x5 x6 x7 x8 x9 x10 x11 x12 x13 x14 x15 x16 x17 x18 x19 x20 (ix2 r k)) := by
  rw [val_main_v178_apply, val_main_v177_apply, l1_col2, l1_mean]
  exact Ideal.subf_def _ _

theorem l1_var (r : Fin 50000) :
    val_main_v176 (F := Ideal) x0 x1 x2 x3 x4 x5 x6 x7 x8 x9 x10 x11 x12 x13 x14 x15 x16 x17 x18 x19 x20 (ix2 r (0 : Fin 1))
      = Cert.Spec.varR (fun k : Fin 128 => val_main_v161 (F := Ideal) x0 x1 x2 x3 x4 x5 x6 x7 x8 x9 x10 x11 x12 x13 x14 x15 x16 x17 x18 x19 x20 (ix2 r k)) := by
  rw [val_main_v176_apply, val_main_v174_apply, val_main_v173_apply, val_main_v175_apply, val_main_cst_22_apply,
    val_main_cst_21_apply]
  unfold Cert.Spec.varR
  simp only [val_main_v172_apply, l1_sum2, l1_dev1, Ideal.mulf_def]
  rfl

theorem v189_apply (r : Fin 50000) (q : Fin 128) :
    val_main_v189 (F := Ideal) x0 x1 x2 x3 x4 x5 x6 x7 x8 x9 x10 x11 x12 x13 x14 x15 x16 x17 x18 x19 x20 (ix2 r q)
      = Cert.Spec.convR (fun k : Fin 128 => val_main_v141 (F := Ideal) x0 x1 x2 x3 x4 x5 x6 x7 x8 x9 x10 x11 x12 x13 x14 x15 x16 x17 x18 x19 x20 (ix2 r k))
          (fun k : Fin 128 => val_main_v129 (F := Ideal) x0 x1 x2 x3 x4 x5 x6 x7 x8 x9 x10 x11 x12 x13 x14 x15 x16 x17 x18 x19 x20 (ix2 r k))
          (fun j k : Fin 128 => x15 (ix3 (1 : Fin 3) j k)) (fun k : Fin 128 => x16 (ix2 (1 : Fin 3) k))
          (fun j k : Fin 128 => x17 (ix3 (1 : Fin 3) j k)) (fun k : Fin 128 => x18 (ix2 (1 : Fin 3) k))
          (fun k : Fin 128 => x19 (ix2 (1 : Fin 3) k)) (fun k : Fin 128 => x20 (ix2 (1 : Fin 3) k)) q := by
  rw [val_main_v189_apply, val_main_v186_apply, val_main_v183_apply, val_main_v182_apply, val_main_v181_apply,
    val_main_v180_apply, val_main_v179_apply, val_main_cst_23_apply, l1_g, l1_be, l1_dev2, l1_col3, l1_var]
  unfold Cert.Spec.convR Cert.Spec.lnR
  simp only [l1_pre]
  rfl

theorem l2_w1 (j k : Fin 128) : val_main_v204 (F := Ideal) x15 (ix2 j k) = x15 (ix3 (2 : Fin 3) j k) := by
  rw [val_main_v204_apply, val_main_v203_apply]
  exact congrArg x15 (funext fun a => Fin.ext (by
    match a with
    | ⟨0, _⟩ => rfl
    | ⟨1, _⟩ => show (j.val * 128 + k.val) / 128 % 128 = j.val; omega
    | ⟨2, _⟩ => show (j.val * 128 + k.val) % 128 = k.val; omega))

theorem l2_w2 (j k : Fin 128) : val_main_v208 (F := Ideal) x17 (ix2 j k) = x17 (ix3 (2 : Fin 3) j k) := by
  rw [val_main_v208_apply, val_main_v207_apply]
  exact congrArg x17 (funext fun a => Fin.ext (by
    match a with
    | ⟨0, _⟩ => rfl
    | ⟨1, _⟩ => show (j.val * 128 + k.val) / 128 % 128 = j.val; omega
    | ⟨2, _⟩ => show (j.val * 128 + k.val) % 128 = k.val; omega))

theorem l2_b1 (r : Fin 50000) (q : Fin 128) : val_main_v213 (F := Ideal) x16 (ix2 r q) = x16 (ix2 (2 : Fin 3) q) := by
  rw [val_main_v213_apply, val_main_v212_apply, val_main_v206_apply, val_main_v205_apply]
  exact congrArg x16 (funext fun a => Fin.ext (by
    match a with
    | ⟨0, _⟩ => rfl
    | ⟨1, _⟩ => show q.val % 128 = q.val; omega))

theorem l2_b2 (r : Fin 50000) (q : Fin 128) : val_main_v218 (F := Ideal) x18 (ix2 r q) = x18 (ix2 (2 : Fin 3) q) := by
  rw [val_main_v218_apply, val_main_v217_apply, val_main_v210_apply, val_main_v209_apply]
  exact congrArg x18 (funext fun a => Fin.ext (by
    match a with
    | ⟨0, _⟩ => rfl
    | ⟨1, _⟩ => show q.val % 128 = q.val; omega))

theorem l2_g (r : Fin 50000) (q : Fin 128) : val_main_v245 (F := Ideal) x19 (ix2 r q) = x19 (ix2 (2 : Fin 3) q) := by
  rw [val_main_v245_apply, val_main_v244_apply, val_main_v223_apply, val_main_v222_apply]
  exact congrArg x19 (funext fun a => Fin.ext (by
    match a with
    | ⟨0, _⟩ => rfl
    | ⟨1, _⟩ => show q.val % 128 = q.val; omega))

theorem l2_be (r : Fin 50000) (q : Fin 128) : val_main_v248 (F := Ideal) x20 (ix2 r q) = x20 (ix2 (2 : Fin 3) q) := by
  rw [val_main_v248_apply, val_main_v247_apply, val_main_v225_apply, val_main_v224_apply]
  exact congrArg x20 (funext fun a => Fin.ext (by
    match a with
    | ⟨0, _⟩ => rfl
    | ⟨1, _⟩ => show q.val % 128 = q.val; omega))

theorem l2_lidx1 (r : Fin 50000) (q k : Fin 128) : lidx_main_v211 (ix2 r q) k = ix2 r k :=
  funext fun a => by match a with | ⟨0, _⟩ => rfl | ⟨1, _⟩ => rfl
theorem l2_ridx1 (r : Fin 50000) (q k : Fin 128) : ridx_main_v211 (ix2 r q) k = ix2 k q :=
  funext fun a => by match a with | ⟨0, _⟩ => rfl | ⟨1, _⟩ => rfl
theorem l2_lidx2 (r : Fin 50000) (q k : Fin 128) : lidx_main_v216 (ix2 r q) k = ix2 r k :=
  funext fun a => by match a with | ⟨0, _⟩ => rfl | ⟨1, _⟩ => rfl
theorem l2_ridx2 (r : Fin 50000) (q k : Fin 128) : ridx_main_v216 (ix2 r q) k = ix2 k q :=
  funext fun a => by match a with | ⟨0, _⟩ => rfl | ⟨1, _⟩ => rfl
theorem l2_sum1 (r : Fin 50000) (k : Fin 128) : idx_main_v226 (idx_main_v227 (ix2 r (0 : Fin 1))) k = ix2 r k :=
  funext fun a => by match a with | ⟨0, _⟩ => rfl | ⟨1, _⟩ => rfl
theorem l2_sum2 (r : Fin 50000) (k : Fin 128) : idx_main_v233 (idx_main_v234 (ix2 r (0 : Fin 1))) k = ix2 r k :=
  funext fun a => by match a with | ⟨0, _⟩ => rfl | ⟨1, _⟩ => rfl
theorem l2_col1 (r : Fin 50000) (q : Fin 128) : idx_main_v230 (ix2 r q) = ix2 r (0 : Fin 1) :=
  funext fun a => by match a with | ⟨0, _⟩ => rfl | ⟨1, _⟩ => rfl
theorem l2_col2 (r : Fin 50000) (q : Fin 128) : idx_main_v237 (ix2 r q) = ix2 r (0 : Fin 1) :=
  funext fun a => by match a with | ⟨0, _⟩ => rfl | ⟨1, _⟩ => rfl
theorem l2_col3 (r : Fin 50000) (q : Fin 128) : idx_main_v242 (ix2 r q) = ix2 r (0 : Fin 1) :=
  funext fun a => by match a with | ⟨0, _⟩ => rfl | ⟨1, _⟩ => rfl

theorem l2_lin1 (r : Fin 50000) (q : Fin 128) :
    val_main_v214 (F := Ideal) x0 x1 x2 x3 x4 x5 x6 x7 x8 x9 x10 x11 x12 x13 x14 x15 x16 x17 x18 x19 x20 (ix2 r q)
      = Cert.Spec.lin (fun j : Fin 128 => val_main_v202 (F := Ideal) x0 x1 x2 x3 x4 x5 x6 x7 x8 x9 x10 x11 x12 x13 x14 x15 x16 x17 x18 x19 x20 (ix2 r j))
          (fun j k : Fin 128 => x15 (ix3 (2 : Fin 3) j k)) (fun k : Fin 128 => x16 (ix2 (2 : Fin 3) k)) q := by
  rw [val_main_v214_apply, val_main_v211_apply, l2_b1]
  simp only [Cert.Spec.lin, Ideal.addf_def, l2_lidx1, l2_ridx1, l2_w1]

theorem l2_relu1 (r : Fin 50000) (q : Fin 128) :
    val_main_v215 (F := Ideal) x0 x1 x2 x3 x4 x5 x6 x7 x8 x9 x10 x11 x12 x13 x14 x15 x16 x17 x18 x19 x20 (ix2 r q)
      = max (val_main_v214 (F := Ideal) x0 x1 x2 x3 x4 x5 x6 x7 x8 x9 x10 x11 x12 x13 x14 x15 x16 x17 x18 x19 x20 (ix2 r q)) Cert.Spec.z0 := by
  rw [val_main_v215_apply, val_main_call9_v0_apply, val_main_call9_cst_apply]; rfl

theorem l2_mlp (r : Fin 50000) (q : Fin 128) :
    val_main_v219 (F := Ideal) x0 x1 x2 x3 x4 x5 x6 x7 x8 x9 x10 x11 x12 x13 x14 x15 x16 x17 x18 x19 x20 (ix2 r q)
      = Cert.Spec.mlp2 (fun j : Fin 128 => val_main_v202 (F := Ideal) x0 x1 x2 x3 x4 x5 x6 x7 x8 x9 x10 x11 x12 x13 x14 x15 x16 x17 x18 x19 x20 (ix2 r j))
          (fun j k : Fin 128 => x15 (ix3 (2 : Fin 3) j k)) (fun k : Fin 128 => x16 (ix2 (2 : Fin 3) k))
          (fun j k : Fin 128 => x17 (ix3 (2 : Fin 3) j k)) (fun k : Fin 128 => x18 (ix2 (2 : Fin 3) k)) q := by
  rw [val_main_v219_apply, val_main_v216_apply, l2_b2]
  simp only [Cert.Spec.mlp2, Cert.Spec.lin, Cert.Spec.relu, Ideal.addf_def, l2_lidx2, l2_ridx2, l2_w2, l2_relu1, l2_lin1]

theorem l2_pre (r : Fin 50000) (q : Fin 128) :
    val_main_v221 (F := Ideal) x0 x1 x2 x3 x4 x5 x6 x7 x8 x9 x10 x11 x12 x13 x14 x15 x16 x17 x18 x19 x20 (ix2 r q)
      = Cert.Spec.convPre (fun k : Fin 128 => val_main_v201 (F := Ideal) x0 x1 x2 x3 x4 x5 x6 x7 x8 x9 x10 x11 x12 x13 x14 x15 x16 x17 x18 x19 x20 (ix2 r k))
          (fun k : Fin 128 => val_main_v189 (F := Ideal) x0 x1 x2 x3 x4 x5 x6 x7 x8 x9 x10 x11 x12 x13 x14 x15 x16 x17 x18 x19 x20 (ix2 r k))
          (fun j k : Fin 128 => x15 (ix3 (2 : Fin 3) j k)) (fun k : Fin 128 => x16 (ix2 (2 : Fin 3) k))
          (fun j k : Fin 128 => x17 (ix3 (2 : Fin 3) j k)) (fun k : Fin 128 => x18 (ix2 (2 : Fin 3) k)) q := by
  rw [val_main_v221_apply, val_main_v220_apply, val_main_call10_v0_apply, val_main_call10_cst_apply, l2_mlp]
  simp only [val_main_v202_apply]
  rfl

theorem l2_mean (r : Fin 50000) :
    val_main_v229 (F := Ideal) x0 x1 x2 x3 x4 x5 x6 x7 x8 x9 x10 x11 x12 x13 x14 x15 x16 x17 x18 x19 x20 (ix2 r (0 : Fin 1))
      = Cert.Spec.meanR (fun k : Fin 128 => val_main_v221 (F := Ideal) x0 x1 x2 x3 x4 x5 x6 x7 x8 x9 x10 x11 x12 x13 x14 x15 x16 x17 x18 x19 x20 (ix2 r k)) := by
  rw [val_main_v229_apply, val_main_v227_apply, val_main_v226_apply, val_main_v228_apply, val_main_cst_28_apply,
    val_main_cst_27_apply]
  unfold Cert.Spec.meanR
  simp only [l2_sum1]
  rfl

theorem l2_dev1 (r : Fin 50000) (q : Fin 128) :
    val_main_v231 (F := Ideal) x0 x1 x2 x3 x4 x5 x6 x7 x8 x9 x10 x11 x12 x13 x14 x15 x16 x17 x18 x19 x20 (ix2 r q)
      = val_main_v221 (F := Ideal) x0 x1 x2 x3 x4 x5 x6 x7 x8 x9 x10 x11 x12 x13 x14 x15 x16 x17 x18 x19 x20 (ix2 r q)
        - Cert.Spec.meanR (fun k : Fin 128 => val_main_v221 (F := Ideal) x0 x1 x2 x3 x4 x5 x6 x7 x8 x9 x10 x11 x12 x13 x14 x15 x16 x17 x18 x19 x20 (ix2 r k)) := by
  rw [val_main_v231_apply, val_main_v230_apply, l2_col1, l2_mean]
  exact Ideal.subf_def _ _

theorem l2_dev2 (r : Fin 50000) (q : Fin 128) :
    val_main_v238 (F := Ideal) x0 x1 x2 x3 x4 x5 x6 x7 x8 x9 x10 x11 x12 x13 x14 x15 x16 x17 x18 x19 x20 (ix2 r q)
      = val_main_v221 (F := Ideal) x0 x1 x2 x3 x4 x5 x6 x7 x8 x9 x10 x11 x12 x13 x14 x15 x16 x17 x18 x19 x20 (ix2 r q)
        - Cert.Spec.meanR (fun k : Fin 128 => val_main_v221 (F := Ideal) x0 x1 x2 x3 x4 x5 x6 x7 x8 x9 x10 x11 x12 x13 x14 x15 x16 x17 x18 x19 x20 (ix2 r k)) := by
  rw [val_main_v238_apply, val_main_v237_apply, l2_col2, l2_mean]
  exact Ideal.subf_def _ _

theorem l2_var (r : Fin 50000) :
    val_main_v236 (F := Ideal) x0 x1 x2 x3 x4 x5 x6 x7 x8 x9 x10 x11 x12 x13 x14 x15 x16 x17 x18 x19 x20 (ix2 r (0 : Fin 1))
      = Cert.Spec.varR (fun k : Fin 128 => val_main_v221 (F := Ideal) x0 x1 x2 x3 x4 x5 x6 x7 x8 x9 x10 x11 x12 x13 x14 x15 x16 x17 x18 x19 x20 (ix2 r k)) := by
  rw [val_main_v236_apply, val_main_v234_apply, val_main_v233_apply, val_main_v235_apply, val_main_cst_30_apply,
    val_main_cst_29_apply]
  unfold Cert.Spec.varR
  simp only [val_main_v232_apply, l2_sum2, l2_dev1, Ideal.mulf_def]
  rfl

theorem v249_apply (r : Fin 50000) (q : Fin 128) :
    val_main_v249 (F := Ideal) x0 x1 x2 x3 x4 x5 x6 x7 x8 x9 x10 x11 x12 x13 x14 x15 x16 x17 x18 x19 x20 (ix2 r q)
      = Cert.Spec.convR (fun k : Fin 128 => val_main_v201 (F := Ideal) x0 x1 x2 x3 x4 x5 x6 x7 x8 x9 x10 x11 x12 x13 x14 x15 x16 x17 x18 x19 x20 (ix2 r k))
          (fun k : Fin 128 => val_main_v189 (F := Ideal) x0 x1 x2 x3 x4 x5 x6 x7 x8 x9 x10 x11 x12 x13 x14 x15 x16 x17 x18 x19 x20 (ix2 r k))
          (fun j k : Fin 128 => x15 (ix3 (2 : Fin 3) j k)) (fun k : Fin 128 => x16 (ix2 (2 : Fin 3) k))
          (fun j k : Fin 128 => x17 (ix3 (2 : Fin 3) j k)) (fun k : Fin 128 => x18 (ix2 (2 : Fin 3) k))
          (fun k : Fin 128 => x19 (ix2 (2 : Fin 3) k)) (fun k : Fin 128 => x20 (ix2 (2 : Fin 3) k)) q := by
  rw [val_main_v249_apply, val_main_v246_apply, val_main_v243_apply, val_main_v242_apply, val_main_v241_apply,
    val_main_v240_apply, val_main_v239_apply, val_main_cst_31_apply, l2_g, l2_be, l2_dev2, l2_col3, l2_var]
  unfold Cert.Spec.convR Cert.Spec.lnR
  simp only [l2_pre]
  rfl

variable (x21 : (⟨S128x64, .f32⟩ : BufTy).Contents (Elt Ideal)) (x22 : (⟨S64, .f32⟩ : BufTy).Contents (Elt Ideal))
  (x23 : (⟨S64x3, .f32⟩ : BufTy).Contents (Elt Ideal)) (x24 : (⟨S3, .f32⟩ : BufTy).Contents (Elt Ideal))
  (x25 : (⟨S128x64, .f32⟩ : BufTy).Contents (Elt Ideal)) (x26 : (⟨S64, .f32⟩ : BufTy).Contents (Elt Ideal))
  (x27 : (⟨S64x1, .f32⟩ : BufTy).Contents (Elt Ideal)) (x28 : (⟨S1, .f32⟩ : BufTy).Contents (Elt Ideal))

theorem hu_b1 (r : Fin 50000) (q : Fin 64) : val_main_v254 (F := Ideal) x22 (ix2 r q) = x22 (ix1 q) := by
  rw [val_main_v254_apply, val_main_v253_apply]
  exact congrArg x22 (funext fun a => by match a with | ⟨0, _⟩ => rfl)

theorem hu_b2 (r : Fin 50000) (q : Fin 3) : val_main_v259 (F := Ideal) x24 (ix2 r q) = x24 (ix1 q) := by
  rw [val_main_v259_apply, val_main_v258_apply]
  exact congrArg x24 (funext fun a => by match a with | ⟨0, _⟩ => first | rfl | exact Fin.ext (by show (0 : Nat) = q.val; omega))

theorem hu_lidx1 (r : Fin 50000) (q : Fin 64) (k : Fin 128) : lidx_main_v252 (ix2 r q) k = ix2 r k :=
  funext fun a => by match a with | ⟨0, _⟩ => rfl | ⟨1, _⟩ => rfl
theorem hu_ridx1 (r : Fin 50000) (q : Fin 64) (k : Fin 128) : ridx_main_v252 (ix2 r q) k = ix2 k q :=
  funext fun a => by match a with | ⟨0, _⟩ => rfl | ⟨1, _⟩ => rfl
theorem hu_lidx2 (r : Fin 50000) (q : Fin 3) (k : Fin 64) : lidx_main_v257 (ix2 r q) k = ix2 r k :=
  funext fun a => by match a with | ⟨0, _⟩ => rfl | ⟨1, _⟩ => rfl
theorem hu_ridx2 (r : Fin 50000) (q : Fin 3) (k : Fin 64) : ridx_main_v257 (ix2 r q) k = ix2 k q :=
  funext fun a => by match a with | ⟨0, _⟩ => rfl | ⟨1, _⟩ => rfl

theorem hu_hid (r : Fin 50000) (q : Fin 64) :
    val_main_v256 (F := Ideal) x0 x1 x2 x3 x4 x5 x6 x7 x8 x9 x10 x11 x12 x13 x14 x15 x16 x17 x18 x19 x20 x21 x22 (ix2 r q)
      = Cert.Spec.relu (Cert.Spec.lin (fun k : Fin 128 => val_main_v249 (F := Ideal) x0 x1 x2 x3 x4 x5 x6 x7 x8 x9 x10 x11 x12 x13 x14 x15 x16 x17 x18 x19 x20 (ix2 r k))
          (fun (j : Fin 128) (k : Fin 64) => x21 (ix2 j k)) (fun k : Fin 64 => x22 (ix1 k))) q := by
  rw [val_main_v256_apply, val_main_call12_v0_apply, val_main_call12_cst_apply, val_main_v255_apply,
    val_main_v252_apply, hu_b1]
  simp only [Cert.Spec.relu, Cert.Spec.lin, Ideal.maximumf_def, Ideal.addf_def, Ideal.ofBits_def, hu_lidx1, hu_ridx1]

theorem v260_apply (r : Fin 50000) (q : Fin 3) :
    val_main_v260 (F := Ideal) x0 x1 x2 x3 x4 x5 x6 x7 x8 x9 x10 x11 x12 x13 x14 x15 x16 x17 x18 x19 x20 x21 x22 x23 x24 (ix2 r q)
      = Cert.Spec.mlp2 (fun k : Fin 128 => val_main_v249 (F := Ideal) x0 x1 x2 x3 x4 x5 x6 x7 x8 x9 x10 x11 x12 x13 x14 x15 x16 x17 x18 x19 x20 (ix2 r k))
          (fun (j : Fin 128) (k : Fin 64) => x21 (ix2 j k)) (fun k : Fin 64 => x22 (ix1 k))
          (fun (j : Fin 64) (k : Fin 3) => x23 (ix2 j k)) (fun k : Fin 3 => x24 (ix1 k)) q := by
  rw [val_main_v260_apply, val_main_v257_apply, hu_b2]
  simp only [Cert.Spec.mlp2, Cert.Spec.relu, Cert.Spec.lin, Ideal.addf_def, hu_lidx2, hu_ridx2, hu_hid]

theorem hs_b1 (r : Fin 50000) (q : Fin 64) : val_main_v265 (F := Ideal) x26 (ix2 r q) = x26 (ix1 q) := by
  rw [val_main_v265_apply, val_main_v264_apply]
  exact congrArg x26 (funext fun a => by match a with | ⟨0, _⟩ => rfl)

theorem hs_b2 (r : Fin 50000) (q : Fin 1) : val_main_v270 (F := Ideal) x28 (ix2 r q) = x28 (ix1 q) := by
  rw [val_main_v270_apply, val_main_v269_apply]
  exact congrArg x28 (funext fun a => by match a with | ⟨0, _⟩ => first | rfl | exact Fin.ext (by show (0 : Nat) = q.val; omega))

theorem hs_lidx1 (r : Fin 50000) (q : Fin 64) (k : Fin 128) : lidx_main_v263 (ix2 r q) k = ix2 r k :=
  funext fun a => by match a with | ⟨0, _⟩ => rfl | ⟨1, _⟩ => rfl
theorem hs_ridx1 (r : Fin 50000) (q : Fin 64) (k : Fin 128) : ridx_main_v263 (ix2 r q) k = ix2 k q :=
  funext fun a => by match a with | ⟨0, _⟩ => rfl | ⟨1, _⟩ => rfl
theorem hs_lidx2 (r : Fin 50000) (q : Fin 1) (k : Fin 64) : lidx_main_v268 (ix2 r q) k = ix2 r k :=
  funext fun a => by match a with | ⟨0, _⟩ => rfl | ⟨1, _⟩ => rfl
theorem hs_ridx2 (r : Fin 50000) (q : Fin 1) (k : Fin 64) : ridx_main_v268 (ix2 r q) k = ix2 k q :=
  funext fun a => by match a with | ⟨0, _⟩ => rfl | ⟨1, _⟩ => rfl

theorem hs_hid (r : Fin 50000) (q : Fin 64) :
    val_main_v267 (F := Ideal) x0 x1 x2 x3 x4 x5 x6 x7 x8 x9 x10 x11 x12 x13 x14 x15 x16 x17 x18 x19 x20 x25 x26 (ix2 r q)
      = Cert.Spec.relu (Cert.Spec.lin (fun k : Fin 128 => val_main_v249 (F := Ideal) x0 x1 x2 x3 x4 x5 x6 x7 x8 x9 x10 x11 x12 x13 x14 x15 x16 x17 x18 x19 x20 (ix2 r k))
          (fun (j : Fin 128) (k : Fin 64) => x25 (ix2 j k)) (fun k : Fin 64 => x26 (ix1 k))) q := by
  rw [val_main_v267_apply, val_main_call13_v0_apply, val_main_call13_cst_apply, val_main_v266_apply,
    val_main_v263_apply, hs_b1]
  simp only [Cert.Spec.relu, Cert.Spec.lin, Ideal.maximumf_def, Ideal.addf_def, Ideal.ofBits_def, hs_lidx1, hs_ridx1]

theorem v271_apply (r : Fin 50000) (q : Fin 1) :
    val_main_v271 (F := Ideal) x0 x1 x2 x3 x4 x5 x6 x7 x8 x9 x10 x11 x12 x13 x14 x15 x16 x17 x18 x19 x20 x25 x26 x27 x28 (ix2 r q)
      = Cert.Spec.mlp2 (fun k : Fin 128 => val_main_v249 (F := Ideal) x0 x1 x2 x3 x4 x5 x6 x7 x8 x9 x10 x11 x12 x13 x14 x15 x16 x17 x18 x19 x20 (ix2 r k))
          (fun (j : Fin 128) (k : Fin 64) => x25 (ix2 j k)) (fun k : Fin 64 => x26 (ix1 k))
          (fun (j : Fin 64) (k : Fin 1) => x27 (ix2 j k)) (fun k : Fin 1 => x28 (ix1 k)) q := by
  rw [val_main_v271_apply, val_main_v268_apply, hs_b2]
  simp only [Cert.Spec.mlp2, Cert.Spec.relu, Cert.Spec.lin, Ideal.addf_def, hs_lidx2, hs_ridx2, hs_hid]

end Cert.ReferenceIdeal.RRow

end
-- ==== Proof.Glue.lean ====
import proofs.«410051_j26534307954693_2_alg».proof.Proof.Gen.KernelIdeal
import proofs.«410051_j26534307954693_2_alg».proof.Proof.PreIdx
import proofs.«410051_j26534307954693_2_alg».proof.Proof.Bridge

noncomputable section

namespace Cert.KernelIdeal.Glue

open Cert.KernelIdeal Cert.KernelIdeal.Gen Idealize.ShloMosaic Idealize.ShloMosaic.TcCoe
open Cert.KernelIdeal.PreIdx

abbrev dstCol (ei : IVec S2x600000 32) : IVec S600000x1 32 :=
  broadcastInDim S600000x1 ![0] Gen.bcast_S600000_S600000x1_0
    (shapeCast S600000 ((extractStridedSlice S1x600000 ![1, 0] · Gen.slices_S2x600000_S1x600000_1_0) ei) Gen.shapeCasts_S1x600000_S600000)

abbrev srcCol (ei : IVec S2x600000 32) : IVec S600000x1 32 :=
  broadcastInDim S600000x1 ![0] Gen.bcast_S600000_S600000x1_0 (wrapOf (srcOf ei))

abbrev msgK (H : S50000x128.Idx → EReal) (EA : S600000x128.Idx → EReal) (ei : IVec S2x600000 32) : S600000x128.Idx → EReal :=
  maximumf (addf (Host.gather gather_S50000x128_S600000x1_S600000x128_1_0_n_n_0_1_1128 H (srcCol ei)) EA)
    (broadcastInDim S600000x128 ![] Gen.bcast_S_S600000x128 (constant (F := Ideal) S_ .f32 0x00000000#32))

def aggK (H : S50000x128.Idx → EReal) (EA : S600000x128.Idx → EReal) (ei : IVec S2x600000 32) : S50000x128.Idx → EReal :=
  Host.scatterAdd scatter_S50000x128_S600000x1_S600000x128_1_0_0_1
    (broadcastInDim S50000x128 ![] Gen.bcast_S_S50000x128 (constant (F := Ideal) S_ .f32 0x00000000#32))
    (dstCol ei) (msgK H EA ei)

variable (m : Cert.Bridge.KMem) (c : Dev nD)

theorem agg0_eq : aggK (Cert.Bridge.h0 m c) (Cert.Bridge.ea m c) (Cert.Bridge.a2 m c) = Cert.Bridge.agg0 m c := rfl

theorem agg1_eq : aggK (Cert.Bridge.h1 m c) (Cert.Bridge.ea m c) (Cert.Bridge.a2 m c) = Cert.Bridge.agg1 m c := rfl

theorem agg2_eq : aggK (Cert.Bridge.h2 m c) (Cert.Bridge.ea m c) (Cert.Bridge.a2 m c) = Cert.Bridge.agg2 m c := rfl

end Cert.KernelIdeal.Glue

end
-- ==== Proof.SpecCongr.lean ====
import proofs.«410051_j26534307954693_2_alg».proof.Proof.Spec

noncomputable section

namespace Cert.Spec

theorem mlp2_congr {n k o : ℕ} {x x' : Fin n → EReal} {w1 w1' : Fin n → Fin k → EReal} {b1 b1' : Fin k → EReal}
    {w2 w2' : Fin k → Fin o → EReal} {b2 b2' : Fin o → EReal}
    (hx : x = x') (hw1 : w1 = w1') (hb1 : b1 = b1') (hw2 : w2 = w2') (hb2 : b2 = b2') :
    mlp2 x w1 b1 w2 b2 = mlp2 x' w1' b1' w2' b2' := by
  subst hx hw1 hb1 hw2 hb2; rfl

theorem convK_congr {a a' h h' b1 b1' b2 b2' g g' be be' : Fin 128 → EReal} {w1 w1' w2 w2' : Fin 128 → Fin 128 → EReal}
    (ha : a = a') (hh : h = h') (hw1 : w1 = w1') (hb1 : b1 = b1') (hw2 : w2 = w2') (hb2 : b2 = b2')
    (hg : g = g') (hbe : be = be') :
    convK a h w1 b1 w2 b2 g be = convK a' h' w1' b1' w2' b2' g' be' := by
  subst ha hh hw1 hb1 hw2 hb2 hg hbe; rfl

end Cert.Spec

end
-- ==== Proof.KFold2.lean ====
import proofs.«410051_j26534307954693_2_alg».proof.Proof.KFold

set_option maxRecDepth 16384
set_option Elab.async false

noncomputable section

namespace Cert.KernelIdeal.KFold

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

abbrev wr_hostOps3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v37]
theorem wr_hostOps3_sub : (hostOps3 : List (HloOp τ sig (Elt F))).Forall fun op => op.writes ⊆ ((wr_hostOps3).map (Proc.devRef (τ := τ) .tc)).toFinset :=
  ⟨wsub main_call2_c rfl (by decide), wsub main_call2_v0 rfl (by decide), wsub main_call2_v1 rfl (by decide), wsub main_call2_c_0 rfl (by decide), wsub main_call2_v2 rfl (by decide), wsub main_call2_v3 rfl (by decide), wsub main_call2_v4 rfl (by decide), wsub main_call2_v5 rfl (by decide), wsub main_call2_c_1 rfl (by decide), wsub main_call2_c_2 rfl (by decide), wsub main_call2_v6 rfl (by decide), wsub main_call2_v7 rfl (by decide), wsub main_call2_v8 rfl (by decide), wsub main_call2_v9 rfl (by decide), wsub main_call2_v10 rfl (by decide), wsub main_call2_v11 rfl (by decide), wsub main_call2_c_3 rfl (by decide), wsub main_call2_v12 rfl (by decide), wsub main_call2_v13 rfl (by decide), wsub main_call2_v14 rfl (by decide), wsub main_call2_cst rfl (by decide), wsub main_call2_v15 rfl (by decide), wsub main_v37 rfl (by decide)⟩
theorem keep10 {r : Ref sig .tc} (hr : r ∉ wr_hostOps3) : W10 m ρ c (Proc.devRef .tc r) = W9 m ρ c (Proc.devRef .tc r) :=
  StableHlo.after_of_writes_sub hostOps3 _ wr_hostOps3_sub hr
abbrev wr_hostOps3_1 : List (Ref sig .tc) := [main_v38]
theorem wr_hostOps3_1_sub : (hostOps3_1 : List (HloOp τ sig (Elt F))).Forall fun op => op.writes ⊆ ((wr_hostOps3_1).map (Proc.devRef (τ := τ) .tc)).toFinset :=
  wsub main_v38 rfl (by decide)
theorem keep11 {r : Ref sig .tc} (hr : r ∉ wr_hostOps3_1) : W11 m ρ c (Proc.devRef .tc r) = W10 m ρ c (Proc.devRef .tc r) :=
  StableHlo.after_of_writes_sub hostOps3_1 _ wr_hostOps3_1_sub hr
abbrev wr_hostOps3_2 : List (Ref sig .tc) := [main_call3_cst, main_call3_v0, main_v39]
theorem wr_hostOps3_2_sub : (hostOps3_2 : List (HloOp τ sig (Elt F))).Forall fun op => op.writes ⊆ ((wr_hostOps3_2).map (Proc.devRef (τ := τ) .tc)).toFinset :=
  ⟨wsub main_call3_cst rfl (by decide), wsub main_call3_v0 rfl (by decide), wsub main_v39 rfl (by decide)⟩
theorem keep12 {r : Ref sig .tc} (hr : r ∉ wr_hostOps3_2) : W12 m ρ c (Proc.devRef .tc r) = W11 m ρ c (Proc.devRef .tc r) :=
  StableHlo.after_of_writes_sub hostOps3_2 _ wr_hostOps3_2_sub hr
abbrev wr_hostOps3_3 : List (Ref sig .tc) := [main_cst_0, main_v40, main_v41, main_v42, main_v43, main_v44, main_v45, main_v46, main_v47, main_v48, main_v49, main_v50, main_v51, main_v52, main_v53, main_v54, main_v55, main_v56, main_v57, main_v58]
theorem wr_hostOps3_3_sub : (hostOps3_3 : List (HloOp τ sig (Elt F))).Forall fun op => op.writes ⊆ ((wr_hostOps3_3).map (Proc.devRef (τ := τ) .tc)).toFinset :=
  ⟨wsub main_cst_0 rfl (by decide), wsub main_v40 rfl (by decide), wsub main_v41 rfl (by decide), wsub main_v42 rfl (by decide), wsub main_v43 rfl (by decide), wsub main_v44 rfl (by decide), wsub main_v45 rfl (by decide), wsub main_v46 rfl (by decide), wsub main_v47 rfl (by decide), wsub main_v48 rfl (by decide), wsub main_v49 rfl (by decide), wsub main_v50 rfl (by decide), wsub main_v51 rfl (by decide), wsub main_v52 rfl (by decide), wsub main_v53 rfl (by decide), wsub main_v54 rfl (by decide), wsub main_v55 rfl (by decide), wsub main_v56 rfl (by decide), wsub main_v57 rfl (by decide), wsub main_v58 rfl (by decide)⟩
theorem keep13 {r : Ref sig .tc} (hr : r ∉ wr_hostOps3_3) : W13 m ρ c (Proc.devRef .tc r) = W12 m ρ c (Proc.devRef .tc r) :=
  StableHlo.after_of_writes_sub hostOps3_3 _ wr_hostOps3_3_sub hr
abbrev wr_hostOps4 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v60]
theorem wr_hostOps4_sub : (hostOps4 : List (HloOp τ sig (Elt F))).Forall fun op => op.writes ⊆ ((wr_hostOps4).map (Proc.devRef (τ := τ) .tc)).toFinset :=
  ⟨wsub main_call4_c rfl (by decide), wsub main_call4_v0 rfl (by decide), wsub main_call4_v1 rfl (by decide), wsub main_call4_c_0 rfl (by decide), wsub main_call4_v2 rfl (by decide), wsub main_call4_v3 rfl (by decide), wsub main_call4_v4 rfl (by decide), wsub main_call4_v5 rfl (by decide), wsub main_call4_c_1 rfl (by decide), wsub main_call4_c_2 rfl (by decide), wsub main_call4_v6 rfl (by decide), wsub main_call4_v7 rfl (by decide), wsub main_call4_v8 rfl (by decide), wsub main_call4_v9 rfl (by decide), wsub main_call4_v10 rfl (by decide), wsub main_call4_v11 rfl (by decide), wsub main_call4_c_3 rfl (by decide), wsub main_call4_v12 rfl (by decide), wsub main_call4_v13 rfl (by decide), wsub main_call4_v14 rfl (by decide), wsub main_call4_cst rfl (by decide), wsub main_call4_v15 rfl (by decide), wsub main_v60 rfl (by decide)⟩
theorem keep15 {r : Ref sig .tc} (hr : r ∉ wr_hostOps4) : W15 m ρ c (Proc.devRef .tc r) = W14 m ρ c (Proc.devRef .tc r) :=
  StableHlo.after_of_writes_sub hostOps4 _ wr_hostOps4_sub hr
abbrev wr_hostOps4_1 : List (Ref sig .tc) := [main_v61]
theorem wr_hostOps4_1_sub : (hostOps4_1 : List (HloOp τ sig (Elt F))).Forall fun op => op.writes ⊆ ((wr_hostOps4_1).map (Proc.devRef (τ := τ) .tc)).toFinset :=
  wsub main_v61 rfl (by decide)
theorem keep16 {r : Ref sig .tc} (hr : r ∉ wr_hostOps4_1) : W16 m ρ c (Proc.devRef .tc r) = W15 m ρ c (Proc.devRef .tc r) :=
  StableHlo.after_of_writes_sub hostOps4_1 _ wr_hostOps4_1_sub hr
abbrev wr_hostOps4_2 : List (Ref sig .tc) := [main_call5_cst, main_call5_v0, main_v62]
theorem wr_hostOps4_2_sub : (hostOps4_2 : List (HloOp τ sig (Elt F))).Forall fun op => op.writes ⊆ ((wr_hostOps4_2).map (Proc.devRef (τ := τ) .tc)).toFinset :=
  ⟨wsub main_call5_cst rfl (by decide), wsub main_call5_v0 rfl (by decide), wsub main_v62 rfl (by decide)⟩
theorem keep17 {r : Ref sig .tc} (hr : r ∉ wr_hostOps4_2) : W17 m ρ c (Proc.devRef .tc r) = W16 m ρ c (Proc.devRef .tc r) :=
  StableHlo.after_of_writes_sub hostOps4_2 _ wr_hostOps4_2_sub hr
abbrev wr_hostOps4_3 : List (Ref sig .tc) := [main_cst_1, main_v63, main_v64, main_v65, main_v66, main_v67, main_v68, main_v69, main_v70, main_v71, main_v72, main_v73, main_v74, main_v75, main_v76, main_v77, main_v78, main_v79, main_v80, main_v81, main_v82, main_v83, main_v84, main_v85]
theorem wr_hostOps4_3_sub : (hostOps4_3 : List (HloOp τ sig (Elt F))).Forall fun op => op.writes ⊆ ((wr_hostOps4_3).map (Proc.devRef (τ := τ) .tc)).toFinset :=
  ⟨wsub main_cst_1 rfl (by decide), wsub main_v63 rfl (by decide), wsub main_v64 rfl (by decide), wsub main_v65 rfl (by decide), wsub main_v66 rfl (by decide), wsub main_v67 rfl (by decide), wsub main_v68 rfl (by decide), wsub main_v69 rfl (by decide), wsub main_v70 rfl (by decide), wsub main_v71 rfl (by decide), wsub main_v72 rfl (by decide), wsub main_v73 rfl (by decide), wsub main_v74 rfl (by decide), wsub main_v75 rfl (by decide), wsub main_v76 rfl (by decide), wsub main_v77 rfl (by decide), wsub main_v78 rfl (by decide), wsub main_v79 rfl (by decide), wsub main_v80 rfl (by decide), wsub main_v81 rfl (by decide), wsub main_v82 rfl (by decide), wsub main_v83 rfl (by decide), wsub main_v84 rfl (by decide), wsub main_v85 rfl (by decide)⟩
theorem keep18 {r : Ref sig .tc} (hr : r ∉ wr_hostOps4_3) : W18 m ρ c (Proc.devRef .tc r) = W17 m ρ c (Proc.devRef .tc r) :=
  StableHlo.after_of_writes_sub hostOps4_3 _ wr_hostOps4_3_sub hr
theorem W9_arg (r : Ref sig .tc) (hr : r ∈ argsB) : W9 m ρ c (Proc.devRef .tc r) = m ((c : Thread nD τ).loc r) :=
  (W9_of_ne m ρ c r ((by decide : ∀ r ∈ argsB, ∀ w, Pipeline.arrRef spec2 w ≠ r) r hr)).trans (W8_arg m ρ c r hr)
theorem W10_arg (r : Ref sig .tc) (hr : r ∈ argsB) : W10 m ρ c (Proc.devRef .tc r) = m ((c : Thread nD τ).loc r) :=
  (keep10 m ρ c ((by decide : ∀ r ∈ argsB, r ∉ wr_hostOps3) r hr)).trans (W9_arg m ρ c r hr)
theorem W11_arg (r : Ref sig .tc) (hr : r ∈ argsB) : W11 m ρ c (Proc.devRef .tc r) = m ((c : Thread nD τ).loc r) :=
  (keep11 m ρ c ((by decide : ∀ r ∈ argsB, r ∉ wr_hostOps3_1) r hr)).trans (W10_arg m ρ c r hr)
theorem W12_arg (r : Ref sig .tc) (hr : r ∈ argsB) : W12 m ρ c (Proc.devRef .tc r) = m ((c : Thread nD τ).loc r) :=
  (keep12 m ρ c ((by decide : ∀ r ∈ argsB, r ∉ wr_hostOps3_2) r hr)).trans (W11_arg m ρ c r hr)
theorem W13_arg (r : Ref sig .tc) (hr : r ∈ argsB) : W13 m ρ c (Proc.devRef .tc r) = m ((c : Thread nD τ).loc r) :=
  (keep13 m ρ c ((by decide : ∀ r ∈ argsB, r ∉ wr_hostOps3_3) r hr)).trans (W12_arg m ρ c r hr)
theorem W14_arg (r : Ref sig .tc) (hr : r ∈ argsB) : W14 m ρ c (Proc.devRef .tc r) = m ((c : Thread nD τ).loc r) :=
  (W14_of_ne m ρ c r ((by decide : ∀ r ∈ argsB, ∀ w, Pipeline.arrRef spec3 w ≠ r) r hr)).trans (W13_arg m ρ c r hr)
theorem W15_arg (r : Ref sig .tc) (hr : r ∈ argsB) : W15 m ρ c (Proc.devRef .tc r) = m ((c : Thread nD τ).loc r) :=
  (keep15 m ρ c ((by decide : ∀ r ∈ argsB, r ∉ wr_hostOps4) r hr)).trans (W14_arg m ρ c r hr)
theorem W16_arg (r : Ref sig .tc) (hr : r ∈ argsB) : W16 m ρ c (Proc.devRef .tc r) = m ((c : Thread nD τ).loc r) :=
  (keep16 m ρ c ((by decide : ∀ r ∈ argsB, r ∉ wr_hostOps4_1) r hr)).trans (W15_arg m ρ c r hr)
theorem W17_arg (r : Ref sig .tc) (hr : r ∈ argsB) : W17 m ρ c (Proc.devRef .tc r) = m ((c : Thread nD τ).loc r) :=
  (keep17 m ρ c ((by decide : ∀ r ∈ argsB, r ∉ wr_hostOps4_2) r hr)).trans (W16_arg m ρ c r hr)
theorem W18_arg (r : Ref sig .tc) (hr : r ∈ argsB) : W18 m ρ c (Proc.devRef .tc r) = m ((c : Thread nD τ).loc r) :=
  (keep18 m ρ c ((by decide : ∀ r ∈ argsB, r ∉ wr_hostOps4_3) r hr)).trans (W17_arg m ρ c r hr)

theorem W9_src : W9 m ρ c (Proc.devRef .tc main_v1) = srcRow m c :=
  ((W9_of_ne m ρ c main_v1 (by decide)).trans <| (keep8 m ρ c (r := main_v1) (by decide)).trans <| (keep7 m ρ c (r := main_v1) (by decide)).trans <| (keep6 m ρ c (r := main_v1) (by decide)).trans <| (keep5 m ρ c (r := main_v1) (by decide))).trans (W4_src m ρ c)
theorem W12_dst : W12 m ρ c (Proc.devRef .tc main_v3) = dstRow m c :=
  ((keep12 m ρ c (r := main_v3) (by decide)).trans <| (keep11 m ρ c (r := main_v3) (by decide)).trans <| (keep10 m ρ c (r := main_v3) (by decide)).trans <| (W9_of_ne m ρ c main_v3 (by decide)).trans <| (keep8 m ρ c (r := main_v3) (by decide))).trans (W7_dst m ρ c)
theorem W10_ea : W10 m ρ c (Proc.devRef .tc main_v13) = (dat1 (V3 m ρ) c).arrAt 7 cfg1.N :=
  ((keep10 m ρ c (r := main_v13) (by decide)).trans <| (W9_of_ne m ρ c main_v13 (by decide)).trans <| (keep8 m ρ c (r := main_v13) (by decide)).trans <| (keep7 m ρ c (r := main_v13) (by decide)).trans <| (keep6 m ρ c (r := main_v13) (by decide)).trans <| (keep5 m ρ c (r := main_v13) (by decide))).trans (W4_arr m ρ c 7)
theorem W9_h : W9 m ρ c (Proc.devRef .tc main_v36) = (dat2 (V8 m ρ) c).arrAt 8 cfg2.N :=
  W9_arr m ρ c 8
set_option maxHeartbeats 1000000 in
theorem take_1 : W10 m ρ c (Proc.devRef .tc main_v37) = takeOf (W9 m ρ c (Proc.devRef .tc main_v36)) (W9 m ρ c (Proc.devRef .tc main_v1)) := by
  show StableHlo.after hostOps3 (W9 m ρ c) (Proc.devRef .tc main_v37) = _
  generalize W9 m ρ c = V
  after_results
  all_goals (try simp only [cast_cast, cast_eq])
  all_goals rfl
theorem msg_1 : W12 m ρ c (Proc.devRef .tc main_v39) = maximumf (addf (W10 m ρ c (Proc.devRef .tc main_v37) : (⟨S600000x128, .f32⟩ : BufTy).Contents (Elt F)) (W10 m ρ c (Proc.devRef .tc main_v13))) (broadcastInDim S600000x128 ![] bcast_S_S600000x128 (constant S_ .f32 0x00000000#32)) := by
  show StableHlo.after hostOps3_2 (StableHlo.after hostOps3_1 (W10 m ρ c)) (Proc.devRef .tc main_v39) = _
  generalize W10 m ρ c = V
  after_results <;> rfl
theorem agg_1 : W13 m ρ c (Proc.devRef .tc main_v42) = Host.scatterAdd scatter_S50000x128_S600000x1_S600000x128_1_0_0_1 (broadcastInDim S50000x128 ![] bcast_S_S50000x128 (constant S_ .f32 0x00000000#32))
    (broadcastInDim S600000x1 ![0] bcast_S600000_S600000x1_0 (W12 m ρ c (Proc.devRef .tc main_v3) : (⟨S600000, .i32⟩ : BufTy).Contents (Elt F))) (W12 m ρ c (Proc.devRef .tc main_v39)) := by
  show StableHlo.after hostOps3_3 (W12 m ρ c) (Proc.devRef .tc main_v42) = _
  generalize W12 m ρ c = V
  after_results <;> rfl
theorem in_3_0 : V13 m ρ c (Pipeline.arrRef spec3 0) = aggOf ((dat2 (V8 m ρ) c).arrAt 8 cfg2.N) ((dat1 (V3 m ρ) c).arrAt 7 cfg1.N) (srcRow m c) (dstRow m c) := by
  show W13 m ρ c (Proc.devRef .tc main_v42) = _
  rw [agg_1, msg_1, take_1, W12_dst, W10_ea, W9_h, W9_src]
theorem in_3_1 : V13 m ρ c (Pipeline.arrRef spec3 1) = (dat2 (V8 m ρ) c).arrAt 8 cfg2.N :=
  ((keep13 m ρ c (r := main_v36) (by decide)).trans <| (keep12 m ρ c (r := main_v36) (by decide)).trans <| (keep11 m ρ c (r := main_v36) (by decide)).trans <| (keep10 m ρ c (r := main_v36) (by decide))).trans (W9_h m ρ c)
theorem in_3_2 : V13 m ρ c (Pipeline.arrRef spec3 2) = shapeCast S128x128 (extractStridedSlice S1x128x128 ![1, 0, 0] (m ((c : Thread nD τ).loc main_arg15) : (⟨S3x128x128, .f32⟩ : BufTy).Contents (Elt F)) slices_S3x128x128_S1x128x128_1_0_0) shapeCasts_S1x128x128_S128x128 := by
  rw [← W12_arg m ρ c main_arg15 (by decide)]
  show StableHlo.after hostOps3_3 (W12 m ρ c) (Proc.devRef .tc main_v44) = _
  generalize W12 m ρ c = V
  after_results <;> rfl
theorem in_3_3 : V13 m ρ c (Pipeline.arrRef spec3 3) = shapeCast S1x128 (shapeCast S128 (extractStridedSlice S1x128 ![1, 0] (m ((c : Thread nD τ).loc main_arg16) : (⟨S3x128, .f32⟩ : BufTy).Contents (Elt F)) slices_S3x128_S1x128_1_0) shapeCasts_S1x128_S128) shapeCasts_S128_S1x128 := by
  rw [← W12_arg m ρ c main_arg16 (by decide)]
  show StableHlo.after hostOps3_3 (W12 m ρ c) (Proc.devRef .tc main_v55) = _
  generalize W12 m ρ c = V
  after_results <;> rfl
theorem in_3_4 : V13 m ρ c (Pipeline.arrRef spec3 4) = shapeCast S128x128 (extractStridedSlice S1x128x128 ![1, 0, 0] (m ((c : Thread nD τ).loc main_arg17) : (⟨S3x128x128, .f32⟩ : BufTy).Contents (Elt F)) slices_S3x128x128_S1x128x128_1_0_0) shapeCasts_S1x128x128_S128x128 := by
  rw [← W12_arg m ρ c main_arg17 (by decide)]
  show StableHlo.after hostOps3_3 (W12 m ρ c) (Proc.devRef .tc main_v48) = _
  generalize W12 m ρ c = V
  after_results <;> rfl
theorem in_3_5 : V13 m ρ c (Pipeline.arrRef spec3 5) = shapeCast S1x128 (shapeCast S128 (extractStridedSlice S1x128 ![1, 0] (m ((c : Thread nD τ).loc main_arg18) : (⟨S3x128, .f32⟩ : BufTy).Contents (Elt F)) slices_S3x128_S1x128_1_0) shapeCasts_S1x128_S128) shapeCasts_S128_S1x128 := by
  rw [← W12_arg m ρ c main_arg18 (by decide)]
  show StableHlo.after hostOps3_3 (W12 m ρ c) (Proc.devRef .tc main_v56) = _
  generalize W12 m ρ c = V
  after_results <;> rfl
theorem in_3_6 : V13 m ρ c (Pipeline.arrRef spec3 6) = shapeCast S1x128 (shapeCast S128 (extractStridedSlice S1x128 ![1, 0] (m ((c : Thread nD τ).loc main_arg19) : (⟨S3x128, .f32⟩ : BufTy).Contents (Elt F)) slices_S3x128_S1x128_1_0) shapeCasts_S1x128_S128) shapeCasts_S128_S1x128 := by
  rw [← W12_arg m ρ c main_arg19 (by decide)]
  show StableHlo.after hostOps3_3 (W12 m ρ c) (Proc.devRef .tc main_v57) = _
  generalize W12 m ρ c = V
  after_results <;> rfl
theorem in_3_7 : V13 m ρ c (Pipeline.arrRef spec3 7) = shapeCast S1x128 (shapeCast S128 (extractStridedSlice S1x128 ![1, 0] (m ((c : Thread nD τ).loc main_arg20) : (⟨S3x128, .f32⟩ : BufTy).Contents (Elt F)) slices_S3x128_S1x128_1_0) shapeCasts_S1x128_S128) shapeCasts_S128_S1x128 := by
  rw [← W12_arg m ρ c main_arg20 (by decide)]
  show StableHlo.after hostOps3_3 (W12 m ρ c) (Proc.devRef .tc main_v58) = _
  generalize W12 m ρ c = V
  after_results <;> rfl

theorem W14_src : W14 m ρ c (Proc.devRef .tc main_v1) = srcRow m c :=
  ((W14_of_ne m ρ c main_v1 (by decide)).trans <| (keep13 m ρ c (r := main_v1) (by decide)).trans <| (keep12 m ρ c (r := main_v1) (by decide)).trans <| (keep11 m ρ c (r := main_v1) (by decide)).trans <| (keep10 m ρ c (r := main_v1) (by decide))).trans (W9_src m ρ c)
theorem W17_dst : W17 m ρ c (Proc.devRef .tc main_v3) = dstRow m c :=
  ((keep17 m ρ c (r := main_v3) (by decide)).trans <| (keep16 m ρ c (r := main_v3) (by decide)).trans <| (keep15 m ρ c (r := main_v3) (by decide)).trans <| (W14_of_ne m ρ c main_v3 (by decide)).trans <| (keep13 m ρ c (r := main_v3) (by decide))).trans (W12_dst m ρ c)
theorem W15_ea : W15 m ρ c (Proc.devRef .tc main_v13) = (dat1 (V3 m ρ) c).arrAt 7 cfg1.N :=
  ((keep15 m ρ c (r := main_v13) (by decide)).trans <| (W14_of_ne m ρ c main_v13 (by decide)).trans <| (keep13 m ρ c (r := main_v13) (by decide)).trans <| (keep12 m ρ c (r := main_v13) (by decide)).trans <| (keep11 m ρ c (r := main_v13) (by decide)).trans <| (keep10 m ρ c (r := main_v13) (by decide)).trans <| (W9_of_ne m ρ c main_v13 (by decide)).trans <| (keep8 m ρ c (r := main_v13) (by decide)).trans <| (keep7 m ρ c (r := main_v13) (by decide)).trans <| (keep6 m ρ c (r := main_v13) (by decide)).trans <| (keep5 m ρ c (r := main_v13) (by decide))).trans (W4_arr m ρ c 7)
theorem W14_h : W14 m ρ c (Proc.devRef .tc main_v59) = (dat3 (V13 m ρ) c).arrAt 8 cfg3.N :=
  W14_arr m ρ c 8
set_option maxHeartbeats 1000000 in
theorem take_2 : W15 m ρ c (Proc.devRef .tc main_v60) = takeOf (W14 m ρ c (Proc.devRef .tc main_v59)) (W14 m ρ c (Proc.devRef .tc main_v1)) := by
  show StableHlo.after hostOps4 (W14 m ρ c) (Proc.devRef .tc main_v60) = _
  generalize W14 m ρ c = V
  after_results
  all_goals (try simp only [cast_cast, cast_eq])
  all_goals rfl
theorem msg_2 : W17 m ρ c (Proc.devRef .tc main_v62) = maximumf (addf (W15 m ρ c (Proc.devRef .tc main_v60) : (⟨S600000x128, .f32⟩ : BufTy).Contents (Elt F)) (W15 m ρ c (Proc.devRef .tc main_v13))) (broadcastInDim S600000x128 ![] bcast_S_S600000x128 (constant S_ .f32 0x00000000#32)) := by
  show StableHlo.after hostOps4_2 (StableHlo.after hostOps4_1 (W15 m ρ c)) (Proc.devRef .tc main_v62) = _
  generalize W15 m ρ c = V
  after_results <;> rfl
theorem agg_2 : W18 m ρ c (Proc.devRef .tc main_v65) = Host.scatterAdd scatter_S50000x128_S600000x1_S600000x128_1_0_0_1 (broadcastInDim S50000x128 ![] bcast_S_S50000x128 (constant S_ .f32 0x00000000#32))
    (broadcastInDim S600000x1 ![0] bcast_S600000_S600000x1_0 (W17 m ρ c (Proc.devRef .tc main_v3) : (⟨S600000, .i32⟩ : BufTy).Contents (Elt F))) (W17 m ρ c (Proc.devRef .tc main_v62)) := by
  show StableHlo.after hostOps4_3 (W17 m ρ c) (Proc.devRef .tc main_v65) = _
  generalize W17 m ρ c = V
  after_results <;> rfl
theorem in_4_0 : V18 m ρ c (Pipeline.arrRef spec4 0) = aggOf ((dat3 (V13 m ρ) c).arrAt 8 cfg3.N) ((dat1 (V3 m ρ) c).arrAt 7 cfg1.N) (srcRow m c) (dstRow m c) := by
  show W18 m ρ c (Proc.devRef .tc main_v65) = _
  rw [agg_2, msg_2, take_2, W17_dst, W15_ea, W14_h, W14_src]
theorem in_4_1 : V18 m ρ c (Pipeline.arrRef spec4 1) = (dat3 (V13 m ρ) c).arrAt 8 cfg3.N :=
  ((keep18 m ρ c (r := main_v59) (by decide)).trans <| (keep17 m ρ c (r := main_v59) (by decide)).trans <| (keep16 m ρ c (r := main_v59) (by decide)).trans <| (keep15 m ρ c (r := main_v59) (by decide))).trans (W14_h m ρ c)
theorem in_4_2 : V18 m ρ c (Pipeline.arrRef spec4 2) = shapeCast S128x128 (extractStridedSlice S1x128x128 ![2, 0, 0] (m ((c : Thread nD τ).loc main_arg15) : (⟨S3x128x128, .f32⟩ : BufTy).Contents (Elt F)) slices_S3x128x128_S1x128x128_2_0_0) shapeCasts_S1x128x128_S128x128 := by
  rw [← W17_arg m ρ c main_arg15 (by decide)]
  show StableHlo.after hostOps4_3 (W17 m ρ c) (Proc.devRef .tc main_v67) = _
  generalize W17 m ρ c = V
  after_results <;> rfl
theorem in_4_3 : V18 m ρ c (Pipeline.arrRef spec4 3) = shapeCast S1x128 (shapeCast S128 (extractStridedSlice S1x128 ![2, 0] (m ((c : Thread nD τ).loc main_arg16) : (⟨S3x128, .f32⟩ : BufTy).Contents (Elt F)) slices_S3x128_S1x128_2_0) shapeCasts_S1x128_S128) shapeCasts_S128_S1x128 := by
  rw [← W17_arg m ρ c main_arg16 (by decide)]
  show StableHlo.after hostOps4_3 (W17 m ρ c) (Proc.devRef .tc main_v78) = _
  generalize W17 m ρ c = V
  after_results <;> rfl
theorem in_4_4 : V18 m ρ c (Pipeline.arrRef spec4 4) = shapeCast S128x128 (extractStridedSlice S1x128x128 ![2, 0, 0] (m ((c : Thread nD τ).loc main_arg17) : (⟨S3x128x128, .f32⟩ : BufTy).Contents (Elt F)) slices_S3x128x128_S1x128x128_2_0_0) shapeCasts_S1x128x128_S128x128 := by
  rw [← W17_arg m ρ c main_arg17 (by decide)]
  show StableHlo.after hostOps4_3 (W17 m ρ c) (Proc.devRef .tc main_v71) = _
  generalize W17 m ρ c = V
  after_results <;> rfl
theorem in_4_5 : V18 m ρ c (Pipeline.arrRef spec4 5) = shapeCast S1x128 (shapeCast S128 (extractStridedSlice S1x128 ![2, 0] (m ((c : Thread nD τ).loc main_arg18) : (⟨S3x128, .f32⟩ : BufTy).Contents (Elt F)) slices_S3x128_S1x128_2_0) shapeCasts_S1x128_S128) shapeCasts_S128_S1x128 := by
  rw [← W17_arg m ρ c main_arg18 (by decide)]
  show StableHlo.after hostOps4_3 (W17 m ρ c) (Proc.devRef .tc main_v79) = _
  generalize W17 m ρ c = V
  after_results <;> rfl
theorem in_4_6 : V18 m ρ c (Pipeline.arrRef spec4 6) = shapeCast S1x128 (shapeCast S128 (extractStridedSlice S1x128 ![2, 0] (m ((c : Thread nD τ).loc main_arg19) : (⟨S3x128, .f32⟩ : BufTy).Contents (Elt F)) slices_S3x128_S1x128_2_0) shapeCasts_S1x128_S128) shapeCasts_S128_S1x128 := by
  rw [← W17_arg m ρ c main_arg19 (by decide)]
  show StableHlo.after hostOps4_3 (W17 m ρ c) (Proc.devRef .tc main_v80) = _
  generalize W17 m ρ c = V
  after_results <;> rfl
theorem in_4_7 : V18 m ρ c (Pipeline.arrRef spec4 7) = shapeCast S1x128 (shapeCast S128 (extractStridedSlice S1x128 ![2, 0] (m ((c : Thread nD τ).loc main_arg20) : (⟨S3x128, .f32⟩ : BufTy).Contents (Elt F)) slices_S3x128_S1x128_2_0) shapeCasts_S1x128_S128) shapeCasts_S128_S1x128 := by
  rw [← W17_arg m ρ c main_arg20 (by decide)]
  show StableHlo.after hostOps4_3 (W17 m ρ c) (Proc.devRef .tc main_v81) = _
  generalize W17 m ρ c = V
  after_results <;> rfl
theorem in_4_8 : V18 m ρ c (Pipeline.arrRef spec4 8) = m ((c : Thread nD τ).loc main_arg21) :=
  W18_arg m ρ c main_arg21 (by decide)
theorem in_4_9 : V18 m ρ c (Pipeline.arrRef spec4 9) = shapeCast S1x64 (m ((c : Thread nD τ).loc main_arg22)) shapeCasts_S64_S1x64 := by
  rw [← W17_arg m ρ c main_arg22 (by decide)]
  show StableHlo.after hostOps4_3 (W17 m ρ c) (Proc.devRef .tc main_v82) = _
  generalize W17 m ρ c = V
  after_results <;> rfl
theorem in_4_10 : V18 m ρ c (Pipeline.arrRef spec4 10) = m ((c : Thread nD τ).loc main_arg23) :=
  W18_arg m ρ c main_arg23 (by decide)
theorem in_4_11 : V18 m ρ c (Pipeline.arrRef spec4 11) = shapeCast S1x3 (m ((c : Thread nD τ).loc main_arg24)) shapeCasts_S3_S1x3 := by
  rw [← W17_arg m ρ c main_arg24 (by decide)]
  show StableHlo.after hostOps4_3 (W17 m ρ c) (Proc.devRef .tc main_v83) = _
  generalize W17 m ρ c = V
  after_results <;> rfl
theorem in_4_12 : V18 m ρ c (Pipeline.arrRef spec4 12) = m ((c : Thread nD τ).loc main_arg25) :=
  W18_arg m ρ c main_arg25 (by decide)
theorem in_4_13 : V18 m ρ c (Pipeline.arrRef spec4 13) = shapeCast S1x64 (m ((c : Thread nD τ).loc main_arg26)) shapeCasts_S64_S1x64 := by
  rw [← W17_arg m ρ c main_arg26 (by decide)]
  show StableHlo.after hostOps4_3 (W17 m ρ c) (Proc.devRef .tc main_v84) = _
  generalize W17 m ρ c = V
  after_results <;> rfl
theorem in_4_14 : V18 m ρ c (Pipeline.arrRef spec4 14) = m ((c : Thread nD τ).loc main_arg27) :=
  W18_arg m ρ c main_arg27 (by decide)
theorem in_4_15 : V18 m ρ c (Pipeline.arrRef spec4 15) = shapeCast S1x1 (m ((c : Thread nD τ).loc main_arg28)) shapeCasts_S1_S1x1 := by
  rw [← W17_arg m ρ c main_arg28 (by decide)]
  show StableHlo.after hostOps4_3 (W17 m ρ c) (Proc.devRef .tc main_v85) = _
  generalize W17 m ρ c = V
  after_results <;> rfl

abbrev softplusOf (x : (⟨S_, .f32⟩ : BufTy).Contents (Elt F)) : (⟨S_, .f32⟩ : BufTy).Contents (Elt F) :=
  select (cmpf .une (subf x (constant S_ .f32 0x00000000#32)) (subf x (constant S_ .f32 0x00000000#32))) (addf x (constant S_ .f32 0x00000000#32))
    (addf (maximumf x (constant S_ .f32 0x00000000#32)) (Host.log1p (Host.exp (Host.negf (Host.absf (subf x (constant S_ .f32 0x00000000#32)))))))
abbrev scaleOf (x : (⟨S_, .f32⟩ : BufTy).Contents (Elt F)) : (⟨S_, .f32⟩ : BufTy).Contents (Elt F) :=
  addf (constant S_ .f32 0x3A83126F#32) (softplusOf x)
abbrev clipOf (y : (⟨S50000x1, .f32⟩ : BufTy).Contents (Elt F)) : (⟨S50000x1, .f32⟩ : BufTy).Contents (Elt F) :=
  minimumf (broadcastInDim S50000x1 ![] bcast_S_S50000x1 (constant S_ .f32 0x41F00000#32))
    (maximumf (broadcastInDim S50000x1 ![] bcast_S_S50000x1 (constant S_ .f32 0x00000000#32)) y)
abbrev scaledOf (x : (⟨S50000x3, .f32⟩ : BufTy).Contents (Elt F)) (a : (⟨S_, .f32⟩ : BufTy).Contents (Elt F)) : (⟨S50000x3, .f32⟩ : BufTy).Contents (Elt F) :=
  mulf x (broadcastInDim S50000x3 ![] bcast_S_S50000x3 (scaleOf a))
abbrev quotOf (y : (⟨S50000x1, .f32⟩ : BufTy).Contents (Elt F)) : (⟨S50000x1, .f32⟩ : BufTy).Contents (Elt F) :=
  Host.divf (broadcastInDim S50000x1 ![] bcast_S_S50000x1 (constant S_ .f32 0x4D6E6B28#32))
    (addf (Host.exp (clipOf y)) (broadcastInDim S50000x1 ![] bcast_S_S50000x1 (constant S_ .f32 0x322BCC77#32)))

theorem W19_arg29 : W19 m ρ c (Proc.devRef .tc main_arg29) = m ((c : Thread nD τ).loc main_arg29) :=
  (W19_of_ne m ρ c main_arg29 (by decide)).trans (W18_arg m ρ c main_arg29 (by decide))
set_option maxHeartbeats 1000000 in
theorem res_v88 : W23 m ρ c (Proc.devRef .tc main_v88) = scaleOf (m ((c : Thread nD τ).loc main_arg29)) := by
  rw [← W19_arg29 m ρ c]
  show StableHlo.after hostOps5_3 (StableHlo.after hostOps5_2 (StableHlo.after hostOps5_1 (StableHlo.after hostOps5 (W19 m ρ c)))) (Proc.devRef .tc main_v88) = _
  generalize W19 m ρ c = V
  after_results
  all_goals (try simp only [cast_cast, cast_eq])
  all_goals rfl
set_option maxHeartbeats 1000000 in
theorem res_v90 : W23 m ρ c (Proc.devRef .tc main_v90) = scaledOf ((dat4 (V18 m ρ) c).arrAt 16 cfg4.N) (m ((c : Thread nD τ).loc main_arg29)) := by
  rw [← W19_arg29 m ρ c, ← W19_arr m ρ c 16]
  show StableHlo.after hostOps5_3 (StableHlo.after hostOps5_2 (StableHlo.after hostOps5_1 (StableHlo.after hostOps5 (W19 m ρ c)))) (Proc.devRef .tc main_v90) = _
  generalize W19 m ρ c = V
  after_results
  all_goals (try simp only [cast_cast, cast_eq])
  all_goals rfl
set_option maxHeartbeats 1000000 in
theorem res_v91 : W23 m ρ c (Proc.devRef .tc main_v91) = clipOf ((dat4 (V18 m ρ) c).arrAt 17 cfg4.N) := by
  rw [← W19_arr m ρ c 17]
  show StableHlo.after hostOps5_3 (StableHlo.after hostOps5_2 (StableHlo.after hostOps5_1 (StableHlo.after hostOps5 (W19 m ρ c)))) (Proc.devRef .tc main_v91) = _
  generalize W19 m ρ c = V
  after_results
  all_goals (try simp only [cast_cast, cast_eq])
  all_goals rfl
set_option maxHeartbeats 1000000 in
theorem res_v92 : W23 m ρ c (Proc.devRef .tc main_v92) = Host.exp (clipOf ((dat4 (V18 m ρ) c).arrAt 17 cfg4.N)) := by
  rw [← W19_arr m ρ c 17]
  show StableHlo.after hostOps5_3 (StableHlo.after hostOps5_2 (StableHlo.after hostOps5_1 (StableHlo.after hostOps5 (W19 m ρ c)))) (Proc.devRef .tc main_v92) = _
  generalize W19 m ρ c = V
  after_results
  all_goals (try simp only [cast_cast, cast_eq])
  all_goals rfl
set_option maxHeartbeats 1000000 in
theorem res_v96 : W23 m ρ c (Proc.devRef .tc main_v96) = quotOf ((dat4 (V18 m ρ) c).arrAt 17 cfg4.N) := by
  rw [← W19_arr m ρ c 17]
  show StableHlo.after hostOps5_3 (StableHlo.after hostOps5_2 (StableHlo.after hostOps5_1 (StableHlo.after hostOps5 (W19 m ρ c)))) (Proc.devRef .tc main_v96) = _
  generalize W19 m ρ c = V
  after_results
  all_goals (try simp only [cast_cast, cast_eq])
  all_goals rfl

end Cert.KernelIdeal.KFold

end
-- ==== Proof.KVal2.lean ====
import proofs.«410051_j26534307954693_2_alg».proof.Proof.KVal1
import proofs.«410051_j26534307954693_2_alg».proof.Proof.KReg2
import proofs.«410051_j26534307954693_2_alg».proof.Proof.KReg3
import proofs.«410051_j26534307954693_2_alg».proof.Proof.RRowConv
import proofs.«410051_j26534307954693_2_alg».proof.Proof.Glue
import proofs.«410051_j26534307954693_2_alg».proof.Proof.PreIdx
import proofs.«410051_j26534307954693_2_alg».proof.Proof.SpecCongr
import proofs.«410051_j26534307954693_2_alg».proof.Proof.KFold2

noncomputable section

namespace Cert.KernelIdeal.KVal

open Cert.KernelIdeal Cert.KernelIdeal.Gen Idealize.ShloMosaic Idealize.ShloMosaic.TcCoe Idealize.ShloMosaic.ValueIdx
open Idealize.SL.Sem

variable (m : Cert.Bridge.KMem) (ρ : Dev nD → PrngReg) (c : Dev nD)

theorem aggOf_eq (H : S50000x128.Idx → EReal) (EA : S600000x128.Idx → EReal) (hr : ∀ e : Fin 600000, 0 ≤ (Cert.Bridge.a2 m c (ix2 (0 : Fin 2) e)).toInt ∧ (Cert.Bridge.a2 m c (ix2 (0 : Fin 2) e)).toInt < 50000) :
    KFold.aggOf H EA (KFold.srcRow m c) (KFold.dstRow m c) = Glue.aggK H EA (Cert.Bridge.a2 m c) := by
  unfold KFold.aggOf KFold.msgOf KFold.takeOf Glue.aggK
  rw [PreIdx.select_of_all_one _ (fun i => PreIdx.mask14_one (Cert.Bridge.a2 m c) hr i)]

theorem agg0K (hr : ∀ e : Fin 600000, 0 ≤ (Cert.Bridge.a2 m c (ix2 (0 : Fin 2) e)).toInt ∧ (Cert.Bridge.a2 m c (ix2 (0 : Fin 2) e)).toInt < 50000) :
    V8 m ρ c (Pipeline.arrRef spec2 0) = Cert.Bridge.agg0 m c :=
  (KFold.in_2_0 m ρ c).trans (((aggOf_eq m c _ _ hr).trans
    (congrArg₂ (fun H EA => Glue.aggK H EA (Cert.Bridge.a2 m c)) (h0K m ρ c) (eaK m ρ c))).trans (Glue.agg0_eq m c))

set_option maxHeartbeats 2000000 in
theorem h1K (hr : ∀ e : Fin 600000, 0 ≤ (Cert.Bridge.a2 m c (ix2 (0 : Fin 2) e)).toInt ∧ (Cert.Bridge.a2 m c (ix2 (0 : Fin 2) e)).toInt < 50000) :
    (dat2 (F := Ideal) (V8 m ρ) c).arrAt 8 cfg2.N = Cert.Bridge.h1 m c := by
  refine funext fun (i : S50000x128.Idx) => ?_
  obtain ⟨r, q, rfl⟩ : ∃ (r : Fin 50000) (q : Fin 128), i = ix2 r q := ⟨i 0, i 1, eq_ix2 i⟩
  refine (KReg2.final_apply (V8 m ρ) c r q).trans ?_
  unfold Cert.Bridge.h1
  rw [Cert.ReferenceIdeal.RRow.v129_apply, ← Cert.Spec.convK_eq_convR]
  refine congrFun (Cert.Spec.convK_congr ?_ ?_ ?_ ?_ ?_ ?_ ?_ ?_) q
  · funext k; exact congrFun (agg0K m ρ c hr) (ix2 r k)
  · funext k; exact (congrFun (KFold.in_2_1 m ρ c) (ix2 r k)).trans (congrFun (h0K m ρ c) (ix2 r k))
  · funext j k; exact (congrFun (KFold.in_2_2 m ρ c) (ix2 j k)).trans (KLayout.slab 0 (by decide) _ _ j k)
  · funext k; exact (congrFun (KFold.in_2_3 m ρ c) (ix2 (0 : Fin 1) k)).trans (KLayout.stackRow 0 (by decide) _ _ k)
  · funext j k; exact (congrFun (KFold.in_2_4 m ρ c) (ix2 j k)).trans (KLayout.slab 0 (by decide) _ _ j k)
  · funext k; exact (congrFun (KFold.in_2_5 m ρ c) (ix2 (0 : Fin 1) k)).trans (KLayout.stackRow 0 (by decide) _ _ k)
  · funext k; exact (congrFun (KFold.in_2_6 m ρ c) (ix2 (0 : Fin 1) k)).trans (KLayout.stackRow 0 (by decide) _ _ k)
  · funext k; exact (congrFun (KFold.in_2_7 m ρ c) (ix2 (0 : Fin 1) k)).trans (KLayout.stackRow 0 (by decide) _ _ k)

theorem agg1K (hr : ∀ e : Fin 600000, 0 ≤ (Cert.Bridge.a2 m c (ix2 (0 : Fin 2) e)).toInt ∧ (Cert.Bridge.a2 m c (ix2 (0 : Fin 2) e)).toInt < 50000) :
    V13 m ρ c (Pipeline.arrRef spec3 0) = Cert.Bridge.agg1 m c :=
  (KFold.in_3_0 m ρ c).trans (((aggOf_eq m c _ _ hr).trans
    (congrArg₂ (fun H EA => Glue.aggK H EA (Cert.Bridge.a2 m c)) (h1K m ρ c hr) (eaK m ρ c))).trans (Glue.agg1_eq m c))

set_option maxHeartbeats 2000000 in
theorem h2K (hr : ∀ e : Fin 600000, 0 ≤ (Cert.Bridge.a2 m c (ix2 (0 : Fin 2) e)).toInt ∧ (Cert.Bridge.a2 m c (ix2 (0 : Fin 2) e)).toInt < 50000) :
    (dat3 (F := Ideal) (V13 m ρ) c).arrAt 8 cfg3.N = Cert.Bridge.h2 m c := by
  refine funext fun (i : S50000x128.Idx) => ?_
  obtain ⟨r, q, rfl⟩ : ∃ (r : Fin 50000) (q : Fin 128), i = ix2 r q := ⟨i 0, i 1, eq_ix2 i⟩
  refine (KReg3.final_apply (V13 m ρ) c r q).trans ?_
  unfold Cert.Bridge.h2
  rw [Cert.ReferenceIdeal.RRow.v189_apply, ← Cert.Spec.convK_eq_convR]
  refine congrFun (Cert.Spec.convK_congr ?_ ?_ ?_ ?_ ?_ ?_ ?_ ?_) q
  · funext k; exact congrFun (agg1K m ρ c hr) (ix2 r k)
  · funext k; exact (congrFun (KFold.in_3_1 m ρ c) (ix2 r k)).trans (congrFun (h1K m ρ c hr) (ix2 r k))
  · funext j k; exact (congrFun (KFold.in_3_2 m ρ c) (ix2 j k)).trans (KLayout.slab 1 (by decide) _ _ j k)
  · funext k; exact (congrFun (KFold.in_3_3 m ρ c) (ix2 (0 : Fin 1) k)).trans (KLayout.stackRow 1 (by decide) _ _ k)
  · funext j k; exact (congrFun (KFold.in_3_4 m ρ c) (ix2 j k)).trans (KLayout.slab 1 (by decide) _ _ j k)
  · funext k; exact (congrFun (KFold.in_3_5 m ρ c) (ix2 (0 : Fin 1) k)).trans (KLayout.stackRow 1 (by decide) _ _ k)
  · funext k; exact (congrFun (KFold.in_3_6 m ρ c) (ix2 (0 : Fin 1) k)).trans (KLayout.stackRow 1 (by decide) _ _ k)
  · funext k; exact (congrFun (KFold.in_3_7 m ρ c) (ix2 (0 : Fin 1) k)).trans (KLayout.stackRow 1 (by decide) _ _ k)

end Cert.KernelIdeal.KVal

end
-- ==== Proof.KReg4Blk.lean ====
import proofs.«410051_j26534307954693_2_alg».proof.Proof.Gen.KernelIdeal.Frame
import proofs.«410051_j26534307954693_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KReg4

open Cert.KernelIdeal Cert.KernelIdeal.Gen Idealize.ShloMosaic Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Layout

theorem laneSum_apply (src : FVec Ideal S5000x128 .f32) (hacc : (0x00000000#32 : BitVec 32) = 0x00000000#32) (p : Fin 5000) :
    multiReduction .add [1] S5000 src 0x00000000#32 reduces_S5000x128_S5000 (.inl rfl) hacc (ix1 p)
      = ∑ k : Fin 128, src (ix2 p k) := by
  refine (Ideal.multiReduction_add_single src 0x00000000#32 reduces_S5000x128_S5000 (.inl rfl) hacc (ix1 p)).trans ?_
  refine Finset.sum_congr rfl fun k _ => congrArg src ?_
  funext c
  apply Fin.ext
  rw [Shape.Reduces.lift_val]
  match c with
  | ⟨0, _⟩ => rfl
  | ⟨1, _⟩ => rfl

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
theorem mmA_apply (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

theorem lhsB_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsB_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsB_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsB_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
theorem mmB_apply (l : FVec Ideal S5000x128 .f32) (r : FVec Ideal S128x64 .f32) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhsB_0 _ _).trans hk
    | ⟨1, _⟩ => exact rhsB_1 _ _)
  rw [el, er]

theorem lhsC_0 (i : S5000x3.Idx) (q : dot_S5000x64_S64x3_S5000x3_1_0_0_1_n_n.contr.Idx) :
    (dot_S5000x64_S64x3_S5000x3_1_0_0_1_n_n.lhsIdx i q 0).val = (i 0).val := by
  unfold DotDims.lhsIdx
  rw [dif_neg (show ¬(0 : Fin S5000x64.rank) ∈ dot_S5000x64_S64x3_S5000x3_1_0_0_1_n_n.lhsBatch by decide), dif_pos (show (0 : Fin S5000x64.rank) ∈ dot_S5000x64_S64x3_S5000x3_1_0_0_1_n_n.lhsNonContracting by decide)]
  rfl
theorem lhsC_1 (i : S5000x3.Idx) (q : dot_S5000x64_S64x3_S5000x3_1_0_0_1_n_n.contr.Idx) :
    (dot_S5000x64_S64x3_S5000x3_1_0_0_1_n_n.lhsIdx i q 1).val = (q ⟨0, by decide⟩).val :=
  dot_S5000x64_S64x3_S5000x3_1_0_0_1_n_n.lhsIdx_val_of_single rfl i q
theorem rhsC_0 (i : S5000x3.Idx) (q : dot_S5000x64_S64x3_S5000x3_1_0_0_1_n_n.contr.Idx) :
    (dot_S5000x64_S64x3_S5000x3_1_0_0_1_n_n.rhsIdx i q 0).val = (q ⟨0, by decide⟩).val :=
  dot_S5000x64_S64x3_S5000x3_1_0_0_1_n_n.rhsIdx_val_of_single rfl i q
theorem rhsC_1 (i : S5000x3.Idx) (q : dot_S5000x64_S64x3_S5000x3_1_0_0_1_n_n.contr.Idx) :
    (dot_S5000x64_S64x3_S5000x3_1_0_0_1_n_n.rhsIdx i q 1).val = (i 1).val := by
  unfold DotDims.rhsIdx
  rw [dif_neg (show ¬(1 : Fin S64x3.rank) ∈ dot_S5000x64_S64x3_S5000x3_1_0_0_1_n_n.rhsBatch by decide), dif_pos (show (1 : Fin S64x3.rank) ∈ dot_S5000x64_S64x3_S5000x3_1_0_0_1_n_n.rhsNonContracting by decide)]
  rfl
theorem mmC_apply (l : FVec Ideal S5000x64 .f32) (r : FVec Ideal S64x3 .f32) (p : Fin 5000) (q : Fin 3) :
    matmul dot_S5000x64_S64x3_S5000x3_1_0_0_1_n_n none l r (constant (F := Ideal) S5000x3 .f32 0x00000000#32) (ix2 p q)
      = ∑ k : Fin 64, l (ix2 p k) * r (ix2 k q) := by
  refine (Ideal.matmul_constant_zero_apply dot_S5000x64_S64x3_S5000x3_1_0_0_1_n_n none l r (ix2 p q)).trans ?_
  rw [← Equiv.sum_comp (ValueIdx.contrEquiv1 dot_S5000x64_S64x3_S5000x3_1_0_0_1_n_n 64 rfl rfl).symm]
  refine Finset.sum_congr rfl fun k _ => ?_
  have hk := ValueIdx.contrEquiv1_symm_val dot_S5000x64_S64x3_S5000x3_1_0_0_1_n_n 64 rfl rfl k
  have el : dot_S5000x64_S64x3_S5000x3_1_0_0_1_n_n.lhsIdx (ix2 p q) ((ValueIdx.contrEquiv1 dot_S5000x64_S64x3_S5000x3_1_0_0_1_n_n 64 rfl rfl).symm k) = ix2 p k := funext fun a => Fin.ext (by
    match a with
    | ⟨0, _⟩ => exact lhsC_0 _ _
    | ⟨1, _⟩ => exact (lhsC_1 _ _).trans hk)
  have er : dot_S5000x64_S64x3_S5000x3_1_0_0_1_n_n.rhsIdx (ix2 p q) ((ValueIdx.contrEquiv1 dot_S5000x64_S64x3_S5000x3_1_0_0_1_n_n 64 rfl rfl).symm k) = ix2 k q := funext fun a => Fin.ext (by
    match a with
    | ⟨0, _⟩ => exact (rhsC_0 _ _).trans hk
    | ⟨1, _⟩ => exact rhsC_1 _ _)
  rw [el, er]

theorem lhsD_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhsD_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rhsD_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhsD_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl
theorem mmD_apply (l : FVec Ideal S5000x64 .f32) (r : FVec Ideal S64x1 .f32) (p : Fin 5000) (q : Fin 1) :
    matmul dot_S5000x64_S64x1_S5000x1_1_0_0_1_n_n none l r (constant (F := Ideal) S5000x1 .f32 0x00000000#32) (ix2 p q)
      = ∑ k : Fin 64, l (ix2 p k) * r (ix2 k q) := by
  refine (Ideal.matmul_constant_zero_apply dot_S5000x64_S64x1_S5000x1_1_0_0_1_n_n none l r (ix2 p q)).trans ?_
  rw [← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 p q) ((ValueIdx.contrEquiv1 dot_S5000x64_S64x1_S5000x1_1_0_0_1_n_n 64 rfl rfl).symm k) = ix2 p k := funext fun a => Fin.ext (by
    match a with
    | ⟨0, _⟩ => exact lhsD_0 _ _
    | ⟨1, _⟩ => exact (lhsD_1 _ _).trans hk)
  have er : dot_S5000x64_S64x1_S5000x1_1_0_0_1_n_n.rhsIdx (ix2 p q) ((ValueIdx.contrEquiv1 dot_S5000x64_S64x1_S5000x1_1_0_0_1_n_n 64 rfl rfl).symm k) = ix2 k q := funext fun a => Fin.ext (by
    match a with
    | ⟨0, _⟩ => exact (rhsD_0 _ _).trans hk
    | ⟨1, _⟩ => exact rhsD_1 _ _)
  rw [el, er]

theorem pay2_apply (v0 v2 : Vec Ideal S5000x128 .f32) (v5 : Vec Ideal S128x128 .f32) (v8 : Vec Ideal S1x128 .f32)
    (v14 : Vec Ideal S128x128 .f32) (v17 : Vec Ideal S1x128 .f32) (v21 : Vec Ideal S5000x128 .f32) (p : Fin 5000) (q : Fin 128) :
    k4_pay2 (F := Ideal) v0 v2 v5 v8 v14 v17 v21 (ix2 p q)
      = v21 (ix2 p q) + max (Cert.Spec.mlp2 (fun j : Fin 128 => v0 (ix2 p j) + v2 (ix2 p j)) (fun (j k : Fin 128) => v5 (ix2 j k))
          (fun k : Fin 128 => v8 (ix2 (0 : Fin 1) k)) (fun (j k : Fin 128) => v14 (ix2 j k)) (fun k : Fin 128 => v17 (ix2 (0 : Fin 1) k)) q) Cert.Spec.z0 := by
  unfold k4_pay2
  simp only [shapeCast_self, addf_apply, maximumf_apply, broadcast_apply, mmA_apply, broadcastTo_1b_ab_apply]
  rfl

theorem rsqrt_apply {s : Shape} (x : FVec Ideal s .f32) (i : s.Idx) : rsqrt x i = Ideal.rsqrt (x i) := rfl

theorem pay3_apply (v0 v2 : Vec Ideal S5000x128 .f32) (v5 : Vec Ideal S128x128 .f32) (v8 : Vec Ideal S1x128 .f32)
    (v14 : Vec Ideal S128x128 .f32) (v17 : Vec Ideal S1x128 .f32) (v21 : Vec Ideal S5000x128 .f32) (p : Fin 5000) (u : Fin 1) :
    k4_pay3 (F := Ideal) v0 v2 v5 v8 v14 v17 v21 (ix2 p u)
      = Ideal.div (∑ k : Fin 128, k4_pay2 (F := Ideal) v0 v2 v5 v8 v14 v17 v21 (ix2 p k)) Cert.Spec.c128 := by
  unfold k4_pay3
  simp only [divf_apply, broadcast_apply, shapeCast_a_a1_apply]
  exact congrArg (fun s => Ideal.div s Cert.Spec.c128) (laneSum_apply _ _ p)

theorem pay4_apply (v0 v2 : Vec Ideal S5000x128 .f32) (v5 : Vec Ideal S128x128 .f32) (v8 : Vec Ideal S1x128 .f32)
    (v14 : Vec Ideal S128x128 .f32) (v17 : Vec Ideal S1x128 .f32) (v21 : Vec Ideal S5000x128 .f32) (p : Fin 5000) (u : Fin 1) :
    k4_pay4 (F := Ideal) v0 v2 v5 v8 v14 v17 v21 (ix2 p u)
      = Ideal.div (∑ k : Fin 128, (k4_pay2 (F := Ideal) v0 v2 v5 v8 v14 v17 v21 (ix2 p k) - k4_pay3 (F := Ideal) v0 v2 v5 v8 v14 v17 v21 (ix2 p (0 : Fin 1)))
          * (k4_pay2 (F := Ideal) v0 v2 v5 v8 v14 v17 v21 (ix2 p k) - k4_pay3 (F := Ideal) v0 v2 v5 v8 v14 v17 v21 (ix2 p (0 : Fin 1)))) Cert.Spec.c128 := by
  unfold k4_pay4
  simp only [divf_apply, broadcast_apply, shapeCast_a_a1_apply]
  refine (congrArg (fun s => Ideal.div s Cert.Spec.c128) (laneSum_apply _ _ p)).trans ?_
  simp only [mulf_apply, subf_apply, broadcastTo_a1_ab_apply]

theorem pay5_apply (v25 : FVec Ideal S5000x128 .f32) (v29 v36 : FVec Ideal S5000x1 .f32) (v44 v48 : Vec Ideal S1x128 .f32) (p : Fin 5000) (q : Fin 128) :
    k4_pay5 (F := Ideal) v25 v29 v36 v44 v48 (ix2 p q)
      = (v25 (ix2 p q) - v29 (ix2 p (0 : Fin 1))) * Ideal.rsqrt (v36 (ix2 p (0 : Fin 1)) + Cert.Spec.eps) * v44 (ix2 (0 : Fin 1) q)
          + v48 (ix2 (0 : Fin 1) q) := by
  unfold k4_pay5
  simp only [shapeCast_self, addf_apply, mulf_apply, subf_apply, broadcast_apply, broadcastTo_1b_ab_apply, broadcastTo_a1_ab_apply, rsqrt_apply]
  rfl

theorem pay6_apply (v25 : FVec Ideal S5000x128 .f32) (v29 v36 : FVec Ideal S5000x1 .f32) (v44 v48 : Vec Ideal S1x128 .f32) (v52 : Vec Ideal S128x64 .f32) (v54 : Vec Ideal S1x64 .f32) (v60 : Vec Ideal S64x3 .f32)
    (v62 : Vec Ideal S1x3 .f32) (p : Fin 5000) (q : Fin 3) :
    k4_pay6 (F := Ideal) v25 v29 v36 v44 v48 v52 v54 v60 v62 (ix2 p q)
      = Cert.Spec.mlp2 (fun k : Fin 128 => k4_pay5 (F := Ideal) v25 v29 v36 v44 v48 (ix2 p k)) (fun (j : Fin 128) (k : Fin 64) => v52 (ix2 j k))
          (fun k : Fin 64 => v54 (ix2 (0 : Fin 1) k)) (fun (j : Fin 64) (k : Fin 3) => v60 (ix2 j k)) (fun k : Fin 3 => v62 (ix2 (0 : Fin 1) k)) q := by
  unfold k4_pay6
  simp only [shapeCast_self, addf_apply, maximumf_apply, broadcast_apply, mmB_apply, mmC_apply, broadcastTo_1b_ab_apply]
  rfl

theorem pay7_apply (v25 : FVec Ideal S5000x128 .f32) (v29 v36 : FVec Ideal S5000x1 .f32) (v44 v48 : Vec Ideal S1x128 .f32) (v67 : Vec Ideal S128x64 .f32) (v69 : Vec Ideal S1x64 .f32) (p : Fin 5000) (q : Fin 64) :
    k4_pay7 (F := Ideal) v25 v29 v36 v44 v48 v67 v69 (ix2 p q)
      = Cert.Spec.lin (fun k : Fin 128 => k4_pay5 (F := Ideal) v25 v29 v36 v44 v48 (ix2 p k)) (fun (j : Fin 128) (k : Fin 64) => v67 (ix2 j k))
          (fun k : Fin 64 => v69 (ix2 (0 : Fin 1) k)) q := by
  unfold k4_pay7
  simp only [shapeCast_self, addf_apply, mmB_apply, broadcastTo_1b_ab_apply]
  rfl

theorem pay1_apply (v72 : FVec Ideal S5000x64 .f32) (v75 : Vec Ideal S64x1 .f32) (v77 : Vec Ideal S1x1 .f32) (p : Fin 5000) (q : Fin 1) :
    k4_pay1 (F := Ideal) v72 v75 v77 (ix2 p q)
      = Cert.Spec.lin (Cert.Spec.relu (fun k : Fin 64 => v72 (ix2 p k))) (fun (j : Fin 64) (k : Fin 1) => v75 (ix2 j k))
          (fun k : Fin 1 => v77 (ix2 (0 : Fin 1) k)) q := by
  unfold k4_pay1
  simp only [shapeCast_self, addf_apply, maximumf_apply, broadcast_apply, mmD_apply, broadcastTo_1b_ab_apply]
  rfl

theorem hz : (![0, 0] : Fin 2 → Nat) = fun _ => 0 := funext fun a => by fin_cases a <;> rfl

abbrev hnBlk (x0 x1 : Vec Ideal S5000x128 .f32) (x2 : Vec Ideal S128x128 .f32) (x3 : Vec Ideal S1x128 .f32)
    (x4 : Vec Ideal S128x128 .f32) (x5 x6 x7 : Vec Ideal S1x128 .f32) (p : Fin 5000) : Fin 128 → EReal :=
  Cert.Spec.convK (fun k : Fin 128 => x0 (ix2 p k)) (fun k : Fin 128 => x1 (ix2 p k)) (fun (j k : Fin 128) => x2 (ix2 j k))
    (fun k : Fin 128 => x3 (ix2 (0 : Fin 1) k)) (fun (j k : Fin 128) => x4 (ix2 j k)) (fun k : Fin 128 => x5 (ix2 (0 : Fin 1) k))
    (fun k : Fin 128 => x6 (ix2 (0 : Fin 1) k)) (fun k : Fin 128 => x7 (ix2 (0 : Fin 1) k))

theorem hn_apply (x0 x1 : Vec Ideal S5000x128 .f32) (x2 : Vec Ideal S128x128 .f32) (x3 : Vec Ideal S1x128 .f32)
    (x4 : Vec Ideal S128x128 .f32) (x5 x6 x7 : Vec Ideal S1x128 .f32) (p : Fin 5000) (q : Fin 128) :
    k4_pay5 (F := Ideal) (k4_pay2 (F := Ideal) x0 x1 x2 x3 x4 x5 x1) (k4_pay3 (F := Ideal) x0 x1 x2 x3 x4 x5 x1) (k4_pay4 (F := Ideal) x0 x1 x2 x3 x4 x5 x1) x6 x7 (ix2 p q)
      = hnBlk x0 x1 x2 x3 x4 x5 x6 x7 p q := by
  rw [pay5_apply, pay4_apply, pay3_apply]
  simp only [pay2_apply]
  rfl

theorem out16_apply (x0 x1 : Vec Ideal S5000x128 .f32) (x2 : Vec Ideal S128x128 .f32) (x3 : Vec Ideal S1x128 .f32)
    (x4 : Vec Ideal S128x128 .f32) (x5 x6 x7 : Vec Ideal S1x128 .f32)
    (x8 : Vec Ideal S128x64 .f32) (x9 : Vec Ideal S1x64 .f32) (x10 : Vec Ideal S64x3 .f32) (x11 : Vec Ideal S1x3 .f32)
    (x12 : Vec Ideal S128x64 .f32) (x13 : Vec Ideal S1x64 .f32) (x14 : Vec Ideal S64x1 .f32) (x15 : Vec Ideal S1x1 .f32) (p : Fin 5000) (q : Fin 3) :
    out4_16 (F := Ideal) x0 x1 x2 x3 x4 x5 x6 x7 x8 x9 x10 x11 x12 x13 x14 x15 (ix2 p q)
      = Cert.Spec.mlp2 (hnBlk x0 x1 x2 x3 x4 x5 x6 x7 p) (fun (j : Fin 128) (k : Fin 64) => x8 (ix2 j k)) (fun k : Fin 64 => x9 (ix2 (0 : Fin 1) k))
          (fun (j : Fin 64) (k : Fin 3) => x10 (ix2 j k)) (fun k : Fin 3 => x11 (ix2 (0 : Fin 1) k)) q := by
  unfold out4_16
  rw [View.canon_unit_zero hz]
  simp only [View.ld_unit_zero (S := S5000x128) hz, View.ld_unit_zero (S := S128x128) hz, View.ld_unit_zero (S := S1x128) hz,
    View.ld_unit_zero (S := S128x64) hz, View.ld_unit_zero (S := S1x64) hz, View.ld_unit_zero (S := S64x3) hz,
    View.ld_unit_zero (S := S1x3) hz]
  rw [pay6_apply]
  simp only [hn_apply]

theorem out17_apply (x0 x1 : Vec Ideal S5000x128 .f32) (x2 : Vec Ideal S128x128 .f32) (x3 : Vec Ideal S1x128 .f32)
    (x4 : Vec Ideal S128x128 .f32) (x5 x6 x7 : Vec Ideal S1x128 .f32)
    (x8 : Vec Ideal S128x64 .f32) (x9 : Vec Ideal S1x64 .f32) (x10 : Vec Ideal S64x3 .f32) (x11 : Vec Ideal S1x3 .f32)
    (x12 : Vec Ideal S128x64 .f32) (x13 : Vec Ideal S1x64 .f32) (x14 : Vec Ideal S64x1 .f32) (x15 : Vec Ideal S1x1 .f32) (p : Fin 5000) (q : Fin 1) :
    out4_17 (F := Ideal) x0 x1 x2 x3 x4 x5 x6 x7 x8 x9 x10 x11 x12 x13 x14 x15 (ix2 p q)
      = Cert.Spec.mlp2 (hnBlk x0 x1 x2 x3 x4 x5 x6 x7 p) (fun (j : Fin 128) (k : Fin 64) => x12 (ix2 j k)) (fun k : Fin 64 => x13 (ix2 (0 : Fin 1) k))
          (fun (j : Fin 64) (k : Fin 1) => x14 (ix2 j k)) (fun k : Fin 1 => x15 (ix2 (0 : Fin 1) k)) q := by
  unfold out4_17
  rw [View.canon_unit_zero hz]
  simp only [View.ld_unit_zero (S := S5000x128) hz, View.ld_unit_zero (S := S128x128) hz, View.ld_unit_zero (S := S1x128) hz,
    View.ld_unit_zero (S := S128x64) hz, View.ld_unit_zero (S := S1x64) hz, View.ld_unit_zero (S := S64x1) hz,
    View.ld_unit_zero (S := S1x1) hz]
  rw [pay1_apply]
  simp only [pay7_apply, hn_apply]
  rfl

end Cert.KernelIdeal.KReg4

end
-- ==== Proof.KReg4.lean ====
import proofs.«410051_j26534307954693_2_alg».proof.Proof.KReg4Blk
import proofs.«410051_j26534307954693_2_alg».proof.Proof.Gen.KernelIdeal.Frame
import proofs.«410051_j26534307954693_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KReg4

open Cert.KernelIdeal Cert.KernelIdeal.Gen Idealize.ShloMosaic Idealize.ShloMosaic.ValueIdx
open Idealize.ShloMosaic.TcCoe
open Idealize.ShloMosaic.Pipeline (Dat)

section Arrays

variable (V : (c : Dev nD) → (b : Ref sig .tc) → Buf (Elt Ideal) ((c : Thread nD τ).loc b))

theorem idx_rows : ∀ t : Fin cfg4.N, win4_0.index t (0 : Fin 2) = t.val ∧ win4_0.index t (1 : Fin 2) = 0
    ∧ win4_1.index t (0 : Fin 2) = t.val ∧ win4_1.index t (1 : Fin 2) = 0
    ∧ win4_16.index t (0 : Fin 2) = t.val ∧ win4_16.index t (1 : Fin 2) = 0
    ∧ win4_17.index t (0 : Fin 2) = t.val ∧ win4_17.index t (1 : Fin 2) = 0 :=
  (by decide +kernel : ∀ t : Fin grid4.N, _)

theorem idx_whole : ∀ t : Fin cfg4.N, win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = 0 ∧ win4_11.index t (1 : Fin 2) = 0
    ∧ win4_12.index t (0 : Fin 2) = 0 ∧ win4_12.index t (1 : Fin 2) = 0
    ∧ win4_13.index t (0 : Fin 2) = 0 ∧ win4_13.index t (1 : Fin 2) = 0
    ∧ win4_14.index t (0 : Fin 2) = 0 ∧ win4_14.index t (1 : Fin 2) = 0
    ∧ win4_15.index t (0 : Fin 2) = 0 ∧ win4_15.index t (1 : Fin 2) = 0 :=
  (by decide +kernel : ∀ t : Fin grid4.N, _)

theorem idx_onto : ∀ q0 : Fin 10, ∃ t : Fin cfg4.N, win4_16.index t = ![q0.val, 0] ∧ win4_17.index t = ![q0.val, 0] :=
  (by decide +kernel : ∀ q0 : Fin 10, ∃ t : Fin grid4.N, win4_16.index t = ![q0.val, 0] ∧ win4_17.index t = ![q0.val, 0])

theorem grid_points : cfg4.N = 10 := rfl

abbrev rowOf (t : Fin cfg4.N) (p : Fin 5000) : Fin 50000 :=
  ⟨t.val * 5000 + p.val, by have h : t.val < 10 := t.isLt; omega⟩

theorem iblk0_apply (c : Dev nD) (t : Fin cfg4.N) (p : Fin 5000) (k : Fin 128) :
    iblk4 V c 0 t (ix2 p k) = V c (Pipeline.arrRef spec4 0) (ix2 (rowOf t p) k) := by
  obtain ⟨e0, e1, -⟩ := idx_rows t
  show V c (Pipeline.arrRef spec4 0) (((cfg4.win 0).blk t).view.emb (ix2 p k)) = _
  refine congrArg _ (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

theorem iblk1_apply (c : Dev nD) (t : Fin cfg4.N) (p : Fin 5000) (k : Fin 128) :
    iblk4 V c 1 t (ix2 p k) = V c (Pipeline.arrRef spec4 1) (ix2 (rowOf t p) k) := by
  obtain ⟨-, -, e0, e1, -⟩ := idx_rows t
  show V c (Pipeline.arrRef spec4 1) (((cfg4.win 1).blk t).view.emb (ix2 p k)) = _
  refine congrArg _ (funext fun a => Fin.ext ?_)
  match a with
  | ⟨0, _⟩ => show win4_1.index t (0 : Fin 2) * 5000 + 1 * p.val = t.val * 5000 + p.val; rw [e0]; omega
  | ⟨1, _⟩ => show win4_1.index t (1 : Fin 2) * 128 + 1 * k.val = k.val; rw [e1]; omega

theorem iblk2_apply (c : Dev nD) (t : Fin cfg4.N) (j : Fin 128) (k : Fin 128) :
    iblk4 V c 2 t (ix2 j k) = V c (Pipeline.arrRef spec4 2) (ix2 j k) := by
  obtain ⟨e0, e1, -⟩ := idx_whole t
  show V c (Pipeline.arrRef spec4 2) (((cfg4.win 2).blk t).view.emb (ix2 j k)) = _
  refine congrArg _ (funext fun a => Fin.ext ?_)
  match a with
  | ⟨0, _⟩ => show win4_2.index t (0 : Fin 2) * 128 + 1 * j.val = j.val; rw [e0]; omega
  | ⟨1, _⟩ => show win4_2.index t (1 : Fin 2) * 128 + 1 * k.val = k.val; rw [e1]; omega

theorem iblk3_apply (c : Dev nD) (t : Fin cfg4.N) (j : Fin 1) (k : Fin 128) :
    iblk4 V c 3 t (ix2 j k) = V c (Pipeline.arrRef spec4 3) (ix2 j k) := by
  obtain ⟨-, -, e0, e1, -⟩ := idx_whole t
  show V c (Pipeline.arrRef spec4 3) (((cfg4.win 3).blk t).view.emb (ix2 j k)) = _
  refine congrArg _ (funext fun a => Fin.ext ?_)
  match a with
  | ⟨0, _⟩ => show win4_3.index t (0 : Fin 2) * 1 + 1 * j.val = j.val; rw [e0]; omega
  | ⟨1, _⟩ => show win4_3.index t (1 : Fin 2) * 128 + 1 * k.val = k.val; rw [e1]; omega

theorem iblk4_apply (c : Dev nD) (t : Fin cfg4.N) (j : Fin 128) (k : Fin 128) :
    iblk4 V c 4 t (ix2 j k) = V c (Pipeline.arrRef spec4 4) (ix2 j k) := by
  obtain ⟨-, -, -, -, e0, e1, -⟩ := idx_whole t
  show V c (Pipeline.arrRef spec4 4) (((cfg4.win 4).blk t).view.emb (ix2 j k)) = _
  refine congrArg _ (funext fun a => Fin.ext ?_)
  match a with
  | ⟨0, _⟩ => show win4_4.index t (0 : Fin 2) * 128 + 1 * j.val = j.val; rw [e0]; omega
  | ⟨1, _⟩ => show win4_4.index t (1 : Fin 2) * 128 + 1 * k.val = k.val; rw [e1]; omega

theorem iblk5_apply (c : Dev nD) (t : Fin cfg4.N) (j : Fin 1) (k : Fin 128) :
    iblk4 V c 5 t (ix2 j k) = V c (Pipeline.arrRef spec4 5) (ix2 j k) := by
  obtain ⟨-, -, -, -, -, -, e0, e1, -⟩ := idx_whole t
  show V c (Pipeline.arrRef spec4 5) (((cfg4.win 5).blk t).view.emb (ix2 j k)) = _
  refine congrArg _ (funext fun a => Fin.ext ?_)
  match a with
  | ⟨0, _⟩ => show win4_5.index t (0 : Fin 2) * 1 + 1 * j.val = j.val; rw [e0]; omega
  | ⟨1, _⟩ => show win4_5.index t (1 : Fin 2) * 128 + 1 * k.val = k.val; rw [e1]; omega

theorem iblk6_apply (c : Dev nD) (t : Fin cfg4.N) (j : Fin 1) (k : Fin 128) :
    iblk4 V c 6 t (ix2 j k) = V c (Pipeline.arrRef spec4 6) (ix2 j k) := by
  obtain ⟨-, -, -, -, -, -, -, -, e0, e1, -⟩ := idx_whole t
  show V c (Pipeline.arrRef spec4 6) (((cfg4.win 6).blk t).view.emb (ix2 j k)) = _
  refine congrArg _ (funext fun a => Fin.ext ?_)
  match a with
  | ⟨0, _⟩ => show win4_6.index t (0 : Fin 2) * 1 + 1 * j.val = j.val; rw [e0]; omega
  | ⟨1, _⟩ => show win4_6.index t (1 : Fin 2) * 128 + 1 * k.val = k.val; rw [e1]; omega

theorem iblk7_apply (c : Dev nD) (t : Fin cfg4.N) (j : Fin 1) (k : Fin 128) :
    iblk4 V c 7 t (ix2 j k) = V c (Pipeline.arrRef spec4 7) (ix2 j k) := by
  obtain ⟨-, -, -, -, -, -, -, -, -, -, e0, e1, -⟩ := idx_whole t
  show V c (Pipeline.arrRef spec4 7) (((cfg4.win 7).blk t).view.emb (ix2 j k)) = _
  refine congrArg _ (funext fun a => Fin.ext ?_)
  match a with
  | ⟨0, _⟩ => show win4_7.index t (0 : Fin 2) * 1 + 1 * j.val = j.val; rw [e0]; omega
  | ⟨1, _⟩ => show win4_7.index t (1 : Fin 2) * 128 + 1 * k.val = k.val; rw [e1]; omega

theorem iblk8_apply (c : Dev nD) (t : Fin cfg4.N) (j : Fin 128) (k : Fin 64) :
    iblk4 V c 8 t (ix2 j k) = V c (Pipeline.arrRef spec4 8) (ix2 j k) := by
  obtain ⟨-, -, -, -, -, -, -, -, -, -, -, -, e0, e1, -⟩ := idx_whole t
  show V c (Pipeline.arrRef spec4 8) (((cfg4.win 8).blk t).view.emb (ix2 j k)) = _
  refine congrArg _ (funext fun a => Fin.ext ?_)
  match a with
  | ⟨0, _⟩ => show win4_8.index t (0 : Fin 2) * 128 + 1 * j.val = j.val; rw [e0]; omega
  | ⟨1, _⟩ => show win4_8.index t (1 : Fin 2) * 64 + 1 * k.val = k.val; rw [e1]; omega

theorem iblk9_apply (c : Dev nD) (t : Fin cfg4.N) (j : Fin 1) (k : Fin 64) :
    iblk4 V c 9 t (ix2 j k) = V c (Pipeline.arrRef spec4 9) (ix2 j k) := by
  obtain ⟨-, -, -, -, -, -, -, -, -, -, -, -, -, -, e0, e1, -⟩ := idx_whole t
  show V c (Pipeline.arrRef spec4 9) (((cfg4.win 9).blk t).view.emb (ix2 j k)) = _
  refine congrArg _ (funext fun a => Fin.ext ?_)
  match a with
  | ⟨0, _⟩ => show win4_9.index t (0 : Fin 2) * 1 + 1 * j.val = j.val; rw [e0]; omega
  | ⟨1, _⟩ => show win4_9.index t (1 : Fin 2) * 64 + 1 * k.val = k.val; rw [e1]; omega

theorem iblk10_apply (c : Dev nD) (t : Fin cfg4.N) (j : Fin 64) (k : Fin 3) :
    iblk4 V c 10 t (ix2 j k) = V c (Pipeline.arrRef spec4 10) (ix2 j k) := by
  obtain ⟨-, -, -, -, -, -, -, -, -, -, -, -, -, -, -, -, e0, e1, -⟩ := idx_whole t
  show V c (Pipeline.arrRef spec4 10) (((cfg4.win 10).blk t).view.emb (ix2 j k)) = _
  refine congrArg _ (funext fun a => Fin.ext ?_)
  match a with
  | ⟨0, _⟩ => show win4_10.index t (0 : Fin 2) * 64 + 1 * j.val = j.val; rw [e0]; omega
  | ⟨1, _⟩ => show win4_10.index t (1 : Fin 2) * 3 + 1 * k.val = k.val; rw [e1]; omega

theorem iblk11_apply (c : Dev nD) (t : Fin cfg4.N) (j : Fin 1) (k : Fin 3) :
    iblk4 V c 11 t (ix2 j k) = V c (Pipeline.arrRef spec4 11) (ix2 j k) := by
  obtain ⟨-, -, -, -, -, -, -, -, -, -, -, -, -, -, -, -, -, -, e0, e1, -⟩ := idx_whole t
  show V c (Pipeline.arrRef spec4 11) (((cfg4.win 11).blk t).view.emb (ix2 j k)) = _
  refine congrArg _ (funext fun a => Fin.ext ?_)
  match a with
  | ⟨0, _⟩ => show win4_11.index t (0 : Fin 2) * 1 + 1 * j.val = j.val; rw [e0]; omega
  | ⟨1, _⟩ => show win4_11.index t (1 : Fin 2) * 3 + 1 * k.val = k.val; rw [e1]; omega

theorem iblk12_apply (c : Dev nD) (t : Fin cfg4.N) (j : Fin 128) (k : Fin 64) :
    iblk4 V c 12 t (ix2 j k) = V c (Pipeline.arrRef spec4 12) (ix2 j k) := by
  obtain ⟨-, -, -, -, -, -, -, -, -, -, -, -, -, -, -, -, -, -, -, -, e0, e1, -⟩ := idx_whole t
  show V c (Pipeline.arrRef spec4 12) (((cfg4.win 12).blk t).view.emb (ix2 j k)) = _
  refine congrArg _ (funext fun a => Fin.ext ?_)
  match a with
  | ⟨0, _⟩ => show win4_12.index t (0 : Fin 2) * 128 + 1 * j.val = j.val; rw [e0]; omega
  | ⟨1, _⟩ => show win4_12.index t (1 : Fin 2) * 64 + 1 * k.val = k.val; rw [e1]; omega

theorem iblk13_apply (c : Dev nD) (t : Fin cfg4.N) (j : Fin 1) (k : Fin 64) :
    iblk4 V c 13 t (ix2 j k) = V c (Pipeline.arrRef spec4 13) (ix2 j k) := by
  obtain ⟨-, -, -, -, -, -, -, -, -, -, -, -, -, -, -, -, -, -, -, -, -, -, e0, e1, -⟩ := idx_whole t
  show V c (Pipeline.arrRef spec4 13) (((cfg4.win 13).blk t).view.emb (ix2 j k)) = _
  refine congrArg _ (funext fun a => Fin.ext ?_)
  match a with
  | ⟨0, _⟩ => show win4_13.index t (0 : Fin 2) * 1 + 1 * j.val = j.val; rw [e0]; omega
  | ⟨1, _⟩ => show win4_13.index t (1 : Fin 2) * 64 + 1 * k.val = k.val; rw [e1]; omega

theorem iblk14_apply (c : Dev nD) (t : Fin cfg4.N) (j : Fin 64) (k : Fin 1) :
    iblk4 V c 14 t (ix2 j k) = V c (Pipeline.arrRef spec4 14) (ix2 j k) := by
  obtain ⟨-, -, -, -, -, -, -, -, -, -, -, -, -, -, -, -, -, -, -, -, -, -, -, -, e0, e1, -⟩ := idx_whole t
  show V c (Pipeline.arrRef spec4 14) (((cfg4.win 14).blk t).view.emb (ix2 j k)) = _
  refine congrArg _ (funext fun a => Fin.ext ?_)
  match a with
  | ⟨0, _⟩ => show win4_14.index t (0 : Fin 2) * 64 + 1 * j.val = j.val; rw [e0]; omega
  | ⟨1, _⟩ => show win4_14.index t (1 : Fin 2) * 1 + 1 * k.val = k.val; rw [e1]; omega

theorem iblk15_apply (c : Dev nD) (t : Fin cfg4.N) (j : Fin 1) (k : Fin 1) :
    iblk4 V c 15 t (ix2 j k) = V c (Pipeline.arrRef spec4 15) (ix2 j k) := by
  obtain ⟨-, -, -, -, -, -, -, -, -, -, -, -, -, -, -, -, -, -, -, -, -, -, -, -, -, -, e0, e1⟩ := idx_whole t
  show V c (Pipeline.arrRef spec4 15) (((cfg4.win 15).blk t).view.emb (ix2 j k)) = _
  refine congrArg _ (funext fun a => Fin.ext ?_)
  match a with
  | ⟨0, _⟩ => show win4_15.index t (0 : Fin 2) * 1 + 1 * j.val = j.val; rw [e0]; omega
  | ⟨1, _⟩ => show win4_15.index t (1 : Fin 2) * 1 + 1 * k.val = k.val; rw [e1]; omega

abbrev hnRow (c : Dev nD) (r : Fin 50000) : Fin 128 → EReal :=
  Cert.Spec.convK (fun k : Fin 128 => V c (Pipeline.arrRef spec4 0) (ix2 r k)) (fun k : Fin 128 => V c (Pipeline.arrRef spec4 1) (ix2 r k))
    (fun (j k : Fin 128) => V c (Pipeline.arrRef spec4 2) (ix2 j k)) (fun k : Fin 128 => V c (Pipeline.arrRef spec4 3) (ix2 (0 : Fin 1) k))
    (fun (j k : Fin 128) => V c (Pipeline.arrRef spec4 4) (ix2 j k)) (fun k : Fin 128 => V c (Pipeline.arrRef spec4 5) (ix2 (0 : Fin 1) k))
    (fun k : Fin 128 => V c (Pipeline.arrRef spec4 6) (ix2 (0 : Fin 1) k)) (fun k : Fin 128 => V c (Pipeline.arrRef spec4 7) (ix2 (0 : Fin 1) k))

def head16 (c : Dev nD) (r : Fin 50000) (q : Fin 3) : EReal :=
  Cert.Spec.mlp2 (hnRow V c r) (fun (j : Fin 128) (k : Fin 64) => V c (Pipeline.arrRef spec4 8) (ix2 j k))
      (fun k : Fin 64 => V c (Pipeline.arrRef spec4 9) (ix2 (0 : Fin 1) k)) (fun (j : Fin 64) (k : Fin 3) => V c (Pipeline.arrRef spec4 10) (ix2 j k))
      (fun k : Fin 3 => V c (Pipeline.arrRef spec4 11) (ix2 (0 : Fin 1) k)) q

abbrev arr16 (c : Dev nD) : S50000x3.Idx → EReal :=
  fun i => head16 V c ⟨(i 0).val, idx2_lt0 i⟩ ⟨(i 1).val, idx2_lt1 i⟩

theorem block16 (c : Dev nD) (t : Fin cfg4.N) (p : Fin 5000) (q : Fin 3) :
    out4_16 (F := Ideal) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (ix2 p q)
      = head16 V c (rowOf t p) q := by
  refine (out16_apply (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) p q).trans ?_
  unfold head16
  simp only [hnBlk, hnRow, iblk0_apply, iblk1_apply, iblk2_apply, iblk3_apply, iblk4_apply, iblk5_apply, iblk6_apply, iblk7_apply, iblk8_apply, iblk9_apply, iblk10_apply, iblk11_apply, iblk12_apply, iblk13_apply, iblk14_apply, iblk15_apply]

theorem flushed16_eq (c : Dev nD) (t : Fin cfg4.N) :
    (dat4 (F := Ideal) V c).flushed 16 t = ((cfg4.win 16).blk t).view.read (Elt Ideal) (arr16 V c) := by
  show (cfg4.win 16).cut (grid4.coords t) ((dat4 (F := Ideal) V c).after 16 t) = _
  rw [after4_16]
  obtain ⟨-, -, -, -, e0, e1, -, -⟩ := idx_rows t
  refine funext fun j => ?_
  obtain ⟨p, q, rfl⟩ : ∃ (p : Fin 5000) (q : Fin 3), j = ix2 p q := ⟨j 0, j 1, eq_ix2 j⟩
  refine (block16 V c t p q).trans ?_
  show head16 V c (rowOf t p) q = head16 V c ⟨((((cfg4.win 16).blk t).view.emb (ix2 p q)) 0).val, _⟩ ⟨((((cfg4.win 16).blk t).view.emb (ix2 p q)) 1).val, _⟩
  refine congrArg₂ (head16 V c) (Fin.ext ?_) (Fin.ext ?_)
  · show t.val * 5000 + p.val = win4_16.index t (0 : Fin 2) * 5000 + 1 * p.val
    rw [e0]; omega
  · show q.val = win4_16.index t (1 : Fin 2) * 3 + 1 * q.val
    rw [e1]; omega

theorem mem_blk16 (t : Fin cfg4.N) (i : S50000x3.Idx) :
    i ∈ ((cfg4.win 16).blk t).view.set ↔ ∀ a : Fin 2, win4_16.index t a * S5000x3.size a ≤ (i a).val ∧ (i a).val < win4_16.index t a * S5000x3.size a + S5000x3.size a := by
  show i ∈ ((View.whole main_v86_0).slice (win4_16.rect t)).set ↔ _
  rw [View.set_slice_whole, Rect.mem_set_unit]
  exact Iff.rfl

theorem cover16 (i : S50000x3.Idx) :
    ∃ t : Fin cfg4.N, (cfg4.win 16).flush t = true ∧ i ∈ ((cfg4.win 16).blk t).view.set := by
  have hi0 : (i 0).val < 50000 := (i 0).isLt
  have hi1 : (i 1).val < 3 := (i 1).isLt
  obtain ⟨t, ht, -⟩ := idx_onto ⟨(i 0).val / 5000, by omega⟩
  have q0 : win4_16.index t (0 : Fin 2) = (i 0).val / 5000 := congrFun ht 0
  have q1 : win4_16.index t (1 : Fin 2) = 0 := congrFun ht 1
  refine ⟨t, flush4_16 t, ?_⟩
  rw [mem_blk16]
  intro a
  match a with
  | ⟨0, _⟩ => show win4_16.index t (0 : Fin 2) * 5000 ≤ (i 0).val ∧ (i 0).val < win4_16.index t (0 : Fin 2) * 5000 + 5000; omega
  | ⟨1, _⟩ => show win4_16.index t (1 : Fin 2) * 3 ≤ (i 1).val ∧ (i 1).val < win4_16.index t (1 : Fin 2) * 3 + 3; omega

theorem final16 (c : Dev nD) : (dat4 (F := Ideal) V c).arrAt 16 cfg4.N = arr16 V c :=
  (dat4 (F := Ideal) V c).arrAt_eq_of_cover 16 (arr16 V c) (fun t _ => flushed16_eq V c t) cover16

theorem final16_apply (c : Dev nD) (r : Fin 50000) (q : Fin 3) :
    (dat4 (F := Ideal) V c).arrAt 16 cfg4.N (ix2 r q)
      = Cert.Spec.mlp2 (hnRow V c r) (fun (j : Fin 128) (k : Fin 64) => V c (Pipeline.arrRef spec4 8) (ix2 j k))
      (fun k : Fin 64 => V c (Pipeline.arrRef spec4 9) (ix2 (0 : Fin 1) k)) (fun (j : Fin 64) (k : Fin 3) => V c (Pipeline.arrRef spec4 10) (ix2 j k))
      (fun k : Fin 3 => V c (Pipeline.arrRef spec4 11) (ix2 (0 : Fin 1) k)) q :=
  congrFun (final16 V c) (ix2 r q)

def head17 (c : Dev nD) (r : Fin 50000) (q : Fin 1) : EReal :=
  Cert.Spec.mlp2 (hnRow V c r) (fun (j : Fin 128) (k : Fin 64) => V c (Pipeline.arrRef spec4 12) (ix2 j k))
      (fun k : Fin 64 => V c (Pipeline.arrRef spec4 13) (ix2 (0 : Fin 1) k)) (fun (j : Fin 64) (k : Fin 1) => V c (Pipeline.arrRef spec4 14) (ix2 j k))
      (fun k : Fin 1 => V c (Pipeline.arrRef spec4 15) (ix2 (0 : Fin 1) k)) q

abbrev arr17 (c : Dev nD) : S50000x1.Idx → EReal :=
  fun i => head17 V c ⟨(i 0).val, idx2_lt0 i⟩ ⟨(i 1).val, idx2_lt1 i⟩

theorem block17 (c : Dev nD) (t : Fin cfg4.N) (p : Fin 5000) (q : Fin 1) :
    out4_17 (F := Ideal) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (ix2 p q)
      = head17 V c (rowOf t p) q := by
  refine (out17_apply (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) p q).trans ?_
  unfold head17
  simp only [hnBlk, hnRow, iblk0_apply, iblk1_apply, iblk2_apply, iblk3_apply, iblk4_apply, iblk5_apply, iblk6_apply, iblk7_apply, iblk8_apply, iblk9_apply, iblk10_apply, iblk11_apply, iblk12_apply, iblk13_apply, iblk14_apply, iblk15_apply]

theorem flushed17_eq (c : Dev nD) (t : Fin cfg4.N) :
    (dat4 (F := Ideal) V c).flushed 17 t = ((cfg4.win 17).blk t).view.read (Elt Ideal) (arr17 V c) := by
  show (cfg4.win 17).cut (grid4.coords t) ((dat4 (F := Ideal) V c).after 17 t) = _
  rw [after4_17]
  obtain ⟨-, -, -, -, -, -, e0, e1⟩ := idx_rows t
  refine funext fun j => ?_
  obtain ⟨p, q, rfl⟩ : ∃ (p : Fin 5000) (q : Fin 1), j = ix2 p q := ⟨j 0, j 1, eq_ix2 j⟩
  refine (block17 V c t p q).trans ?_
  show head17 V c (rowOf t p) q = head17 V c ⟨((((cfg4.win 17).blk t).view.emb (ix2 p q)) 0).val, _⟩ ⟨((((cfg4.win 17).blk t).view.emb (ix2 p q)) 1).val, _⟩
  refine congrArg₂ (head17 V c) (Fin.ext ?_) (Fin.ext ?_)
  · show t.val * 5000 + p.val = win4_17.index t (0 : Fin 2) * 5000 + 1 * p.val
    rw [e0]; omega
  · show q.val = win4_17.index t (1 : Fin 2) * 1 + 1 * q.val
    rw [e1]; omega

theorem mem_blk17 (t : Fin cfg4.N) (i : S50000x1.Idx) :
    i ∈ ((cfg4.win 17).blk t).view.set ↔ ∀ a : Fin 2, win4_17.index t a * S5000x1.size a ≤ (i a).val ∧ (i a).val < win4_17.index t a * S5000x1.size a + S5000x1.size a := by
  show i ∈ ((View.whole main_v86_1).slice (win4_17.rect t)).set ↔ _
  rw [View.set_slice_whole, Rect.mem_set_unit]
  exact Iff.rfl

theorem cover17 (i : S50000x1.Idx) :
    ∃ t : Fin cfg4.N, (cfg4.win 17).flush t = true ∧ i ∈ ((cfg4.win 17).blk t).view.set := by
  have hi0 : (i 0).val < 50000 := (i 0).isLt
  have hi1 : (i 1).val < 1 := (i 1).isLt
  obtain ⟨t, -, ht⟩ := idx_onto ⟨(i 0).val / 5000, by omega⟩
  have q0 : win4_17.index t (0 : Fin 2) = (i 0).val / 5000 := congrFun ht 0
  have q1 : win4_17.index t (1 : Fin 2) = 0 := congrFun ht 1
  refine ⟨t, flush4_17 t, ?_⟩
  rw [mem_blk17]
  intro a
  match a with
  | ⟨0, _⟩ => show win4_17.index t (0 : Fin 2) * 5000 ≤ (i 0).val ∧ (i 0).val < win4_17.index t (0 : Fin 2) * 5000 + 5000; omega
  | ⟨1, _⟩ => show win4_17.index t (1 : Fin 2) * 1 ≤ (i 1).val ∧ (i 1).val < win4_17.index t (1 : Fin 2) * 1 + 1; omega

theorem final17 (c : Dev nD) : (dat4 (F := Ideal) V c).arrAt 17 cfg4.N = arr17 V c :=
  (dat4 (F := Ideal) V c).arrAt_eq_of_cover 17 (arr17 V c) (fun t _ => flushed17_eq V c t) cover17

theorem final17_apply (c : Dev nD) (r : Fin 50000) (q : Fin 1) :
    (dat4 (F := Ideal) V c).arrAt 17 cfg4.N (ix2 r q)
      = Cert.Spec.mlp2 (hnRow V c r) (fun (j : Fin 128) (k : Fin 64) => V c (Pipeline.arrRef spec4 12) (ix2 j k))
      (fun k : Fin 64 => V c (Pipeline.arrRef spec4 13) (ix2 (0 : Fin 1) k)) (fun (j : Fin 64) (k : Fin 1) => V c (Pipeline.arrRef spec4 14) (ix2 j k))
      (fun k : Fin 1 => V c (Pipeline.arrRef spec4 15) (ix2 (0 : Fin 1) k)) q :=
  congrFun (final17 V c) (ix2 r q)

end Arrays

end Cert.KernelIdeal.KReg4

end
-- ==== Proof.KVal3.lean ====
import proofs.«410051_j26534307954693_2_alg».proof.Proof.KVal2
import proofs.«410051_j26534307954693_2_alg».proof.Proof.KReg4
import proofs.«410051_j26534307954693_2_alg».proof.Proof.KFold2

noncomputable section

namespace Cert.KernelIdeal.KVal

open Cert.KernelIdeal Cert.KernelIdeal.Gen Idealize.ShloMosaic Idealize.ShloMosaic.TcCoe Idealize.ShloMosaic.ValueIdx
open Idealize.SL.Sem

variable (m : Cert.Bridge.KMem) (ρ : Dev nD → PrngReg) (c : Dev nD)

theorem agg2K (hr : ∀ e : Fin 600000, 0 ≤ (Cert.Bridge.a2 m c (ix2 (0 : Fin 2) e)).toInt ∧ (Cert.Bridge.a2 m c (ix2 (0 : Fin 2) e)).toInt < 50000) :
    V18 m ρ c (Pipeline.arrRef spec4 0) = Cert.Bridge.agg2 m c :=
  (KFold.in_4_0 m ρ c).trans (((aggOf_eq m c _ _ hr).trans
    (congrArg₂ (fun H EA => Glue.aggK H EA (Cert.Bridge.a2 m c)) (h2K m ρ c hr) (eaK m ρ c))).trans (Glue.agg2_eq m c))

set_option maxHeartbeats 2000000 in
theorem hn_eq (hr : ∀ e : Fin 600000, 0 ≤ (Cert.Bridge.a2 m c (ix2 (0 : Fin 2) e)).toInt ∧ (Cert.Bridge.a2 m c (ix2 (0 : Fin 2) e)).toInt < 50000) (r : Fin 50000) :
    KReg4.hnRow (V18 m ρ) c r = fun k : Fin 128 => Cert.Bridge.h3 m c (ix2 r k) := by
  funext q
  unfold KReg4.hnRow Cert.Bridge.h3
  rw [Cert.ReferenceIdeal.RRow.v249_apply, ← Cert.Spec.convK_eq_convR]
  refine congrFun (Cert.Spec.convK_congr ?_ ?_ ?_ ?_ ?_ ?_ ?_ ?_) q
  · funext k; exact congrFun (agg2K m ρ c hr) (ix2 r k)
  · funext k; exact (congrFun (KFold.in_4_1 m ρ c) (ix2 r k)).trans (congrFun (h2K m ρ c hr) (ix2 r k))
  · funext j k; exact (congrFun (KFold.in_4_2 m ρ c) (ix2 j k)).trans (KLayout.slab 2 (by decide) _ _ j k)
  · funext k; exact (congrFun (KFold.in_4_3 m ρ c) (ix2 (0 : Fin 1) k)).trans (KLayout.stackRow 2 (by decide) _ _ k)
  · funext j k; exact (congrFun (KFold.in_4_4 m ρ c) (ix2 j k)).trans (KLayout.slab 2 (by decide) _ _ j k)
  · funext k; exact (congrFun (KFold.in_4_5 m ρ c) (ix2 (0 : Fin 1) k)).trans (KLayout.stackRow 2 (by decide) _ _ k)
  · funext k; exact (congrFun (KFold.in_4_6 m ρ c) (ix2 (0 : Fin 1) k)).trans (KLayout.stackRow 2 (by decide) _ _ k)
  · funext k; exact (congrFun (KFold.in_4_7 m ρ c) (ix2 (0 : Fin 1) k)).trans (KLayout.stackRow 2 (by decide) _ _ k)

set_option maxHeartbeats 2000000 in
theorem urawK (hr : ∀ e : Fin 600000, 0 ≤ (Cert.Bridge.a2 m c (ix2 (0 : Fin 2) e)).toInt ∧ (Cert.Bridge.a2 m c (ix2 (0 : Fin 2) e)).toInt < 50000) :
    (dat4 (F := Ideal) (V18 m ρ) c).arrAt 16 cfg4.N = Cert.Bridge.uraw m c := by
  refine funext fun (i : S50000x3.Idx) => ?_
  obtain ⟨r, q, rfl⟩ : ∃ (r : Fin 50000) (q : Fin 3), i = ix2 r q := ⟨i 0, i 1, eq_ix2 i⟩
  refine (KReg4.final16_apply (V18 m ρ) c r q).trans ?_
  unfold Cert.Bridge.uraw
  rw [Cert.ReferenceIdeal.RRow.v260_apply]
  refine congrFun (Cert.Spec.mlp2_congr ?_ ?_ ?_ ?_ ?_) q
  · exact hn_eq m ρ c hr r
  · funext j k; exact congrFun (KFold.in_4_8 m ρ c) (ix2 j k)
  · funext k; exact (congrFun (KFold.in_4_9 m ρ c) (ix2 (0 : Fin 1) k)).trans (KLayout.row64 _ k)
  · funext j k; exact congrFun (KFold.in_4_10 m ρ c) (ix2 j k)
  · funext k; exact (congrFun (KFold.in_4_11 m ρ c) (ix2 (0 : Fin 1) k)).trans (KLayout.row3 _ k)

set_option maxHeartbeats 2000000 in
theorem logsK (hr : ∀ e : Fin 600000, 0 ≤ (Cert.Bridge.a2 m c (ix2 (0 : Fin 2) e)).toInt ∧ (Cert.Bridge.a2 m c (ix2 (0 : Fin 2) e)).toInt < 50000) :
    (dat4 (F := Ideal) (V18 m ρ) c).arrAt 17 cfg4.N = Cert.Bridge.logsraw m c := by
  refine funext fun (i : S50000x1.Idx) => ?_
  obtain ⟨r, q, rfl⟩ : ∃ (r : Fin 50000) (q : Fin 1), i = ix2 r q := ⟨i 0, i 1, eq_ix2 i⟩
  refine (KReg4.final17_apply (V18 m ρ) c r q).trans ?_
  unfold Cert.Bridge.logsraw
  rw [Cert.ReferenceIdeal.RRow.v271_apply]
  refine congrFun (Cert.Spec.mlp2_congr ?_ ?_ ?_ ?_ ?_) q
  · exact hn_eq m ρ c hr r
  · funext j k; exact congrFun (KFold.in_4_12 m ρ c) (ix2 j k)
  · funext k; exact (congrFun (KFold.in_4_13 m ρ c) (ix2 (0 : Fin 1) k)).trans (KLayout.row64 _ k)
  · funext j k; exact congrFun (KFold.in_4_14 m ρ c) (ix2 j k)
  · funext k; exact (congrFun (KFold.in_4_15 m ρ c) (ix2 (0 : Fin 1) k)).trans (KLayout.row1 _ k)

theorem res_u (hr : ∀ e : Fin 600000, 0 ≤ (Cert.Bridge.a2 m c (ix2 (0 : Fin 2) e)).toInt ∧ (Cert.Bridge.a2 m c (ix2 (0 : Fin 2) e)).toInt < 50000) :
    W23 m ρ c (Proc.devRef .tc main_v90) = Cert.Bridge.vU m c := by
  rw [KFold.res_v90 m ρ c, urawK m ρ c hr]; rfl

theorem res_s (hr : ∀ e : Fin 600000, 0 ≤ (Cert.Bridge.a2 m c (ix2 (0 : Fin 2) e)).toInt ∧ (Cert.Bridge.a2 m c (ix2 (0 : Fin 2) e)).toInt < 50000) :
    W23 m ρ c (Proc.devRef .tc main_v92) = Cert.Bridge.vS m c := by
  rw [KFold.res_v92 m ρ c, logsK m ρ c hr]; rfl

theorem res_logs (hr : ∀ e : Fin 600000, 0 ≤ (Cert.Bridge.a2 m c (ix2 (0 : Fin 2) e)).toInt ∧ (Cert.Bridge.a2 m c (ix2 (0 : Fin 2) e)).toInt < 50000) :
    W23 m ρ c (Proc.devRef .tc main_v91) = Cert.Bridge.vLogS m c := by
  rw [KFold.res_v91 m ρ c, logsK m ρ c hr]; rfl

theorem res_scale (hr : ∀ e : Fin 600000, 0 ≤ (Cert.Bridge.a2 m c (ix2 (0 : Fin 2) e)).toInt ∧ (Cert.Bridge.a2 m c (ix2 (0 : Fin 2) e)).toInt < 50000) :
    W23 m ρ c (Proc.devRef .tc main_v88) = Cert.Bridge.vScale m c := by
  rw [KFold.res_v88 m ρ c]; rfl

theorem res_safety (hr : ∀ e : Fin 600000, 0 ≤ (Cert.Bridge.a2 m c (ix2 (0 : Fin 2) e)).toInt ∧ (Cert.Bridge.a2 m c (ix2 (0 : Fin 2) e)).toInt < 50000) :
    W23 m ρ c (Proc.devRef .tc main_v96) = Cert.Bridge.vSafety m c := by
  rw [KFold.res_v96 m ρ c, logsK m ρ c hr]; rfl

end Cert.KernelIdeal.KVal

end
-- ==== Proof.KVal.lean ====
import proofs.«410051_j26534307954693_2_alg».proof.Proof.KVal3
-- ==== Proof.lean ====
/-
  A message-passing network on a graph of 50000 nodes and 600000 edges: two encoders, three layers of
  gather / add / rectify / scatter-add followed by a perceptron with a residual and a layer normalisation, two heads.
  Both programs compute the same row functions; they differ in the normalisation (times the reciprocal root against
  divided by the root: equal because the variance plus epsilon is positive) and in the gather (masked against plain:
  equal because every source index is in range under the precondition).
-/
import proofs.«410051_j26534307954693_2_alg».proof.Defs
import proofs.«410051_j26534307954693_2_alg».proof.Proof.Gen.Kernel
import proofs.«410051_j26534307954693_2_alg».proof.Proof.Gen.Kernel.Frame
import proofs.«410051_j26534307954693_2_alg».proof.Proof.Gen.KernelIdeal
import proofs.«410051_j26534307954693_2_alg».proof.Proof.Gen.KernelIdeal.Frame
import proofs.«410051_j26534307954693_2_alg».proof.Proof.Gen.ReferenceIdeal
import proofs.«410051_j26534307954693_2_alg».proof.Proof.Gen.Pre_finite_inputs
import proofs.«410051_j26534307954693_2_alg».proof.Proof.KernelRunP
import proofs.«410051_j26534307954693_2_alg».proof.Proof.RefRunP
import proofs.«410051_j26534307954693_2_alg».proof.Proof.RFold
import proofs.«410051_j26534307954693_2_alg».proof.Proof.Bridge
import proofs.«410051_j26534307954693_2_alg».proof.Proof.PreIdx
import proofs.«410051_j26534307954693_2_alg».proof.Proof.KVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference writes none of its thirty arguments. -/
theorem frame_ri : Cert.frame_ReferenceIdeal := fun m ρ _ =>
  (θ_run Cert.ReferenceIdeal.defs _ _).mono (fun _ h c => by
    repeat' apply And.intro
    all_goals exact (h c _).trans (Cert.ReferenceIdeal.RFold.kept m c _ (by decide)))
    (Cert.ReferenceIdeal.RunP.run_after (F := Ideal) m ρ)

theorem preserves : Cert.preserves_Kernel_KernelIdeal := trivial

open Cert.KernelIdeal Cert.KernelIdeal.Gen in
/-- Both runs end at the reference's five stages read at the kernel's arguments. -/
theorem algebraic : Cert.algebraic_KernelIdeal_ReferenceIdeal := by
  intro m ρ m' ρ' hpre hagree
  have hsrc : ∀ (c : Dev Cert.KernelIdeal.nD) (e : Fin 600000),
      0 ≤ (Cert.Bridge.a2 m c (ValueIdx.ix2 (0 : Fin 2) e)).toInt ∧ (Cert.Bridge.a2 m c (ValueIdx.ix2 (0 : Fin 2) e)).toInt < 50000 :=
    fun c e => PreIdx.src_range _ _ _ _ _ _ _ _ _ _ _ _ _ _ _ _ _ _ _ _ _ _ _ _ _ _ _ _ _ _ (hpre c) e
  refine ⟨Cert.Bridge.vU m, Cert.Bridge.vS m, Cert.Bridge.vLogS m, Cert.Bridge.vScale m, Cert.Bridge.vSafety m, ?_, ?_⟩
  · exact (θ_run Cert.KernelIdeal.defs _ _).mono (fun r h c =>
      ⟨(h c _ (mem_uc main_v90 (by decide))).trans (KVal.res_u m ρ c (hsrc c)),
       (h c _ (mem_uc main_v92 (by decide))).trans (KVal.res_s m ρ c (hsrc c)),
       (h c _ (mem_uc main_v91 (by decide))).trans (KVal.res_logs m ρ c (hsrc c)),
       (h c _ (mem_uc main_v88 (by decide))).trans (KVal.res_scale m ρ c (hsrc c)),
       (h c _ (mem_uc main_v96 (by decide))).trans (KVal.res_safety m ρ c (hsrc c)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c),
       (h c _ (mem_uc main_arg14 (by decide))).trans (W23_main_arg14 m ρ c),
       (h c _ (mem_uc main_arg15 (by decide))).trans (W23_main_arg15 m ρ c),
       (h c _ (mem_uc main_arg16 (by decide))).trans (W23_main_arg16 m ρ c),
       (h c _ (mem_uc main_arg17 (by decide))).trans (W23_main_arg17 m ρ c),
       (h c _ (mem_uc main_arg18 (by decide))).trans (W23_main_arg18 m ρ c),
       (h c _ (mem_uc main_arg19 (by decide))).trans (W23_main_arg19 m ρ c),
       (h c _ (mem_uc main_arg20 (by decide))).trans (W23_main_arg20 m ρ c),
       (h c _ (mem_uc main_arg21 (by decide))).trans (W23_main_arg21 m ρ c),
       (h c _ (mem_uc main_arg22 (by decide))).trans (W23_main_arg22 m ρ c),
       (h c _ (mem_uc main_arg23 (by decide))).trans (W23_main_arg23 m ρ c),
       (h c _ (mem_uc main_arg24 (by decide))).trans (W23_main_arg24 m ρ c),
       (h c _ (mem_uc main_arg25 (by decide))).trans (W23_main_arg25 m ρ c),
       (h c _ (mem_uc main_arg26 (by decide))).trans (W23_main_arg26 m ρ c),
       (h c _ (mem_uc main_arg27 (by decide))).trans (W23_main_arg27 m ρ c),
       (h c _ (mem_uc main_arg28 (by decide))).trans (W23_main_arg28 m ρ c),
       (h c _ (mem_uc main_arg29 (by decide))).trans (W23_main_arg29 m ρ c)⟩)
      (GenP.run_all (F := Ideal) m ρ)
  · refine (θ_run Cert.ReferenceIdeal.defs _ _).mono (fun r h c => ?_) (Cert.ReferenceIdeal.RunP.run_after (F := Ideal) m' ρ')
    obtain ⟨e0, e1, e2, e3, e4, e5, e6, e7, e8, e9, e10, e11, e12, e13, e14, e15, e16, e17, e18, e19, e20, e21, e22, e23, e24, e25, e26, e27, e28, e29⟩ := hagree c
    refine ⟨(h c _).trans ((Cert.ReferenceIdeal.RFold.res_v262 m' c).trans ?_), (h c _).trans ((Cert.ReferenceIdeal.RFold.res_v273 m' c).trans ?_),
      (h c _).trans ((Cert.ReferenceIdeal.RFold.res_v272 m' c).trans ?_), (h c _).trans ((Cert.ReferenceIdeal.RFold.res_v251 m' c).trans ?_),
      (h c _).trans ((Cert.ReferenceIdeal.RFold.res_v277 m' c).trans ?_), ?_⟩
    · unfold Cert.Bridge.vU Cert.ReferenceIdeal.RFold.arg; simp only [e0, e1, e2, e3, e4, e5, e6, e7, e8, e9, e10, e11, e12, e13, e14, e15, e16, e17, e18, e19, e20, e21, e22, e23, e24, e29]
    · unfold Cert.Bridge.vS Cert.ReferenceIdeal.RFold.arg; simp only [e0, e1, e2, e3, e4, e5, e6, e7, e8, e9, e10, e11, e12, e13, e14, e15, e16, e17, e18, e19, e20, e25, e26, e27, e28]
    · unfold Cert.Bridge.vLogS Cert.ReferenceIdeal.RFold.arg; simp only [e0, e1, e2, e3, e4, e5, e6, e7, e8, e9, e10, e11, e12, e13, e14, e15, e16, e17, e18, e19, e20, e25, e26, e27, e28]
    · unfold Cert.Bridge.vScale Cert.ReferenceIdeal.RFold.arg; simp only [e29]
    · unfold Cert.Bridge.vSafety Cert.ReferenceIdeal.RFold.arg; simp only [e0, e1, e2, e3, e4, e5, e6, e7, e8, e9, e10, e11, e12, e13, e14, e15, e16, e17, e18, e19, e20, e25, e26, e27, e28]
    · repeat' apply And.intro
      all_goals exact (h c _).trans (Cert.ReferenceIdeal.RFold.kept m' c _ (by decide))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
